-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000 : Shape := ⟨1, ![1600000]⟩
abbrev S60000 : Shape := ⟨1, ![60000]⟩
abbrev S100000 : Shape := ⟨1, ![100000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S60000 : S_.BroadcastsInDim S60000 (![] : Fin 0 → Fin S60000.rank)
  reducesTo_S60000_S_d0 : S60000.ReducesTo [0] S_
  bcast_S_S100000 : S_.BroadcastsInDim S100000 (![] : Fin 0 → Fin S100000.rank)
  reducesTo_S100000_S_d0 : S100000.ReducesTo [0] S_

variable [Facts]

def fn_part3 {F : FTy → Type} [FloatOps F] (main_arg6 : IVec S100000 32) (main_v49 : IVec S_ 1) (main_c_19 : IVec S_ 32) : IVec S_ 1 :=
  let main_v50 : IVec S100000 32 := broadcastInDim S100000 ![] bcast_S_S100000 main_c_19
  let main_v51 : IVec S100000 1 := cmpi .sge main_arg6 main_v50
  let main_c_20 : IVec S_ 32 := constantI S_ 32 60000#32
  let main_v52 : IVec S100000 32 := broadcastInDim S100000 ![] bcast_S_S100000 main_c_20
  let main_v53 : IVec S100000 1 := cmpi .slt main_arg6 main_v52
  let main_v54 : IVec S100000 1 := andi main_v51 main_v53
  let main_c_21 : IVec S_ 1 := constantI S_ 1 1#1
  let main_v55 : IVec S_ 1 := (fun x v => Host.reduce IntOp.andi x v reducesTo_S100000_S_d0 h_S_) main_v54 main_c_21
  let main_v56 : IVec S_ 1 := andi main_v49 main_v55
  main_v56

def fn_part2 {F : FTy → Type} [FloatOps F] (main_arg4 : IVec S100000 32) (main_arg5 : IVec S60000 32) (main_arg6 : IVec S100000 32) (main_v28 : IVec S_ 1) (main_v33 : IVec S60000 1) : IVec S_ 1 :=
  let main_c_12 : IVec S_ 1 := constantI S_ 1 1#1
  let main_v34 : IVec S_ 1 := (fun x v => Host.reduce IntOp.andi x v reducesTo_S60000_S_d0 h_S_) main_v33 main_c_12
  let main_v35 : IVec S_ 1 := andi main_v28 main_v34
  let main_c_13 : IVec S_ 32 := constantI S_ 32 0#32
  let main_v36 : IVec S100000 32 := broadcastInDim S100000 ![] bcast_S_S100000 main_c_13
  let main_v37 : IVec S100000 1 := cmpi .sge main_arg4 main_v36
  let main_c_14 : IVec S_ 32 := constantI S_ 32 60000#32
  let main_v38 : IVec S100000 32 := broadcastInDim S100000 ![] bcast_S_S100000 main_c_14
  let main_v39 : IVec S100000 1 := cmpi .slt main_arg4 main_v38
  let main_v40 : IVec S100000 1 := andi main_v37 main_v39
  let main_c_15 : IVec S_ 1 := constantI S_ 1 1#1
  let main_v41 : IVec S_ 1 := (fun x v => Host.reduce IntOp.andi x v reducesTo_S100000_S_d0 h_S_) main_v40 main_c_15
  let main_v42 : IVec S_ 1 := andi main_v35 main_v41
  let main_c_16 : IVec S_ 32 := constantI S_ 32 0#32
  let main_v43 : IVec S60000 32 := broadcastInDim S60000 ![] bcast_S_S60000 main_c_16
  let main_v44 : IVec S60000 1 := cmpi .sge main_arg5 main_v43
  let main_c_17 : IVec S_ 32 := constantI S_ 32 100000#32
  let main_v45 : IVec S60000 32 := broadcastInDim S60000 ![] bcast_S_S60000 main_c_17
  let main_v46 : IVec S60000 1 := cmpi .slt main_arg5 main_v45
  let main_v47 : IVec S60000 1 := andi main_v44 main_v46
  let main_c_18 : IVec S_ 1 := constantI S_ 1 1#1
  let main_v48 : IVec S_ 1 := (fun x v => Host.reduce IntOp.andi x v reducesTo_S60000_S_d0 h_S_) main_v47 main_c_18
  let main_v49 : IVec S_ 1 := andi main_v42 main_v48
  let main_c_19 : IVec S_ 32 := constantI S_ 32 0#32
  fn_part3 (F := F) main_arg6 main_v49 main_c_19

def fn_part1 {F : FTy → Type} [FloatOps F] (main_arg3 : IVec S60000 32) (main_arg4 : IVec S100000 32) (main_arg5 : IVec S60000 32) (main_arg6 : IVec S100000 32) (main_arg9 : FVec F S128x64 .f32) (main_arg10 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg9
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg10
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_c_10 : IVec S_ 32 := constantI S_ 32 0#32
  let main_v29 : IVec S60000 32 := broadcastInDim S60000 ![] bcast_S_S60000 main_c_10
  let main_v30 : IVec S60000 1 := cmpi .sge main_arg3 main_v29
  let main_c_11 : IVec S_ 32 := constantI S_ 32 100000#32
  let main_v31 : IVec S60000 32 := broadcastInDim S60000 ![] bcast_S_S60000 main_c_11
  let main_v32 : IVec S60000 1 := cmpi .slt main_arg3 main_v31
  let main_v33 : IVec S60000 1 := andi main_v30 main_v32
  fn_part2 (F := F) main_arg4 main_arg5 main_arg6 main_v28 main_v33

def fn {F : FTy → Type} [FloatOps F] (main_arg0 : FVec F S100000x128 .f32) (main_arg1 : IVec S2x1600000 32) (main_arg2 : FVec F S1600000 .f32) (main_arg3 : IVec S60000 32) (main_arg4 : IVec S100000 32) (main_arg5 : IVec S60000 32) (main_arg6 : IVec S100000 32) (main_arg7 : FVec F S128x128 .f32) (main_arg8 : FVec F S128 .f32) (main_arg9 : FVec F S128x64 .f32) (main_arg10 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x128 .f32 := Host.absf main_arg7
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg8
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg3 main_arg4 main_arg5 main_arg6 main_arg9 main_arg10 main_v13 main_v16
-- ==== Kernel.lean ====
abbrev S100000x128 : Shape := ⟨2, ![100000, 128]⟩
abbrev S2x1600000 : Shape := ⟨2, ![2, 1600000]⟩
abbrev S1600000 : Shape := ⟨1, ![1600000]⟩
abbrev S60000 : Shape := ⟨1, ![60000]⟩
abbrev S100000 : Shape := ⟨1, ![100000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S_ : Shape := ⟨0, ![]⟩
abbrev S1600000x1 : Shape := ⟨2, ![1600000, 1]⟩
abbrev S1600000x128 : Shape := ⟨2, ![1600000, 128]⟩
abbrev S60000x128 : Shape := ⟨2, ![60000, 128]⟩
abbrev S8x128 : Shape := ⟨2, ![8, 128]⟩
abbrev S1 : Shape := ⟨1, ![1]⟩
abbrev S1x128 : Shape := ⟨2, ![1, 128]⟩
abbrev S2000x128 : Shape := ⟨2, ![2000, 128]⟩
abbrev S1x64 : Shape := ⟨2, ![1, 64]⟩
abbrev S60000x64 : Shape := ⟨2, ![60000, 64]⟩
abbrev S2000x64 : Shape := ⟨2, ![2000, 64]⟩
abbrev S100000x64 : Shape := ⟨2, ![100000, 64]⟩
abbrev S8x64 : Shape := ⟨2, ![8, 64]⟩
abbrev S2000 : Shape := ⟨1, ![2000]⟩
abbrev S2000x1 : Shape := ⟨2, ![2000, 1]⟩

abbrev nBuf : Space → Nat
  | .hbm => 56
  | .vmem => 28
  | .smem => 4
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000, .f32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S_, .i32⟩
  | .hbm, ⟨12, _⟩ => ⟨S1600000, .i32⟩
  | .hbm, ⟨13, _⟩ => ⟨S1600000, .i1⟩
  | .hbm, ⟨14, _⟩ => ⟨S_, .i32⟩
  | .hbm, ⟨15, _⟩ => ⟨S1600000, .i32⟩
  | .hbm, ⟨16, _⟩ => ⟨S1600000, .i32⟩
  | .hbm, ⟨17, _⟩ => ⟨S1600000, .i32⟩
  | .hbm, ⟨18, _⟩ => ⟨S1600000x1, .i32⟩
  | .hbm, ⟨19, _⟩ => ⟨S1600000x128, .f32⟩
  | .hbm, ⟨20, _⟩ => ⟨S1600000x1, .f32⟩
  | .hbm, ⟨21, _⟩ => ⟨S1600000x128, .f32⟩
  | .hbm, ⟨22, _⟩ => ⟨S1600000x128, .f32⟩
  | .hbm, ⟨23, _⟩ => ⟨S_, .f32⟩
  | .hbm, ⟨24, _⟩ => ⟨S100000x128, .f32⟩
  | .hbm, ⟨25, _⟩ => ⟨S1600000x1, .i32⟩
  | .hbm, ⟨26, _⟩ => ⟨S100000x128, .f32⟩
  | .hbm, ⟨27, _⟩ => ⟨S60000x128, .f32⟩
  | .hbm, ⟨28, _⟩ => ⟨S1x128, .f32⟩
  | .hbm, ⟨29, _⟩ => ⟨S60000x128, .f32⟩
  | .hbm, ⟨30, _⟩ => ⟨S100000x128, .f32⟩
  | .hbm, ⟨31, _⟩ => ⟨S1x1600000, .i32⟩
  | .hbm, ⟨32, _⟩ => ⟨S1600000, .i32⟩
  | .hbm, ⟨33, _⟩ => ⟨S1x1600000, .i32⟩
  | .hbm, ⟨34, _⟩ => ⟨S1600000, .i32⟩
  | .hbm, ⟨35, _⟩ => ⟨S_, .i32⟩
  | .hbm, ⟨36, _⟩ => ⟨S1600000, .i32⟩
  | .hbm, ⟨37, _⟩ => ⟨S1600000, .i1⟩
  | .hbm, ⟨38, _⟩ => ⟨S_, .i32⟩
  | .hbm, ⟨39, _⟩ => ⟨S1600000, .i32⟩
  | .hbm, ⟨40, _⟩ => ⟨S1600000, .i32⟩
  | .hbm, ⟨41, _⟩ => ⟨S1600000, .i32⟩
  | .hbm, ⟨42, _⟩ => ⟨S1600000x1, .i32⟩
  | .hbm, ⟨43, _⟩ => ⟨S1600000x128, .f32⟩
  | .hbm, ⟨44, _⟩ => ⟨S1600000x1, .f32⟩
  | .hbm, ⟨45, _⟩ => ⟨S1600000x128, .f32⟩
  | .hbm, ⟨46, _⟩ => ⟨S1600000x128, .f32⟩
  | .hbm, ⟨47, _⟩ => ⟨S_, .f32⟩
  | .hbm, ⟨48, _⟩ => ⟨S100000x128, .f32⟩
  | .hbm, ⟨49, _⟩ => ⟨S1600000x1, .i32⟩
  | .hbm, ⟨50, _⟩ => ⟨S100000x128, .f32⟩
  | .hbm, ⟨51, _⟩ => ⟨S60000x128, .f32⟩
  | .hbm, ⟨52, _⟩ => ⟨S1x64, .f32⟩
  | .hbm, ⟨53, _⟩ => ⟨S60000x64, .f32⟩
  | .hbm, ⟨54, _⟩ => ⟨S100000x64, .f32⟩
  | .hbm, ⟨55, _⟩ => ⟨S100000x64, .f32⟩
  | .local _ .vmem, ⟨0, _⟩ => ⟨S8x128, .f32⟩
  | .local _ .vmem, ⟨1, _⟩ => ⟨S8x128, .f32⟩
  | .local _ .vmem, ⟨2, _⟩ => ⟨S8x128, .f32⟩
  | .local _ .vmem, ⟨3, _⟩ => ⟨S2000x128, .f32⟩
  | .local _ .vmem, ⟨4, _⟩ => ⟨S2000x128, .f32⟩
  | .local _ .vmem, ⟨5, _⟩ => ⟨S128x128, .f32⟩
  | .local _ .vmem, ⟨6, _⟩ => ⟨S1x128, .f32⟩
  | .local _ .vmem, ⟨7, _⟩ => ⟨S2000x128, .f32⟩
  | .local _ .vmem, ⟨8, _⟩ => ⟨S2000x128, .f32⟩
  | .local _ .vmem, ⟨9, _⟩ => ⟨S8x128, .f32⟩
  | .local _ .vmem, ⟨10, _⟩ => ⟨S8x128, .f32⟩
  | .local _ .vmem, ⟨11, _⟩ => ⟨S8x128, .f32⟩
  | .local _ .vmem, ⟨12, _⟩ => ⟨S8x128, .f32⟩
  | .local _ .vmem, ⟨13, _⟩ => ⟨S8x128, .f32⟩
  | .local _ .vmem, ⟨14, _⟩ => ⟨S8x128, .f32⟩
  | .local _ .vmem, ⟨15, _⟩ => ⟨S2000x128, .f32⟩
  | .local _ .vmem, ⟨16, _⟩ => ⟨S2000x128, .f32⟩
  | .local _ .vmem, ⟨17, _⟩ => ⟨S128x64, .f32⟩
  | .local _ .vmem, ⟨18, _⟩ => ⟨S1x64, .f32⟩
  | .local _ .vmem, ⟨19, _⟩ => ⟨S2000x64, .f32⟩
  | .local _ .vmem, ⟨20, _⟩ => ⟨S2000x64, .f32⟩
  | .local _ .vmem, ⟨21, _⟩ => ⟨S8x64, .f32⟩
  | .local _ .vmem, ⟨22, _⟩ => ⟨S8x64, .f32⟩
  | .local _ .vmem, ⟨23, _⟩ => ⟨S8x64, .f32⟩
  | .local _ .vmem, ⟨24, _⟩ => ⟨S2000x64, .f32⟩
  | .local _ .vmem, ⟨25, _⟩ => ⟨S2000x64, .f32⟩
  | .local _ .vmem, ⟨26, _⟩ => ⟨S2000x64, .f32⟩
  | .local _ .vmem, ⟨27, _⟩ => ⟨S2000x64, .f32⟩
  | .local _ .smem, ⟨0, _⟩ => ⟨S60000, .i32⟩
  | .local _ .smem, ⟨1, _⟩ => ⟨S100000, .i32⟩
  | .local _ .smem, ⟨2, _⟩ => ⟨S60000, .i32⟩
  | .local _ .smem, ⟨3, _⟩ => ⟨S100000, .i32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg7 : Ref sig .tc := ⟨.hbm, 3, rfl⟩
abbrev main_arg8 : Ref sig .tc := ⟨.hbm, 4, rfl⟩
abbrev main_arg9 : Ref sig .tc := ⟨.hbm, 5, rfl⟩
abbrev main_arg10 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_c_1 : Ref sig .tc := ⟨.hbm, 35, rfl⟩
abbrev main_v25 : Ref sig .tc := ⟨.hbm, 36, rfl⟩
abbrev main_v26 : Ref sig .tc := ⟨.hbm, 37, rfl⟩
abbrev main_c_2 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_3 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_arg3 : Ref sig .tc := ⟨.smem, 0, rfl⟩
abbrev main_arg4 : Ref sig .tc := ⟨.smem, 1, rfl⟩
abbrev main_arg5 : Ref sig .tc := ⟨.smem, 2, rfl⟩
abbrev main_arg6 : Ref sig .tc := ⟨.smem, 3, rfl⟩
abbrev cc0_stg0_0 : Ref sig .tc := ⟨.vmem, 0, rfl⟩
abbrev cc0_stg0_1 : Ref sig .tc := ⟨.vmem, 1, rfl⟩
abbrev cc0_scratch0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg3_0 : Ref sig .tc := ⟨.vmem, 7, rfl⟩
abbrev cc1_stg3_1 : Ref sig .tc := ⟨.vmem, 8, rfl⟩
abbrev cc2_stg0_0 : Ref sig .tc := ⟨.vmem, 9, rfl⟩
abbrev cc2_stg0_1 : Ref sig .tc := ⟨.vmem, 10, rfl⟩
abbrev cc2_scratch0 : Ref sig .tc := ⟨.vmem, 11, rfl⟩
abbrev cc3_stg0_0 : Ref sig .tc := ⟨.vmem, 12, rfl⟩
abbrev cc3_stg0_1 : Ref sig .tc := ⟨.vmem, 13, rfl⟩
abbrev cc3_scratch0 : Ref sig .tc := ⟨.vmem, 14, rfl⟩
abbrev cc4_stg0_0 : Ref sig .tc := ⟨.vmem, 15, rfl⟩
abbrev cc4_stg0_1 : Ref sig .tc := ⟨.vmem, 16, rfl⟩
abbrev cc4_stg1_0 : Ref sig .tc := ⟨.vmem, 17, rfl⟩
abbrev cc4_stg2_0 : Ref sig .tc := ⟨.vmem, 18, rfl⟩
abbrev cc4_stg3_0 : Ref sig .tc := ⟨.vmem, 19, rfl⟩
abbrev cc4_stg3_1 : Ref sig .tc := ⟨.vmem, 20, rfl⟩
abbrev cc5_stg0_0 : Ref sig .tc := ⟨.vmem, 21, rfl⟩
abbrev cc5_stg0_1 : Ref sig .tc := ⟨.vmem, 22, rfl⟩
abbrev cc5_scratch0 : Ref sig .tc := ⟨.vmem, 23, rfl⟩
abbrev cc6_stg0_0 : Ref sig .tc := ⟨.vmem, 24, rfl⟩
abbrev cc6_stg0_1 : Ref sig .tc := ⟨.vmem, 25, rfl⟩
abbrev cc6_stg1_0 : Ref sig .tc := ⟨.vmem, 26, rfl⟩
abbrev cc6_stg1_1 : Ref sig .tc := ⟨.vmem, 27, rfl⟩
abbrev cc0_sem0_0 : DmaSem sig := 0
abbrev cc0_sem0_1 : DmaSem sig := 1
abbrev cc1_sem0_0 : DmaSem sig := 3
abbrev cc1_sem0_1 : DmaSem sig := 4
abbrev cc1_sem1_0 : DmaSem sig := 5
abbrev cc1_sem2_0 : DmaSem sig := 6
abbrev cc1_sem3_0 : DmaSem sig := 7
abbrev cc1_sem3_1 : DmaSem sig := 8
abbrev cc2_sem0_0 : DmaSem sig := 9
abbrev cc2_sem0_1 : DmaSem sig := 10
abbrev cc3_sem0_0 : DmaSem sig := 12
abbrev cc3_sem0_1 : DmaSem sig := 13
abbrev cc4_sem0_0 : DmaSem sig := 15
abbrev cc4_sem0_1 : DmaSem sig := 16
abbrev cc4_sem1_0 : DmaSem sig := 17
abbrev cc4_sem2_0 : DmaSem sig := 18
abbrev cc4_sem3_0 : DmaSem sig := 19
abbrev cc4_sem3_1 : DmaSem sig := 20
abbrev cc5_sem0_0 : DmaSem sig := 21
abbrev cc5_sem0_1 : DmaSem sig := 22
abbrev cc6_sem0_0 : DmaSem sig := 24
abbrev cc6_sem0_1 : DmaSem sig := 25
abbrev cc6_sem1_0 : DmaSem sig := 26
abbrev cc6_sem1_1 : DmaSem sig := 27

abbrev nD : Nat := 1
abbrev τ : Topo := Topo.v7x

variable {F : FTy → Type} [FloatOps F]

abbrev grid0 : Pipeline.Grid := ⟨1, ![7500], ![false]⟩

abbrev pre0 : Pipeline.Prefetch sig := ⟨1, ![main_arg3.idx], fun | 0 => main_arg3.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi v0 c0_i32
  let v2 : Index := Scalar.indexCast v1
  ![v2.toNat]
def k0_off2 (v3 : BitVec 32) : Fin 2 → Nat :=
  let c0_i32_2 : BitVec 32 := 0#32
  ![v3.toNat, 0]

def k0_chk1 (v3 : BitVec 32) : Prop :=
  (∀ a, (k0_off2 v3) a + S1x128.size a ≤ S100000x128.size a)
instance k0_chk1.dec : ∀ (v3 : BitVec 32), Decidable (k0_chk1 v3) := fun v3 => decidable_of_iff' _ (Iff.of_eq (k0_chk1.eq_1 v3))
theorem k0_off2_inb : ∀ (v3 : BitVec 32) (k0_hw1 : k0_chk1 v3), ∀ a, (k0_off2 v3) a + S1x128.size a ≤ S100000x128.size a := fun v3 k0_hw1 => k0_hw1

def k0_off3 (i : grid0.Coords) : Fin 1 → Nat :=
  let arg0 : BitVec 32 := BitVec.ofNat 32 (i 0).val
  let c8_i32_6 : BitVec 32 := 8#32
  let v12 : BitVec 32 := Scalar.muli arg0 c8_i32_6
  let c1_i32 : BitVec 32 := 1#32
  let v13 : BitVec 32 := Scalar.addi v12 c1_i32
  let v14 : Index := Scalar.indexCast v13
  ![v14.toNat]
def k0_off4 (v15 : BitVec 32) : Fin 2 → Nat :=
  let c0_i32_9 : BitVec 32 := 0#32
  ![v15.toNat, 0]

def k0_chk2 (v15 : BitVec 32) : Prop :=
  (∀ a, (k0_off4 v15) a + S1x128.size a ≤ S100000x128.size a)
instance k0_chk2.dec : ∀ (v15 : BitVec 32), Decidable (k0_chk2 v15) := fun v15 => decidable_of_iff' _ (Iff.of_eq (k0_chk2.eq_1 v15))
theorem k0_off4_inb : ∀ (v15 : BitVec 32) (k0_hw2 : k0_chk2 v15), ∀ a, (k0_off4 v15) a + S1x128.size a ≤ S100000x128.size a := fun v15 k0_hw2 => k0_hw2

def k0_off5 (i : grid0.Coords) : Fin 1 → Nat :=
  let arg0 : BitVec 32 := BitVec.ofNat 32 (i 0).val
  let c8_i32_13 : BitVec 32 := 8#32
  let v24 : BitVec 32 := Scalar.muli arg0 c8_i32_13
  let c2_i32 : BitVec 32 := 2#32
  let v25 : BitVec 32 := Scalar.addi v24 c2_i32
  let v26 : Index := Scalar.indexCast v25
  ![v26.toNat]
def k0_off6 (v27 : BitVec 32) : Fin 2 → Nat :=
  let c0_i32_16 : BitVec 32 := 0#32
  ![v27.toNat, 0]

def k0_chk3 (v27 : BitVec 32) : Prop :=
  (∀ a, (k0_off6 v27) a + S1x128.size a ≤ S100000x128.size a)
instance k0_chk3.dec : ∀ (v27 : BitVec 32), Decidable (k0_chk3 v27) := fun v27 => decidable_of_iff' _ (Iff.of_eq (k0_chk3.eq_1 v27))
theorem k0_off6_inb : ∀ (v27 : BitVec 32) (k0_hw3 : k0_chk3 v27), ∀ a, (k0_off6 v27) a + S1x128.size a ≤ S100000x128.size a := fun v27 k0_hw3 => k0_hw3

def k0_off7 (i : grid0.Coords) : Fin 1 → Nat :=
  let arg0 : BitVec 32 := BitVec.ofNat 32 (i 0).val
  let c8_i32_20 : BitVec 32 := 8#32
  let v36 : BitVec 32 := Scalar.muli arg0 c8_i32_20
  let c3_i32 : BitVec 32 := 3#32
  let v37 : BitVec 32 := Scalar.addi v36 c3_i32
  let v38 : Index := Scalar.indexCast v37
  ![v38.toNat]
def k0_off8 (v39 : BitVec 32) : Fin 2 → Nat :=
  let c0_i32_23 : BitVec 32 := 0#32
  ![v39.toNat, 0]

def k0_chk4 (v39 : BitVec 32) : Prop :=
  (∀ a, (k0_off8 v39) a + S1x128.size a ≤ S100000x128.size a)
instance k0_chk4.dec : ∀ (v39 : BitVec 32), Decidable (k0_chk4 v39) := fun v39 => decidable_of_iff' _ (Iff.of_eq (k0_chk4.eq_1 v39))
theorem k0_off8_inb : ∀ (v39 : BitVec 32) (k0_hw4 : k0_chk4 v39), ∀ a, (k0_off8 v39) a + S1x128.size a ≤ S100000x128.size a := fun v39 k0_hw4 => k0_hw4

def k0_off9 (i : grid0.Coords) : Fin 1 → Nat :=
  let arg0 : BitVec 32 := BitVec.ofNat 32 (i 0).val
  let c8_i32_27 : BitVec 32 := 8#32
  let v48 : BitVec 32 := Scalar.muli arg0 c8_i32_27
  let c4_i32 : BitVec 32 := 4#32
  let v49 : BitVec 32 := Scalar.addi v48 c4_i32
  let v50 : Index := Scalar.indexCast v49
  ![v50.toNat]
def k0_off10 (v51 : BitVec 32) : Fin 2 → Nat :=
  let c0_i32_30 : BitVec 32 := 0#32
  ![v51.toNat, 0]

def k0_chk5 (v51 : BitVec 32) : Prop :=
  (∀ a, (k0_off10 v51) a + S1x128.size a ≤ S100000x128.size a)
instance k0_chk5.dec : ∀ (v51 : BitVec 32), Decidable (k0_chk5 v51) := fun v51 => decidable_of_iff' _ (Iff.of_eq (k0_chk5.eq_1 v51))
theorem k0_off10_inb : ∀ (v51 : BitVec 32) (k0_hw5 : k0_chk5 v51), ∀ a, (k0_off10 v51) a + S1x128.size a ≤ S100000x128.size a := fun v51 k0_hw5 => k0_hw5

def k0_off11 (i : grid0.Coords) : Fin 1 → Nat :=
  let arg0 : BitVec 32 := BitVec.ofNat 32 (i 0).val
  let c8_i32_34 : BitVec 32 := 8#32
  let v60 : BitVec 32 := Scalar.muli arg0 c8_i32_34
  let c5_i32 : BitVec 32 := 5#32
  let v61 : BitVec 32 := Scalar.addi v60 c5_i32
  let v62 : Index := Scalar.indexCast v61
  ![v62.toNat]
def k0_off12 (v63 : BitVec 32) : Fin 2 → Nat :=
  let c0_i32_37 : BitVec 32 := 0#32
  ![v63.toNat, 0]

def k0_chk6 (v63 : BitVec 32) : Prop :=
  (∀ a, (k0_off12 v63) a + S1x128.size a ≤ S100000x128.size a)
instance k0_chk6.dec : ∀ (v63 : BitVec 32), Decidable (k0_chk6 v63) := fun v63 => decidable_of_iff' _ (Iff.of_eq (k0_chk6.eq_1 v63))
theorem k0_off12_inb : ∀ (v63 : BitVec 32) (k0_hw6 : k0_chk6 v63), ∀ a, (k0_off12 v63) a + S1x128.size a ≤ S100000x128.size a := fun v63 k0_hw6 => k0_hw6

def k0_off13 (i : grid0.Coords) : Fin 1 → Nat :=
  let arg0 : BitVec 32 := BitVec.ofNat 32 (i 0).val
  let c8_i32_41 : BitVec 32 := 8#32
  let v72 : BitVec 32 := Scalar.muli arg0 c8_i32_41
  let c6_i32 : BitVec 32 := 6#32
  let v73 : BitVec 32 := Scalar.addi v72 c6_i32
  let v74 : Index := Scalar.indexCast v73
  ![v74.toNat]
def k0_off14 (v75 : BitVec 32) : Fin 2 → Nat :=
  let c0_i32_44 : BitVec 32 := 0#32
  ![v75.toNat, 0]

def k0_chk7 (v75 : BitVec 32) : Prop :=
  (∀ a, (k0_off14 v75) a + S1x128.size a ≤ S100000x128.size a)
instance k0_chk7.dec : ∀ (v75 : BitVec 32), Decidable (k0_chk7 v75) := fun v75 => decidable_of_iff' _ (Iff.of_eq (k0_chk7.eq_1 v75))
theorem k0_off14_inb : ∀ (v75 : BitVec 32) (k0_hw7 : k0_chk7 v75), ∀ a, (k0_off14 v75) a + S1x128.size a ≤ S100000x128.size a := fun v75 k0_hw7 => k0_hw7

def k0_off15 (i : grid0.Coords) : Fin 1 → Nat :=
  let arg0 : BitVec 32 := BitVec.ofNat 32 (i 0).val
  let c8_i32_48 : BitVec 32 := 8#32
  let v84 : BitVec 32 := Scalar.muli arg0 c8_i32_48
  let c7_i32 : BitVec 32 := 7#32
  let v85 : BitVec 32 := Scalar.addi v84 c7_i32
  let v86 : Index := Scalar.indexCast v85
  ![v86.toNat]
def k0_off16 (v87 : BitVec 32) : Fin 2 → Nat :=
  let c0_i32_51 : BitVec 32 := 0#32
  ![v87.toNat, 0]

def k0_chk8 (v87 : BitVec 32) : Prop :=
  (∀ a, (k0_off16 v87) a + S1x128.size a ≤ S100000x128.size a)
instance k0_chk8.dec : ∀ (v87 : BitVec 32), Decidable (k0_chk8 v87) := fun v87 => decidable_of_iff' _ (Iff.of_eq (k0_chk8.eq_1 v87))
theorem k0_off16_inb : ∀ (v87 : BitVec 32) (k0_hw8 : k0_chk8 v87), ∀ a, (k0_off16 v87) a + S1x128.size a ≤ S100000x128.size a := fun v87 k0_hw8 => k0_hw8

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev grid1 : Pipeline.Grid := ⟨1, ![30], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![12500], ![false]⟩

abbrev pre2 : Pipeline.Prefetch sig := ⟨1, ![main_arg4.idx], fun | 0 => main_arg4.names | ⟨_ + 1, h⟩ => absurd h (Nat.not_lt.2 (Nat.le_add_left _ _)), fun | 0 => rfl | ⟨_ + 1, h⟩ => absurd h (Nat.not_lt.2 (Nat.le_add_left _ _))⟩

def k2_off1 (i : grid2.Coords) : Fin 1 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi v0 c0_i32
  let v2 : Index := Scalar.indexCast v1
  ![v2.toNat]
def k2_off2 (v3 : BitVec 32) : Fin 2 → Nat :=
  let c0_i32_2 : BitVec 32 := 0#32
  ![v3.toNat, 0]

def k2_chk1 (v3 : BitVec 32) : Prop :=
  (∀ a, (k2_off2 v3) a + S1x128.size a ≤ S60000x128.size a)
instance k2_chk1.dec : ∀ (v3 : BitVec 32), Decidable (k2_chk1 v3) := fun v3 => decidable_of_iff' _ (Iff.of_eq (k2_chk1.eq_1 v3))
theorem k2_off2_inb : ∀ (v3 : BitVec 32) (k2_hw1 : k2_chk1 v3), ∀ a, (k2_off2 v3) a + S1x128.size a ≤ S60000x128.size a := fun v3 k2_hw1 => k2_hw1

def k2_off3 (i : grid2.Coords) : Fin 1 → Nat :=
  let arg0 : BitVec 32 := BitVec.ofNat 32 (i 0).val
  let c8_i32_6 : BitVec 32 := 8#32
  let v12 : BitVec 32 := Scalar.muli arg0 c8_i32_6
  let c1_i32 : BitVec 32 := 1#32
  let v13 : BitVec 32 := Scalar.addi v12 c1_i32
  let v14 : Index := Scalar.indexCast v13
  ![v14.toNat]
def k2_off4 (v15 : BitVec 32) : Fin 2 → Nat :=
  let c0_i32_9 : BitVec 32 := 0#32
  ![v15.toNat, 0]

def k2_chk2 (v15 : BitVec 32) : Prop :=
  (∀ a, (k2_off4 v15) a + S1x128.size a ≤ S60000x128.size a)
instance k2_chk2.dec : ∀ (v15 : BitVec 32), Decidable (k2_chk2 v15) := fun v15 => decidable_of_iff' _ (Iff.of_eq (k2_chk2.eq_1 v15))
theorem k2_off4_inb : ∀ (v15 : BitVec 32) (k2_hw2 : k2_chk2 v15), ∀ a, (k2_off4 v15) a + S1x128.size a ≤ S60000x128.size a := fun v15 k2_hw2 => k2_hw2

def k2_off5 (i : grid2.Coords) : Fin 1 → Nat :=
  let arg0 : BitVec 32 := BitVec.ofNat 32 (i 0).val
  let c8_i32_13 : BitVec 32 := 8#32
  let v24 : BitVec 32 := Scalar.muli arg0 c8_i32_13
  let c2_i32 : BitVec 32 := 2#32
  let v25 : BitVec 32 := Scalar.addi v24 c2_i32
  let v26 : Index := Scalar.indexCast v25
  ![v26.toNat]
def k2_off6 (v27 : BitVec 32) : Fin 2 → Nat :=
  let c0_i32_16 : BitVec 32 := 0#32
  ![v27.toNat, 0]

def k2_chk3 (v27 : BitVec 32) : Prop :=
  (∀ a, (k2_off6 v27) a + S1x128.size a ≤ S60000x128.size a)
instance k2_chk3.dec : ∀ (v27 : BitVec 32), Decidable (k2_chk3 v27) := fun v27 => decidable_of_iff' _ (Iff.of_eq (k2_chk3.eq_1 v27))
theorem k2_off6_inb : ∀ (v27 : BitVec 32) (k2_hw3 : k2_chk3 v27), ∀ a, (k2_off6 v27) a + S1x128.size a ≤ S60000x128.size a := fun v27 k2_hw3 => k2_hw3

def k2_off7 (i : grid2.Coords) : Fin 1 → Nat :=
  let arg0 : BitVec 32 := BitVec.ofNat 32 (i 0).val
  let c8_i32_20 : BitVec 32 := 8#32
  let v36 : BitVec 32 := Scalar.muli arg0 c8_i32_20
  let c3_i32 : BitVec 32 := 3#32
  let v37 : BitVec 32 := Scalar.addi v36 c3_i32
  let v38 : Index := Scalar.indexCast v37
  ![v38.toNat]
def k2_off8 (v39 : BitVec 32) : Fin 2 → Nat :=
  let c0_i32_23 : BitVec 32 := 0#32
  ![v39.toNat, 0]

def k2_chk4 (v39 : BitVec 32) : Prop :=
  (∀ a, (k2_off8 v39) a + S1x128.size a ≤ S60000x128.size a)
instance k2_chk4.dec : ∀ (v39 : BitVec 32), Decidable (k2_chk4 v39) := fun v39 => decidable_of_iff' _ (Iff.of_eq (k2_chk4.eq_1 v39))
theorem k2_off8_inb : ∀ (v39 : BitVec 32) (k2_hw4 : k2_chk4 v39), ∀ a, (k2_off8 v39) a + S1x128.size a ≤ S60000x128.size a := fun v39 k2_hw4 => k2_hw4

def k2_off9 (i : grid2.Coords) : Fin 1 → Nat :=
  let arg0 : BitVec 32 := BitVec.ofNat 32 (i 0).val
  let c8_i32_27 : BitVec 32 := 8#32
  let v48 : BitVec 32 := Scalar.muli arg0 c8_i32_27
  let c4_i32 : BitVec 32 := 4#32
  let v49 : BitVec 32 := Scalar.addi v48 c4_i32
  let v50 : Index := Scalar.indexCast v49
  ![v50.toNat]
def k2_off10 (v51 : BitVec 32) : Fin 2 → Nat :=
  let c0_i32_30 : BitVec 32 := 0#32
  ![v51.toNat, 0]

def k2_chk5 (v51 : BitVec 32) : Prop :=
  (∀ a, (k2_off10 v51) a + S1x128.size a ≤ S60000x128.size a)
instance k2_chk5.dec : ∀ (v51 : BitVec 32), Decidable (k2_chk5 v51) := fun v51 => decidable_of_iff' _ (Iff.of_eq (k2_chk5.eq_1 v51))
theorem k2_off10_inb : ∀ (v51 : BitVec 32) (k2_hw5 : k2_chk5 v51), ∀ a, (k2_off10 v51) a + S1x128.size a ≤ S60000x128.size a := fun v51 k2_hw5 => k2_hw5

def k2_off11 (i : grid2.Coords) : Fin 1 → Nat :=
  let arg0 : BitVec 32 := BitVec.ofNat 32 (i 0).val
  let c8_i32_34 : BitVec 32 := 8#32
  let v60 : BitVec 32 := Scalar.muli arg0 c8_i32_34
  let c5_i32 : BitVec 32 := 5#32
  let v61 : BitVec 32 := Scalar.addi v60 c5_i32
  let v62 : Index := Scalar.indexCast v61
  ![v62.toNat]
def k2_off12 (v63 : BitVec 32) : Fin 2 → Nat :=
  let c0_i32_37 : BitVec 32 := 0#32
  ![v63.toNat, 0]

def k2_chk6 (v63 : BitVec 32) : Prop :=
  (∀ a, (k2_off12 v63) a + S1x128.size a ≤ S60000x128.size a)
instance k2_chk6.dec : ∀ (v63 : BitVec 32), Decidable (k2_chk6 v63) := fun v63 => decidable_of_iff' _ (Iff.of_eq (k2_chk6.eq_1 v63))
theorem k2_off12_inb : ∀ (v63 : BitVec 32) (k2_hw6 : k2_chk6 v63), ∀ a, (k2_off12 v63) a + S1x128.size a ≤ S60000x128.size a := fun v63 k2_hw6 => k2_hw6

def k2_off13 (i : grid2.Coords) : Fin 1 → Nat :=
  let arg0 : BitVec 32 := BitVec.ofNat 32 (i 0).val
  let c8_i32_41 : BitVec 32 := 8#32
  let v72 : BitVec 32 := Scalar.muli arg0 c8_i32_41
  let c6_i32 : BitVec 32 := 6#32
  let v73 : BitVec 32 := Scalar.addi v72 c6_i32
  let v74 : Index := Scalar.indexCast v73
  ![v74.toNat]
def k2_off14 (v75 : BitVec 32) : Fin 2 → Nat :=
  let c0_i32_44 : BitVec 32 := 0#32
  ![v75.toNat, 0]

def k2_chk7 (v75 : BitVec 32) : Prop :=
  (∀ a, (k2_off14 v75) a + S1x128.size a ≤ S60000x128.size a)
instance k2_chk7.dec : ∀ (v75 : BitVec 32), Decidable (k2_chk7 v75) := fun v75 => decidable_of_iff' _ (Iff.of_eq (k2_chk7.eq_1 v75))
theorem k2_off14_inb : ∀ (v75 : BitVec 32) (k2_hw7 : k2_chk7 v75), ∀ a, (k2_off14 v75) a + S1x128.size a ≤ S60000x128.size a := fun v75 k2_hw7 => k2_hw7

def k2_off15 (i : grid2.Coords) : Fin 1 → Nat :=
  let arg0 : BitVec 32 := BitVec.ofNat 32 (i 0).val
  let c8_i32_48 : BitVec 32 := 8#32
  let v84 : BitVec 32 := Scalar.muli arg0 c8_i32_48
  let c7_i32 : BitVec 32 := 7#32
  let v85 : BitVec 32 := Scalar.addi v84 c7_i32
  let v86 : Index := Scalar.indexCast v85
  ![v86.toNat]
def k2_off16 (v87 : BitVec 32) : Fin 2 → Nat :=
  let c0_i32_51 : BitVec 32 := 0#32
  ![v87.toNat, 0]

def k2_chk8 (v87 : BitVec 32) : Prop :=
  (∀ a, (k2_off16 v87) a + S1x128.size a ≤ S60000x128.size a)
instance k2_chk8.dec : ∀ (v87 : BitVec 32), Decidable (k2_chk8 v87) := fun v87 => decidable_of_iff' _ (Iff.of_eq (k2_chk8.eq_1 v87))
theorem k2_off16_inb : ∀ (v87 : BitVec 32) (k2_hw8 : k2_chk8 v87), ∀ a, (k2_off16 v87) a + S1x128.size a ≤ S60000x128.size a := fun v87 k2_hw8 => k2_hw8

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev grid3 : Pipeline.Grid := ⟨1, ![7500], ![false]⟩

abbrev pre3 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def k3_off1 (i : grid3.Coords) : Fin 1 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi v0 c0_i32
  let v2 : Index := Scalar.indexCast v1
  ![v2.toNat]
def k3_off2 (v3 : BitVec 32) : Fin 2 → Nat :=
  let c0_i32_2 : BitVec 32 := 0#32
  ![v3.toNat, 0]

def k3_chk1 (v3 : BitVec 32) : Prop :=
  (∀ a, (k3_off2 v3) a + S1x128.size a ≤ S100000x128.size a)
instance k3_chk1.dec : ∀ (v3 : BitVec 32), Decidable (k3_chk1 v3) := fun v3 => decidable_of_iff' _ (Iff.of_eq (k3_chk1.eq_1 v3))
theorem k3_off2_inb : ∀ (v3 : BitVec 32) (k3_hw1 : k3_chk1 v3), ∀ a, (k3_off2 v3) a + S1x128.size a ≤ S100000x128.size a := fun v3 k3_hw1 => k3_hw1

def k3_off3 (i : grid3.Coords) : Fin 1 → Nat :=
  let arg0 : BitVec 32 := BitVec.ofNat 32 (i 0).val
  let c8_i32_6 : BitVec 32 := 8#32
  let v12 : BitVec 32 := Scalar.muli arg0 c8_i32_6
  let c1_i32 : BitVec 32 := 1#32
  let v13 : BitVec 32 := Scalar.addi v12 c1_i32
  let v14 : Index := Scalar.indexCast v13
  ![v14.toNat]
def k3_off4 (v15 : BitVec 32) : Fin 2 → Nat :=
  let c0_i32_9 : BitVec 32 := 0#32
  ![v15.toNat, 0]

def k3_chk2 (v15 : BitVec 32) : Prop :=
  (∀ a, (k3_off4 v15) a + S1x128.size a ≤ S100000x128.size a)
instance k3_chk2.dec : ∀ (v15 : BitVec 32), Decidable (k3_chk2 v15) := fun v15 => decidable_of_iff' _ (Iff.of_eq (k3_chk2.eq_1 v15))
theorem k3_off4_inb : ∀ (v15 : BitVec 32) (k3_hw2 : k3_chk2 v15), ∀ a, (k3_off4 v15) a + S1x128.size a ≤ S100000x128.size a := fun v15 k3_hw2 => k3_hw2

def k3_off5 (i : grid3.Coords) : Fin 1 → Nat :=
  let arg0 : BitVec 32 := BitVec.ofNat 32 (i 0).val
  let c8_i32_13 : BitVec 32 := 8#32
  let v24 : BitVec 32 := Scalar.muli arg0 c8_i32_13
  let c2_i32 : BitVec 32 := 2#32
  let v25 : BitVec 32 := Scalar.addi v24 c2_i32
  let v26 : Index := Scalar.indexCast v25
  ![v26.toNat]
def k3_off6 (v27 : BitVec 32) : Fin 2 → Nat :=
  let c0_i32_16 : BitVec 32 := 0#32
  ![v27.toNat, 0]

def k3_chk3 (v27 : BitVec 32) : Prop :=
  (∀ a, (k3_off6 v27) a + S1x128.size a ≤ S100000x128.size a)
instance k3_chk3.dec : ∀ (v27 : BitVec 32), Decidable (k3_chk3 v27) := fun v27 => decidable_of_iff' _ (Iff.of_eq (k3_chk3.eq_1 v27))
theorem k3_off6_inb : ∀ (v27 : BitVec 32) (k3_hw3 : k3_chk3 v27), ∀ a, (k3_off6 v27) a + S1x128.size a ≤ S100000x128.size a := fun v27 k3_hw3 => k3_hw3

def k3_off7 (i : grid3.Coords) : Fin 1 → Nat :=
  let arg0 : BitVec 32 := BitVec.ofNat 32 (i 0).val
  let c8_i32_20 : BitVec 32 := 8#32
  let v36 : BitVec 32 := Scalar.muli arg0 c8_i32_20
  let c3_i32 : BitVec 32 := 3#32
  let v37 : BitVec 32 := Scalar.addi v36 c3_i32
  let v38 : Index := Scalar.indexCast v37
  ![v38.toNat]
def k3_off8 (v39 : BitVec 32) : Fin 2 → Nat :=
  let c0_i32_23 : BitVec 32 := 0#32
  ![v39.toNat, 0]

def k3_chk4 (v39 : BitVec 32) : Prop :=
  (∀ a, (k3_off8 v39) a + S1x128.size a ≤ S100000x128.size a)
instance k3_chk4.dec : ∀ (v39 : BitVec 32), Decidable (k3_chk4 v39) := fun v39 => decidable_of_iff' _ (Iff.of_eq (k3_chk4.eq_1 v39))
theorem k3_off8_inb : ∀ (v39 : BitVec 32) (k3_hw4 : k3_chk4 v39), ∀ a, (k3_off8 v39) a + S1x128.size a ≤ S100000x128.size a := fun v39 k3_hw4 => k3_hw4

def k3_off9 (i : grid3.Coords) : Fin 1 → Nat :=
  let arg0 : BitVec 32 := BitVec.ofNat 32 (i 0).val
  let c8_i32_27 : BitVec 32 := 8#32
  let v48 : BitVec 32 := Scalar.muli arg0 c8_i32_27
  let c4_i32 : BitVec 32 := 4#32
  let v49 : BitVec 32 := Scalar.addi v48 c4_i32
  let v50 : Index := Scalar.indexCast v49
  ![v50.toNat]
def k3_off10 (v51 : BitVec 32) : Fin 2 → Nat :=
  let c0_i32_30 : BitVec 32 := 0#32
  ![v51.toNat, 0]

def k3_chk5 (v51 : BitVec 32) : Prop :=
  (∀ a, (k3_off10 v51) a + S1x128.size a ≤ S100000x128.size a)
instance k3_chk5.dec : ∀ (v51 : BitVec 32), Decidable (k3_chk5 v51) := fun v51 => decidable_of_iff' _ (Iff.of_eq (k3_chk5.eq_1 v51))
theorem k3_off10_inb : ∀ (v51 : BitVec 32) (k3_hw5 : k3_chk5 v51), ∀ a, (k3_off10 v51) a + S1x128.size a ≤ S100000x128.size a := fun v51 k3_hw5 => k3_hw5

def k3_off11 (i : grid3.Coords) : Fin 1 → Nat :=
  let arg0 : BitVec 32 := BitVec.ofNat 32 (i 0).val
  let c8_i32_34 : BitVec 32 := 8#32
  let v60 : BitVec 32 := Scalar.muli arg0 c8_i32_34
  let c5_i32 : BitVec 32 := 5#32
  let v61 : BitVec 32 := Scalar.addi v60 c5_i32
  let v62 : Index := Scalar.indexCast v61
  ![v62.toNat]
def k3_off12 (v63 : BitVec 32) : Fin 2 → Nat :=
  let c0_i32_37 : BitVec 32 := 0#32
  ![v63.toNat, 0]

def k3_chk6 (v63 : BitVec 32) : Prop :=
  (∀ a, (k3_off12 v63) a + S1x128.size a ≤ S100000x128.size a)
instance k3_chk6.dec : ∀ (v63 : BitVec 32), Decidable (k3_chk6 v63) := fun v63 => decidable_of_iff' _ (Iff.of_eq (k3_chk6.eq_1 v63))
theorem k3_off12_inb : ∀ (v63 : BitVec 32) (k3_hw6 : k3_chk6 v63), ∀ a, (k3_off12 v63) a + S1x128.size a ≤ S100000x128.size a := fun v63 k3_hw6 => k3_hw6

def k3_off13 (i : grid3.Coords) : Fin 1 → Nat :=
  let arg0 : BitVec 32 := BitVec.ofNat 32 (i 0).val
  let c8_i32_41 : BitVec 32 := 8#32
  let v72 : BitVec 32 := Scalar.muli arg0 c8_i32_41
  let c6_i32 : BitVec 32 := 6#32
  let v73 : BitVec 32 := Scalar.addi v72 c6_i32
  let v74 : Index := Scalar.indexCast v73
  ![v74.toNat]
def k3_off14 (v75 : BitVec 32) : Fin 2 → Nat :=
  let c0_i32_44 : BitVec 32 := 0#32
  ![v75.toNat, 0]

def k3_chk7 (v75 : BitVec 32) : Prop :=
  (∀ a, (k3_off14 v75) a + S1x128.size a ≤ S100000x128.size a)
instance k3_chk7.dec : ∀ (v75 : BitVec 32), Decidable (k3_chk7 v75) := fun v75 => decidable_of_iff' _ (Iff.of_eq (k3_chk7.eq_1 v75))
theorem k3_off14_inb : ∀ (v75 : BitVec 32) (k3_hw7 : k3_chk7 v75), ∀ a, (k3_off14 v75) a + S1x128.size a ≤ S100000x128.size a := fun v75 k3_hw7 => k3_hw7

def k3_off15 (i : grid3.Coords) : Fin 1 → Nat :=
  let arg0 : BitVec 32 := BitVec.ofNat 32 (i 0).val
  let c8_i32_48 : BitVec 32 := 8#32
  let v84 : BitVec 32 := Scalar.muli arg0 c8_i32_48
  let c7_i32 : BitVec 32 := 7#32
  let v85 : BitVec 32 := Scalar.addi v84 c7_i32
  let v86 : Index := Scalar.indexCast v85
  ![v86.toNat]
def k3_off16 (v87 : BitVec 32) : Fin 2 → Nat :=
  let c0_i32_51 : BitVec 32 := 0#32
  ![v87.toNat, 0]

def k3_chk8 (v87 : BitVec 32) : Prop :=
  (∀ a, (k3_off16 v87) a + S1x128.size a ≤ S100000x128.size a)
instance k3_chk8.dec : ∀ (v87 : BitVec 32), Decidable (k3_chk8 v87) := fun v87 => decidable_of_iff' _ (Iff.of_eq (k3_chk8.eq_1 v87))
theorem k3_off16_inb : ∀ (v87 : BitVec 32) (k3_hw8 : k3_chk8 v87), ∀ a, (k3_off16 v87) a + S1x128.size a ≤ S100000x128.size a := fun v87 k3_hw8 => k3_hw8

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S8x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev grid4 : Pipeline.Grid := ⟨1, ![30], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S2000x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![12500], ![false]⟩

abbrev pre5 : Pipeline.Prefetch sig := ⟨1, ![main_arg6.idx], fun | 0 => main_arg6.names | ⟨_ + 1, h⟩ => absurd h (Nat.not_lt.2 (Nat.le_add_left _ _)), fun | 0 => rfl | ⟨_ + 1, h⟩ => absurd h (Nat.not_lt.2 (Nat.le_add_left _ _))⟩

def k5_off1 (i : grid5.Coords) : Fin 1 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi v0 c0_i32
  let v2 : Index := Scalar.indexCast v1
  ![v2.toNat]
def k5_off2 (v3 : BitVec 32) : Fin 2 → Nat :=
  let c0_i32_2 : BitVec 32 := 0#32
  ![v3.toNat, 0]

def k5_chk1 (v3 : BitVec 32) : Prop :=
  (∀ a, (k5_off2 v3) a + S1x64.size a ≤ S60000x64.size a)
instance k5_chk1.dec : ∀ (v3 : BitVec 32), Decidable (k5_chk1 v3) := fun v3 => decidable_of_iff' _ (Iff.of_eq (k5_chk1.eq_1 v3))
theorem k5_off2_inb : ∀ (v3 : BitVec 32) (k5_hw1 : k5_chk1 v3), ∀ a, (k5_off2 v3) a + S1x64.size a ≤ S60000x64.size a := fun v3 k5_hw1 => k5_hw1

def k5_off3 (i : grid5.Coords) : Fin 1 → Nat :=
  let arg0 : BitVec 32 := BitVec.ofNat 32 (i 0).val
  let c8_i32_6 : BitVec 32 := 8#32
  let v12 : BitVec 32 := Scalar.muli arg0 c8_i32_6
  let c1_i32 : BitVec 32 := 1#32
  let v13 : BitVec 32 := Scalar.addi v12 c1_i32
  let v14 : Index := Scalar.indexCast v13
  ![v14.toNat]
def k5_off4 (v15 : BitVec 32) : Fin 2 → Nat :=
  let c0_i32_9 : BitVec 32 := 0#32
  ![v15.toNat, 0]

def k5_chk2 (v15 : BitVec 32) : Prop :=
  (∀ a, (k5_off4 v15) a + S1x64.size a ≤ S60000x64.size a)
instance k5_chk2.dec : ∀ (v15 : BitVec 32), Decidable (k5_chk2 v15) := fun v15 => decidable_of_iff' _ (Iff.of_eq (k5_chk2.eq_1 v15))
theorem k5_off4_inb : ∀ (v15 : BitVec 32) (k5_hw2 : k5_chk2 v15), ∀ a, (k5_off4 v15) a + S1x64.size a ≤ S60000x64.size a := fun v15 k5_hw2 => k5_hw2

def k5_off5 (i : grid5.Coords) : Fin 1 → Nat :=
  let arg0 : BitVec 32 := BitVec.ofNat 32 (i 0).val
  let c8_i32_13 : BitVec 32 := 8#32
  let v24 : BitVec 32 := Scalar.muli arg0 c8_i32_13
  let c2_i32 : BitVec 32 := 2#32
  let v25 : BitVec 32 := Scalar.addi v24 c2_i32
  let v26 : Index := Scalar.indexCast v25
  ![v26.toNat]
def k5_off6 (v27 : BitVec 32) : Fin 2 → Nat :=
  let c0_i32_16 : BitVec 32 := 0#32
  ![v27.toNat, 0]

def k5_chk3 (v27 : BitVec 32) : Prop :=
  (∀ a, (k5_off6 v27) a + S1x64.size a ≤ S60000x64.size a)
instance k5_chk3.dec : ∀ (v27 : BitVec 32), Decidable (k5_chk3 v27) := fun v27 => decidable_of_iff' _ (Iff.of_eq (k5_chk3.eq_1 v27))
theorem k5_off6_inb : ∀ (v27 : BitVec 32) (k5_hw3 : k5_chk3 v27), ∀ a, (k5_off6 v27) a + S1x64.size a ≤ S60000x64.size a := fun v27 k5_hw3 => k5_hw3

def k5_off7 (i : grid5.Coords) : Fin 1 → Nat :=
  let arg0 : BitVec 32 := BitVec.ofNat 32 (i 0).val
  let c8_i32_20 : BitVec 32 := 8#32
  let v36 : BitVec 32 := Scalar.muli arg0 c8_i32_20
  let c3_i32 : BitVec 32 := 3#32
  let v37 : BitVec 32 := Scalar.addi v36 c3_i32
  let v38 : Index := Scalar.indexCast v37
  ![v38.toNat]
def k5_off8 (v39 : BitVec 32) : Fin 2 → Nat :=
  let c0_i32_23 : BitVec 32 := 0#32
  ![v39.toNat, 0]

def k5_chk4 (v39 : BitVec 32) : Prop :=
  (∀ a, (k5_off8 v39) a + S1x64.size a ≤ S60000x64.size a)
instance k5_chk4.dec : ∀ (v39 : BitVec 32), Decidable (k5_chk4 v39) := fun v39 => decidable_of_iff' _ (Iff.of_eq (k5_chk4.eq_1 v39))
theorem k5_off8_inb : ∀ (v39 : BitVec 32) (k5_hw4 : k5_chk4 v39), ∀ a, (k5_off8 v39) a + S1x64.size a ≤ S60000x64.size a := fun v39 k5_hw4 => k5_hw4

def k5_off9 (i : grid5.Coords) : Fin 1 → Nat :=
  let arg0 : BitVec 32 := BitVec.ofNat 32 (i 0).val
  let c8_i32_27 : BitVec 32 := 8#32
  let v48 : BitVec 32 := Scalar.muli arg0 c8_i32_27
  let c4_i32 : BitVec 32 := 4#32
  let v49 : BitVec 32 := Scalar.addi v48 c4_i32
  let v50 : Index := Scalar.indexCast v49
  ![v50.toNat]
def k5_off10 (v51 : BitVec 32) : Fin 2 → Nat :=
  let c0_i32_30 : BitVec 32 := 0#32
  ![v51.toNat, 0]

def k5_chk5 (v51 : BitVec 32) : Prop :=
  (∀ a, (k5_off10 v51) a + S1x64.size a ≤ S60000x64.size a)
instance k5_chk5.dec : ∀ (v51 : BitVec 32), Decidable (k5_chk5 v51) := fun v51 => decidable_of_iff' _ (Iff.of_eq (k5_chk5.eq_1 v51))
theorem k5_off10_inb : ∀ (v51 : BitVec 32) (k5_hw5 : k5_chk5 v51), ∀ a, (k5_off10 v51) a + S1x64.size a ≤ S60000x64.size a := fun v51 k5_hw5 => k5_hw5

def k5_off11 (i : grid5.Coords) : Fin 1 → Nat :=
  let arg0 : BitVec 32 := BitVec.ofNat 32 (i 0).val
  let c8_i32_34 : BitVec 32 := 8#32
  let v60 : BitVec 32 := Scalar.muli arg0 c8_i32_34
  let c5_i32 : BitVec 32 := 5#32
  let v61 : BitVec 32 := Scalar.addi v60 c5_i32
  let v62 : Index := Scalar.indexCast v61
  ![v62.toNat]
def k5_off12 (v63 : BitVec 32) : Fin 2 → Nat :=
  let c0_i32_37 : BitVec 32 := 0#32
  ![v63.toNat, 0]

def k5_chk6 (v63 : BitVec 32) : Prop :=
  (∀ a, (k5_off12 v63) a + S1x64.size a ≤ S60000x64.size a)
instance k5_chk6.dec : ∀ (v63 : BitVec 32), Decidable (k5_chk6 v63) := fun v63 => decidable_of_iff' _ (Iff.of_eq (k5_chk6.eq_1 v63))
theorem k5_off12_inb : ∀ (v63 : BitVec 32) (k5_hw6 : k5_chk6 v63), ∀ a, (k5_off12 v63) a + S1x64.size a ≤ S60000x64.size a := fun v63 k5_hw6 => k5_hw6

def k5_off13 (i : grid5.Coords) : Fin 1 → Nat :=
  let arg0 : BitVec 32 := BitVec.ofNat 32 (i 0).val
  let c8_i32_41 : BitVec 32 := 8#32
  let v72 : BitVec 32 := Scalar.muli arg0 c8_i32_41
  let c6_i32 : BitVec 32 := 6#32
  let v73 : BitVec 32 := Scalar.addi v72 c6_i32
  let v74 : Index := Scalar.indexCast v73
  ![v74.toNat]
def k5_off14 (v75 : BitVec 32) : Fin 2 → Nat :=
  let c0_i32_44 : BitVec 32 := 0#32
  ![v75.toNat, 0]

def k5_chk7 (v75 : BitVec 32) : Prop :=
  (∀ a, (k5_off14 v75) a + S1x64.size a ≤ S60000x64.size a)
instance k5_chk7.dec : ∀ (v75 : BitVec 32), Decidable (k5_chk7 v75) := fun v75 => decidable_of_iff' _ (Iff.of_eq (k5_chk7.eq_1 v75))
theorem k5_off14_inb : ∀ (v75 : BitVec 32) (k5_hw7 : k5_chk7 v75), ∀ a, (k5_off14 v75) a + S1x64.size a ≤ S60000x64.size a := fun v75 k5_hw7 => k5_hw7

def k5_off15 (i : grid5.Coords) : Fin 1 → Nat :=
  let arg0 : BitVec 32 := BitVec.ofNat 32 (i 0).val
  let c8_i32_48 : BitVec 32 := 8#32
  let v84 : BitVec 32 := Scalar.muli arg0 c8_i32_48
  let c7_i32 : BitVec 32 := 7#32
  let v85 : BitVec 32 := Scalar.addi v84 c7_i32
  let v86 : Index := Scalar.indexCast v85
  ![v86.toNat]
def k5_off16 (v87 : BitVec 32) : Fin 2 → Nat :=
  let c0_i32_51 : BitVec 32 := 0#32
  ![v87.toNat, 0]

def k5_chk8 (v87 : BitVec 32) : Prop :=
  (∀ a, (k5_off16 v87) a + S1x64.size a ≤ S60000x64.size a)
instance k5_chk8.dec : ∀ (v87 : BitVec 32), Decidable (k5_chk8 v87) := fun v87 => decidable_of_iff' _ (Iff.of_eq (k5_chk8.eq_1 v87))
theorem k5_off16_inb : ∀ (v87 : BitVec 32) (k5_hw8 : k5_chk8 v87), ∀ a, (k5_off16 v87) a + S1x64.size a ≤ S60000x64.size a := fun v87 k5_hw8 => k5_hw8

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S8x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev grid6 : Pipeline.Grid := ⟨1, ![50], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S2000x64 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  numel1_S1 : S1.numel = 1
  inb_S8x128_S1x128_0_0 : ∀ a, (![0, 0] : Fin 2 → Nat) a + S1x128.size a ≤ S8x128.size a
  squeezes_S1x128_S128 : S1x128.Squeezes S128
  inb_S8x128_S1x128_1_0 : ∀ a, (![1, 0] : Fin 2 → Nat) a + S1x128.size a ≤ S8x128.size a
  inb_S8x128_S1x128_2_0 : ∀ a, (![2, 0] : Fin 2 → Nat) a + S1x128.size a ≤ S8x128.size a
  inb_S8x128_S1x128_3_0 : ∀ a, (![3, 0] : Fin 2 → Nat) a + S1x128.size a ≤ S8x128.size a
  inb_S8x128_S1x128_4_0 : ∀ a, (![4, 0] : Fin 2 → Nat) a + S1x128.size a ≤ S8x128.size a
  inb_S8x128_S1x128_5_0 : ∀ a, (![5, 0] : Fin 2 → Nat) a + S1x128.size a ≤ S8x128.size a
  inb_S8x128_S1x128_6_0 : ∀ a, (![6, 0] : Fin 2 → Nat) a + S1x128.size a ≤ S8x128.size a
  inb_S8x128_S1x128_7_0 : ∀ a, (![7, 0] : Fin 2 → Nat) a + S1x128.size a ≤ S8x128.size a
  inb_S8x128_S8x128_0_0 : ∀ a, (![0, 0] : Fin 2 → Nat) a + S8x128.size a ≤ S8x128.size a
  h_S8x128 : 0 < S8x128.numel
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S2000x64_S2000x64_0_0 : ∀ a, (![0, 0] : Fin 2 → Nat) a + S2000x64.size a ≤ S2000x64.size a
  h_S2000x64 : 0 < S2000x64.numel
  inb_S8x64_S1x64_0_0 : ∀ a, (![0, 0] : Fin 2 → Nat) a + S1x64.size a ≤ S8x64.size a
  squeezes_S1x64_S64 : S1x64.Squeezes S64
  inb_S8x64_S1x64_1_0 : ∀ a, (![1, 0] : Fin 2 → Nat) a + S1x64.size a ≤ S8x64.size a
  inb_S8x64_S1x64_2_0 : ∀ a, (![2, 0] : Fin 2 → Nat) a + S1x64.size a ≤ S8x64.size a
  inb_S8x64_S1x64_3_0 : ∀ a, (![3, 0] : Fin 2 → Nat) a + S1x64.size a ≤ S8x64.size a
  inb_S8x64_S1x64_4_0 : ∀ a, (![4, 0] : Fin 2 → Nat) a + S1x64.size a ≤ S8x64.size a
  inb_S8x64_S1x64_5_0 : ∀ a, (![5, 0] : Fin 2 → Nat) a + S1x64.size a ≤ S8x64.size a
  inb_S8x64_S1x64_6_0 : ∀ a, (![6, 0] : Fin 2 → Nat) a + S1x64.size a ≤ S8x64.size a
  inb_S8x64_S1x64_7_0 : ∀ a, (![7, 0] : Fin 2 → Nat) a + S1x64.size a ≤ S8x64.size a
  inb_S8x64_S8x64_0_0 : ∀ a, (![0, 0] : Fin 2 → Nat) a + S8x64.size a ≤ S8x64.size a
  h_S8x64 : 0 < S8x64.numel
  shapeCasts_S2000x64_S2000x64 : S2000x64.ShapeCasts S2000x64
  reduces_S2000x64_S2000 : S2000x64.Reduces [1] S2000
  shapeCasts_S2000_S2000x1 : S2000.ShapeCasts S2000x1
  broadcasts_S2000x1_S2000x64 : S2000x1.Broadcasts S2000x64
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S2000x128_S128x128_S2000x128_1_0_0_1_n_n_wf : DotDims.WF S2000x128 S128x128 S2000x128 [1] [0] [0] [1] [] []
  dot_S2000x128_S128x64_S2000x64_1_0_0_1_n_n_wf : DotDims.WF S2000x128 S128x64 S2000x64 [1] [0] [0] [1] [] []
  hcc0_scratch1 : 2 + S_.numel ≤ 28
  hcc2_scratch1 : 11 + S_.numel ≤ 28
  hcc3_scratch1 : 14 + S_.numel ≤ 28
  hcc5_scratch1 : 23 + S_.numel ≤ 28
  hrank0 : 0 < grid0.rank
  k0_off1_inb : ∀ i : grid0.Coords, ∀ a, (k0_off1 i) a + S1.size a ≤ S60000.size a
  k0_off3_inb : ∀ i : grid0.Coords, ∀ a, (k0_off3 i) a + S1.size a ≤ S60000.size a
  k0_off5_inb : ∀ i : grid0.Coords, ∀ a, (k0_off5 i) a + S1.size a ≤ S60000.size a
  k0_off7_inb : ∀ i : grid0.Coords, ∀ a, (k0_off7 i) a + S1.size a ≤ S60000.size a
  k0_off9_inb : ∀ i : grid0.Coords, ∀ a, (k0_off9 i) a + S1.size a ≤ S60000.size a
  k0_off11_inb : ∀ i : grid0.Coords, ∀ a, (k0_off11 i) a + S1.size a ≤ S60000.size a
  k0_off13_inb : ∀ i : grid0.Coords, ∀ a, (k0_off13 i) a + S1.size a ≤ S60000.size a
  k0_off15_inb : ∀ i : grid0.Coords, ∀ a, (k0_off15 i) a + S1.size a ≤ S60000.size a
  hstage0_0 : ∀ j, (stage0_0 j).IsWhole
  nbuf0_0 : grid0.bufCount reads0_0 false = 2
  hreads0_0 : ∀ i i' : grid0.Coords, (∀ a, reads0_0 a = true → i a = i' a) → cc0_transform_1 i = cc0_transform_1 i'
  hinb0_0 : ∀ (i : grid0.Coords) a, (cc0_transform_1 i a + 1) * S8x128.size a ≤ S60000x128.size a
  hwx0_0 : ∀ i : grid0.Coords, EltTy.bits .f32 = 32 ∨ (Rect.block (s := S60000x128) S8x128.size (cc0_transform_1 i) (hinb0_0 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S60000x128.size a
  hwx1_0 : ∀ i : grid1.Coords, EltTy.bits .f32 = 32 ∨ (Rect.block (s := S60000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S60000x128.size a
  hwx1_3 : ∀ i : grid1.Coords, EltTy.bits .f32 = 32 ∨ (Rect.block (s := S60000x128) S2000x128.size (cc1_transform_3 i) (hinb1_3 i)).WholeWords (EltTy.packing .f32)
  hrank2 : 0 < grid2.rank
  k2_off1_inb : ∀ i : grid2.Coords, ∀ a, (k2_off1 i) a + S1.size a ≤ S100000.size a
  k2_off3_inb : ∀ i : grid2.Coords, ∀ a, (k2_off3 i) a + S1.size a ≤ S100000.size a
  k2_off5_inb : ∀ i : grid2.Coords, ∀ a, (k2_off5 i) a + S1.size a ≤ S100000.size a
  k2_off7_inb : ∀ i : grid2.Coords, ∀ a, (k2_off7 i) a + S1.size a ≤ S100000.size a
  k2_off9_inb : ∀ i : grid2.Coords, ∀ a, (k2_off9 i) a + S1.size a ≤ S100000.size a
  k2_off11_inb : ∀ i : grid2.Coords, ∀ a, (k2_off11 i) a + S1.size a ≤ S100000.size a
  k2_off13_inb : ∀ i : grid2.Coords, ∀ a, (k2_off13 i) a + S1.size a ≤ S100000.size a
  k2_off15_inb : ∀ i : grid2.Coords, ∀ a, (k2_off15 i) a + S1.size a ≤ S100000.size a
  hstage2_0 : ∀ j, (stage2_0 j).IsWhole
  nbuf2_0 : grid2.bufCount reads2_0 false = 2
  hreads2_0 : ∀ i i' : grid2.Coords, (∀ a, reads2_0 a = true → i a = i' a) → cc2_transform_1 i = cc2_transform_1 i'
  hinb2_0 : ∀ (i : grid2.Coords) a, (cc2_transform_1 i a + 1) * S8x128.size a ≤ S100000x128.size a
  hwx2_0 : ∀ i : grid2.Coords, EltTy.bits .f32 = 32 ∨ (Rect.block (s := S100000x128) S8x128.size (cc2_transform_1 i) (hinb2_0 i)).WholeWords (EltTy.packing .f32)
  hrank3 : 0 < grid3.rank
  k3_off1_inb : ∀ i : grid3.Coords, ∀ a, (k3_off1 i) a + S1.size a ≤ S60000.size a
  k3_off3_inb : ∀ i : grid3.Coords, ∀ a, (k3_off3 i) a + S1.size a ≤ S60000.size a
  k3_off5_inb : ∀ i : grid3.Coords, ∀ a, (k3_off5 i) a + S1.size a ≤ S60000.size a
  k3_off7_inb : ∀ i : grid3.Coords, ∀ a, (k3_off7 i) a + S1.size a ≤ S60000.size a
  k3_off9_inb : ∀ i : grid3.Coords, ∀ a, (k3_off9 i) a + S1.size a ≤ S60000.size a
  k3_off11_inb : ∀ i : grid3.Coords, ∀ a, (k3_off11 i) a + S1.size a ≤ S60000.size a
  k3_off13_inb : ∀ i : grid3.Coords, ∀ a, (k3_off13 i) a + S1.size a ≤ S60000.size a
  k3_off15_inb : ∀ i : grid3.Coords, ∀ a, (k3_off15 i) a + S1.size a ≤ S60000.size a
  hstage3_0 : ∀ j, (stage3_0 j).IsWhole
  nbuf3_0 : grid3.bufCount reads3_0 false = 2
  hreads3_0 : ∀ i i' : grid3.Coords, (∀ a, reads3_0 a = true → i a = i' a) → cc3_transform_1 i = cc3_transform_1 i'
  hinb3_0 : ∀ (i : grid3.Coords) a, (cc3_transform_1 i a + 1) * S8x128.size a ≤ S60000x128.size a
  hwx3_0 : ∀ i : grid3.Coords, EltTy.bits .f32 = 32 ∨ (Rect.block (s := S60000x128) S8x128.size (cc3_transform_1 i) (hinb3_0 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S60000x128.size a
  hwx4_0 : ∀ i : grid4.Coords, EltTy.bits .f32 = 32 ∨ (Rect.block (s := S60000x128) S2000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x64.size a ≤ S128x64.size a
  hwx4_1 : ∀ i : grid4.Coords, EltTy.bits .f32 = 32 ∨ (Rect.block (s := S128x64) S128x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2000x64.size a ≤ S60000x64.size a
  hwx4_3 : ∀ i : grid4.Coords, EltTy.bits .f32 = 32 ∨ (Rect.block (s := S60000x64) S2000x64.size (cc4_transform_3 i) (hinb4_3 i)).WholeWords (EltTy.packing .f32)
  hrank5 : 0 < grid5.rank
  k5_off1_inb : ∀ i : grid5.Coords, ∀ a, (k5_off1 i) a + S1.size a ≤ S100000.size a
  k5_off3_inb : ∀ i : grid5.Coords, ∀ a, (k5_off3 i) a + S1.size a ≤ S100000.size a
  k5_off5_inb : ∀ i : grid5.Coords, ∀ a, (k5_off5 i) a + S1.size a ≤ S100000.size a
  k5_off7_inb : ∀ i : grid5.Coords, ∀ a, (k5_off7 i) a + S1.size a ≤ S100000.size a
  k5_off9_inb : ∀ i : grid5.Coords, ∀ a, (k5_off9 i) a + S1.size a ≤ S100000.size a
  k5_off11_inb : ∀ i : grid5.Coords, ∀ a, (k5_off11 i) a + S1.size a ≤ S100000.size a
  k5_off13_inb : ∀ i : grid5.Coords, ∀ a, (k5_off13 i) a + S1.size a ≤ S100000.size a
  k5_off15_inb : ∀ i : grid5.Coords, ∀ a, (k5_off15 i) a + S1.size a ≤ S100000.size a
  hstage5_0 : ∀ j, (stage5_0 j).IsWhole
  nbuf5_0 : grid5.bufCount reads5_0 false = 2
  hreads5_0 : ∀ i i' : grid5.Coords, (∀ a, reads5_0 a = true → i a = i' a) → cc5_transform_1 i = cc5_transform_1 i'
  hinb5_0 : ∀ (i : grid5.Coords) a, (cc5_transform_1 i a + 1) * S8x64.size a ≤ S100000x64.size a
  hwx5_0 : ∀ i : grid5.Coords, EltTy.bits .f32 = 32 ∨ (Rect.block (s := S100000x64) S8x64.size (cc5_transform_1 i) (hinb5_0 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x64.size a ≤ S100000x64.size a
  hwx6_0 : ∀ i : grid6.Coords, EltTy.bits .f32 = 32 ∨ (Rect.block (s := S100000x64) S2000x64.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S2000x64.size a ≤ S100000x64.size a
  hwx6_1 : ∀ i : grid6.Coords, EltTy.bits .f32 = 32 ∨ (Rect.block (s := S100000x64) S2000x64.size (cc6_transform_1 i) (hinb6_1 i)).WholeWords (EltTy.packing .f32)

variable [Facts₀]

abbrev cc0_scratch1 : DmaSems sig S_ := SemArray.consecutive 2 S_ hcc0_scratch1
abbrev cc2_scratch1 : DmaSems sig S_ := SemArray.consecutive 11 S_ hcc2_scratch1
abbrev cc3_scratch1 : DmaSems sig S_ := SemArray.consecutive 14 S_ hcc3_scratch1
abbrev cc5_scratch1 : DmaSems sig S_ := SemArray.consecutive 23 S_ hcc5_scratch1
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf

abbrev spec0_0 : Pipeline.WinSpec sig grid0.rank :=
  Pipeline.WinSpec.ofSpec (Memref.whole main_v17) S8x128.size reads0_0 true false 2 stage0_0 sem0_0 nbuf0_0 hstage0_0

abbrev spec0 : Fin 1 → Pipeline.WinSpec sig grid0.rank := fun | 0 => spec0_0 | ⟨_ + 1, h⟩ => absurd h (Nat.not_lt.2 (Nat.le_add_left _ _))
theorem hcount0 : ∀ w, grid0.bufCount (spec0 w).reads (spec0 w).sync = (spec0 w).nbuf := fun | 0 => nbuf0_0 | ⟨_ + 1, h⟩ => absurd h (Nat.not_lt.2 (Nat.le_add_left _ _))
abbrev ix0 (pf : pre0.Contents (Elt F)) : (w : Fin 1) → grid0.Coords → Fin (spec0 w).shape.rank → Nat := fun | 0 => cc0_transform_1 | ⟨_ + 1, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | ⟨_ + 1, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | ⟨_ + 1, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | ⟨_ + 1, h⟩ => absurd h (Nat.not_lt.2 (Nat.le_add_left _ _))
abbrev win1_0 : Pipeline.Window sig grid1 :=
  Pipeline.Window.ofSpec (Memref.whole main_v17) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg7) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v18) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v19) S2000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev spec2_0 : Pipeline.WinSpec sig grid2.rank :=
  Pipeline.WinSpec.ofSpec (Memref.whole main_v20) S8x128.size reads2_0 true false 2 stage2_0 sem2_0 nbuf2_0 hstage2_0

abbrev spec2 : Fin 1 → Pipeline.WinSpec sig grid2.rank := fun | 0 => spec2_0 | ⟨_ + 1, h⟩ => absurd h (Nat.not_lt.2 (Nat.le_add_left _ _))
theorem hcount2 : ∀ w, grid2.bufCount (spec2 w).reads (spec2 w).sync = (spec2 w).nbuf := fun | 0 => nbuf2_0 | ⟨_ + 1, h⟩ => absurd h (Nat.not_lt.2 (Nat.le_add_left _ _))
abbrev ix2 (pf : pre2.Contents (Elt F)) : (w : Fin 1) → grid2.Coords → Fin (spec2 w).shape.rank → Nat := fun | 0 => cc2_transform_1 | ⟨_ + 1, h⟩ => absurd h (Nat.not_lt.2 (Nat.le_add_left _ _))
theorem hreads2 : ∀ (pf : pre2.Contents (Elt F)) w (i i' : grid2.Coords), (∀ a, (spec2 w).reads a = true → i a = i' a) → ix2 pf w i = ix2 pf w i' := fun pf => fun | 0 => hreads2_0 | ⟨_ + 1, h⟩ => absurd h (Nat.not_lt.2 (Nat.le_add_left _ _))
def ok2 (_ : pre2.Contents (Elt F)) : Prop :=
  True
instance (pf : pre2.Contents (Elt F)) : Decidable (ok2 pf) := decidable_of_iff' _ (Iff.of_eq (ok2.eq_1 pf))
theorem hinb2 : ∀ (pf : pre2.Contents (Elt F)), ok2 pf → ∀ w (i : grid2.Coords) a, (ix2 pf w i a + 1) * (spec2 w).size a ≤ (spec2 w).shape.size a :=
  fun _ _ => fun | 0 => hinb2_0 | ⟨_ + 1, h⟩ => absurd h (Nat.not_lt.2 (Nat.le_add_left _ _))
theorem hwx2 : ∀ (pf : pre2.Contents (Elt F)) (hok : ok2 pf) w (i : grid2.Coords), (spec2 w).elt.bits = 32 ∨ (Rect.block (spec2 w).size (ix2 pf w i) (hinb2 pf hok w i)).WholeWords (spec2 w).elt.packing :=
  fun _ _ => fun | 0 => hwx2_0 | ⟨_ + 1, h⟩ => absurd h (Nat.not_lt.2 (Nat.le_add_left _ _))
abbrev spec3_0 : Pipeline.WinSpec sig grid3.rank :=
  Pipeline.WinSpec.ofSpec (Memref.whole main_v38) S8x128.size reads3_0 true false 2 stage3_0 sem3_0 nbuf3_0 hstage3_0

abbrev spec3 : Fin 1 → Pipeline.WinSpec sig grid3.rank := fun | 0 => spec3_0 | ⟨_ + 1, h⟩ => absurd h (Nat.not_lt.2 (Nat.le_add_left _ _))
theorem hcount3 : ∀ w, grid3.bufCount (spec3 w).reads (spec3 w).sync = (spec3 w).nbuf := fun | 0 => nbuf3_0 | ⟨_ + 1, h⟩ => absurd h (Nat.not_lt.2 (Nat.le_add_left _ _))
abbrev ix3 (pf : pre3.Contents (Elt F)) : (w : Fin 1) → grid3.Coords → Fin (spec3 w).shape.rank → Nat := fun | 0 => cc3_transform_1 | ⟨_ + 1, h⟩ => absurd h (Nat.not_lt.2 (Nat.le_add_left _ _))
theorem hreads3 : ∀ (pf : pre3.Contents (Elt F)) w (i i' : grid3.Coords), (∀ a, (spec3 w).reads a = true → i a = i' a) → ix3 pf w i = ix3 pf w i' := fun pf => fun | 0 => hreads3_0 | ⟨_ + 1, h⟩ => absurd h (Nat.not_lt.2 (Nat.le_add_left _ _))
def ok3 (_ : pre3.Contents (Elt F)) : Prop :=
  True
instance (pf : pre3.Contents (Elt F)) : Decidable (ok3 pf) := decidable_of_iff' _ (Iff.of_eq (ok3.eq_1 pf))
theorem hinb3 : ∀ (pf : pre3.Contents (Elt F)), ok3 pf → ∀ w (i : grid3.Coords) a, (ix3 pf w i a + 1) * (spec3 w).size a ≤ (spec3 w).shape.size a :=
  fun _ _ => fun | 0 => hinb3_0 | ⟨_ + 1, h⟩ => absurd h (Nat.not_lt.2 (Nat.le_add_left _ _))
theorem hwx3 : ∀ (pf : pre3.Contents (Elt F)) (hok : ok3 pf) w (i : grid3.Coords), (spec3 w).elt.bits = 32 ∨ (Rect.block (spec3 w).size (ix3 pf w i) (hinb3 pf hok w i)).WholeWords (spec3 w).elt.packing :=
  fun _ _ => fun | 0 => hwx3_0 | ⟨_ + 1, h⟩ => absurd h (Nat.not_lt.2 (Nat.le_add_left _ _))
abbrev win4_0 : Pipeline.Window sig grid4 :=
  Pipeline.Window.ofSpec (Memref.whole main_v38) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg9) S128x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v39) S1x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v40) S2000x64.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev spec5_0 : Pipeline.WinSpec sig grid5.rank :=
  Pipeline.WinSpec.ofSpec (Memref.whole main_v41) S8x64.size reads5_0 true false 2 stage5_0 sem5_0 nbuf5_0 hstage5_0

abbrev spec5 : Fin 1 → Pipeline.WinSpec sig grid5.rank := fun | 0 => spec5_0 | ⟨_ + 1, h⟩ => absurd h (Nat.not_lt.2 (Nat.le_add_left _ _))
theorem hcount5 : ∀ w, grid5.bufCount (spec5 w).reads (spec5 w).sync = (spec5 w).nbuf := fun | 0 => nbuf5_0 | ⟨_ + 1, h⟩ => absurd h (Nat.not_lt.2 (Nat.le_add_left _ _))
abbrev ix5 (pf : pre5.Contents (Elt F)) : (w : Fin 1) → grid5.Coords → Fin (spec5 w).shape.rank → Nat := fun | 0 => cc5_transform_1 | ⟨_ + 1, h⟩ => absurd h (Nat.not_lt.2 (Nat.le_add_left _ _))
theorem hreads5 : ∀ (pf : pre5.Contents (Elt F)) w (i i' : grid5.Coords), (∀ a, (spec5 w).reads a = true → i a = i' a) → ix5 pf w i = ix5 pf w i' := fun pf => fun | 0 => hreads5_0 | ⟨_ + 1, h⟩ => absurd h (Nat.not_lt.2 (Nat.le_add_left _ _))
def ok5 (_ : pre5.Contents (Elt F)) : Prop :=
  True
instance (pf : pre5.Contents (Elt F)) : Decidable (ok5 pf) := decidable_of_iff' _ (Iff.of_eq (ok5.eq_1 pf))
theorem hinb5 : ∀ (pf : pre5.Contents (Elt F)), ok5 pf → ∀ w (i : grid5.Coords) a, (ix5 pf w i a + 1) * (spec5 w).size a ≤ (spec5 w).shape.size a :=
  fun _ _ => fun | 0 => hinb5_0 | ⟨_ + 1, h⟩ => absurd h (Nat.not_lt.2 (Nat.le_add_left _ _))
theorem hwx5 : ∀ (pf : pre5.Contents (Elt F)) (hok : ok5 pf) w (i : grid5.Coords), (spec5 w).elt.bits = 32 ∨ (Rect.block (spec5 w).size (ix5 pf w i) (hinb5 pf hok w i)).WholeWords (spec5 w).elt.packing :=
  fun _ _ => fun | 0 => hwx5_0 | ⟨_ + 1, h⟩ => absurd h (Nat.not_lt.2 (Nat.le_add_left _ _))
abbrev win6_0 : Pipeline.Window sig grid6 :=
  Pipeline.Window.ofSpec (Memref.whole main_v41) S2000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v42) S2000x64.size cc6_transform_1 reads6_1 true false 2 stage6_1 sem6_1
    hrank6 hreads6_1 hinb6_1 nbuf6_1 (Memref.isWhole_whole _) hwx6_1 hstage6_1

abbrev win6 : Fin 2 → Pipeline.Window sig grid6 := fun | 0 => win6_0 | 1 => win6_1 | ⟨_ + 2, h⟩ => absurd h (Nat.not_lt.2 (Nat.le_add_left _ _))
abbrev spec6 : Fin 2 → Pipeline.WinSpec sig grid6.rank := fun w => (win6 w).toWinSpec

class Facts : Prop extends Facts₀ where
  harr0 : ∀ w, (spec0 w).arr.IsWhole
  harr2 : ∀ w, (spec2 w).arr.IsWhole
  harr3 : ∀ w, (spec3 w).arr.IsWhole
  harr5 : ∀ w, (spec5 w).arr.IsWhole

variable [Facts]
-- ==== ReferenceIdeal.lean ====
abbrev S100000x128 : Shape := ⟨2, ![100000, 128]⟩
abbrev S2x1600000 : Shape := ⟨2, ![2, 1600000]⟩
abbrev S1600000 : Shape := ⟨1, ![1600000]⟩
abbrev S60000 : Shape := ⟨1, ![60000]⟩
abbrev S100000 : Shape := ⟨1, ![100000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S_ : Shape := ⟨0, ![]⟩
abbrev S1600000x1 : Shape := ⟨2, ![1600000, 1]⟩
abbrev S1600000x128 : Shape := ⟨2, ![1600000, 128]⟩
abbrev S60000x1 : Shape := ⟨2, ![60000, 1]⟩
abbrev S60000x128 : Shape := ⟨2, ![60000, 128]⟩
abbrev S1x128 : Shape := ⟨2, ![1, 128]⟩
abbrev S100000x1 : Shape := ⟨2, ![100000, 1]⟩
abbrev S60000x64 : Shape := ⟨2, ![60000, 64]⟩
abbrev S1x64 : Shape := ⟨2, ![1, 64]⟩
abbrev S100000x64 : Shape := ⟨2, ![100000, 64]⟩

abbrev nBuf : Space → Nat
  | .hbm => 113
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000, .f32⟩
  | .hbm, ⟨3, _⟩ => ⟨S60000, .i32⟩
  | .hbm, ⟨4, _⟩ => ⟨S100000, .i32⟩
  | .hbm, ⟨5, _⟩ => ⟨S60000, .i32⟩
  | .hbm, ⟨6, _⟩ => ⟨S100000, .i32⟩
  | .hbm, ⟨7, _⟩ => ⟨S128x128, .f32⟩
  | .hbm, ⟨8, _⟩ => ⟨S128, .f32⟩
  | .hbm, ⟨9, _⟩ => ⟨S128x64, .f32⟩
  | .hbm, ⟨10, _⟩ => ⟨S64, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S_, .i32⟩
  | .hbm, ⟨16, _⟩ => ⟨S1600000, .i32⟩
  | .hbm, ⟨17, _⟩ => ⟨S1600000, .i1⟩
  | .hbm, ⟨18, _⟩ => ⟨S_, .i32⟩
  | .hbm, ⟨19, _⟩ => ⟨S1600000, .i32⟩
  | .hbm, ⟨20, _⟩ => ⟨S1600000, .i32⟩
  | .hbm, ⟨21, _⟩ => ⟨S1600000, .i32⟩
  | .hbm, ⟨22, _⟩ => ⟨S1600000x1, .i32⟩
  | .hbm, ⟨23, _⟩ => ⟨S1600000x128, .f32⟩
  | .hbm, ⟨24, _⟩ => ⟨S1600000x1, .f32⟩
  | .hbm, ⟨25, _⟩ => ⟨S1600000x128, .f32⟩
  | .hbm, ⟨26, _⟩ => ⟨S1600000x128, .f32⟩
  | .hbm, ⟨27, _⟩ => ⟨S_, .f32⟩
  | .hbm, ⟨28, _⟩ => ⟨S100000x128, .f32⟩
  | .hbm, ⟨29, _⟩ => ⟨S1600000x1, .i32⟩
  | .hbm, ⟨30, _⟩ => ⟨S100000x128, .f32⟩
  | .hbm, ⟨31, _⟩ => ⟨S_, .i32⟩
  | .hbm, ⟨32, _⟩ => ⟨S60000, .i32⟩
  | .hbm, ⟨33, _⟩ => ⟨S60000, .i1⟩
  | .hbm, ⟨34, _⟩ => ⟨S_, .i32⟩
  | .hbm, ⟨35, _⟩ => ⟨S60000, .i32⟩
  | .hbm, ⟨36, _⟩ => ⟨S60000, .i32⟩
  | .hbm, ⟨37, _⟩ => ⟨S60000, .i32⟩
  | .hbm, ⟨38, _⟩ => ⟨S60000x1, .i32⟩
  | .hbm, ⟨39, _⟩ => ⟨S60000x128, .f32⟩
  | .hbm, ⟨40, _⟩ => ⟨S60000x128, .f32⟩
  | .hbm, ⟨41, _⟩ => ⟨S1x128, .f32⟩
  | .hbm, ⟨42, _⟩ => ⟨S60000x128, .f32⟩
  | .hbm, ⟨43, _⟩ => ⟨S60000x128, .f32⟩
  | .hbm, ⟨44, _⟩ => ⟨S_, .f32⟩
  | .hbm, ⟨45, _⟩ => ⟨S60000x128, .f32⟩
  | .hbm, ⟨46, _⟩ => ⟨S60000x128, .f32⟩
  | .hbm, ⟨47, _⟩ => ⟨S_, .i32⟩
  | .hbm, ⟨48, _⟩ => ⟨S100000, .i32⟩
  | .hbm, ⟨49, _⟩ => ⟨S100000, .i1⟩
  | .hbm, ⟨50, _⟩ => ⟨S_, .i32⟩
  | .hbm, ⟨51, _⟩ => ⟨S100000, .i32⟩
  | .hbm, ⟨52, _⟩ => ⟨S100000, .i32⟩
  | .hbm, ⟨53, _⟩ => ⟨S100000, .i32⟩
  | .hbm, ⟨54, _⟩ => ⟨S100000x1, .i32⟩
  | .hbm, ⟨55, _⟩ => ⟨S100000x128, .f32⟩
  | .hbm, ⟨56, _⟩ => ⟨S1x1600000, .i32⟩
  | .hbm, ⟨57, _⟩ => ⟨S1600000, .i32⟩
  | .hbm, ⟨58, _⟩ => ⟨S1x1600000, .i32⟩
  | .hbm, ⟨59, _⟩ => ⟨S1600000, .i32⟩
  | .hbm, ⟨60, _⟩ => ⟨S_, .i32⟩
  | .hbm, ⟨61, _⟩ => ⟨S1600000, .i32⟩
  | .hbm, ⟨62, _⟩ => ⟨S1600000, .i1⟩
  | .hbm, ⟨63, _⟩ => ⟨S_, .i32⟩
  | .hbm, ⟨64, _⟩ => ⟨S1600000, .i32⟩
  | .hbm, ⟨65, _⟩ => ⟨S1600000, .i32⟩
  | .hbm, ⟨66, _⟩ => ⟨S1600000, .i32⟩
  | .hbm, ⟨67, _⟩ => ⟨S1600000x1, .i32⟩
  | .hbm, ⟨68, _⟩ => ⟨S1600000x128, .f32⟩
  | .hbm, ⟨69, _⟩ => ⟨S1600000x1, .f32⟩
  | .hbm, ⟨70, _⟩ => ⟨S1600000x128, .f32⟩
  | .hbm, ⟨71, _⟩ => ⟨S1600000x128, .f32⟩
  | .hbm, ⟨72, _⟩ => ⟨S_, .f32⟩
  | .hbm, ⟨73, _⟩ => ⟨S100000x128, .f32⟩
  | .hbm, ⟨74, _⟩ => ⟨S1600000x1, .i32⟩
  | .hbm, ⟨75, _⟩ => ⟨S100000x128, .f32⟩
  | .hbm, ⟨76, _⟩ => ⟨S_, .i32⟩
  | .hbm, ⟨77, _⟩ => ⟨S60000, .i32⟩
  | .hbm, ⟨78, _⟩ => ⟨S60000, .i1⟩
  | .hbm, ⟨79, _⟩ => ⟨S_, .i32⟩
  | .hbm, ⟨80, _⟩ => ⟨S60000, .i32⟩
  | .hbm, ⟨81, _⟩ => ⟨S60000, .i32⟩
  | .hbm, ⟨82, _⟩ => ⟨S60000, .i32⟩
  | .hbm, ⟨83, _⟩ => ⟨S60000x1, .i32⟩
  | .hbm, ⟨84, _⟩ => ⟨S60000x128, .f32⟩
  | .hbm, ⟨85, _⟩ => ⟨S60000x64, .f32⟩
  | .hbm, ⟨86, _⟩ => ⟨S1x64, .f32⟩
  | .hbm, ⟨87, _⟩ => ⟨S60000x64, .f32⟩
  | .hbm, ⟨88, _⟩ => ⟨S60000x64, .f32⟩
  | .hbm, ⟨89, _⟩ => ⟨S_, .i32⟩
  | .hbm, ⟨90, _⟩ => ⟨S100000, .i32⟩
  | .hbm, ⟨91, _⟩ => ⟨S100000, .i1⟩
  | .hbm, ⟨92, _⟩ => ⟨S_, .i32⟩
  | .hbm, ⟨93, _⟩ => ⟨S100000, .i32⟩
  | .hbm, ⟨94, _⟩ => ⟨S100000, .i32⟩
  | .hbm, ⟨95, _⟩ => ⟨S100000, .i32⟩
  | .hbm, ⟨96, _⟩ => ⟨S100000x1, .i32⟩
  | .hbm, ⟨97, _⟩ => ⟨S100000x64, .f32⟩
  | .hbm, ⟨98, _⟩ => ⟨S_, .f32⟩
  | .hbm, ⟨99, _⟩ => ⟨S100000, .f32⟩
  | .hbm, ⟨100, _⟩ => ⟨S_, .f32⟩
  | .hbm, ⟨101, _⟩ => ⟨S100000, .f32⟩
  | .hbm, ⟨102, _⟩ => ⟨S100000, .f32⟩
  | .hbm, ⟨103, _⟩ => ⟨S100000x1, .f32⟩
  | .hbm, ⟨104, _⟩ => ⟨S100000x64, .f32⟩
  | .hbm, ⟨105, _⟩ => ⟨S100000x64, .f32⟩
  | .hbm, ⟨106, _⟩ => ⟨S100000x64, .f32⟩
  | .hbm, ⟨107, _⟩ => ⟨S_, .f32⟩
  | .hbm, ⟨108, _⟩ => ⟨S100000, .f32⟩
  | .hbm, ⟨109, _⟩ => ⟨S100000x1, .f32⟩
  | .hbm, ⟨110, _⟩ => ⟨S100000x1, .f32⟩
  | .hbm, ⟨111, _⟩ => ⟨S100000x64, .f32⟩
  | .hbm, ⟨112, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_c_1 : Ref sig .tc := ⟨.hbm, 31, rfl⟩
abbrev main_v17 : Ref sig .tc := ⟨.hbm, 32, rfl⟩
abbrev main_v18 : Ref sig .tc := ⟨.hbm, 33, rfl⟩
abbrev main_c_2 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_call0_cst : Ref sig .tc := ⟨.hbm, 44, rfl⟩
abbrev main_call0_v0 : Ref sig .tc := ⟨.hbm, 45, rfl⟩
abbrev main_v28 : Ref sig .tc := ⟨.hbm, 46, rfl⟩
abbrev main_c_3 : Ref sig .tc := ⟨.hbm, 47, rfl⟩
abbrev main_v29 : Ref sig .tc := ⟨.hbm, 48, rfl⟩
abbrev main_v30 : Ref sig .tc := ⟨.hbm, 49, rfl⟩
abbrev main_c_4 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_c_5 : Ref sig .tc := ⟨.hbm, 60, rfl⟩
abbrev main_v40 : Ref sig .tc := ⟨.hbm, 61, rfl⟩
abbrev main_v41 : Ref sig .tc := ⟨.hbm, 62, rfl⟩
abbrev main_c_6 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_cst_7 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_c_8 : Ref sig .tc := ⟨.hbm, 76, rfl⟩
abbrev main_v53 : Ref sig .tc := ⟨.hbm, 77, rfl⟩
abbrev main_v54 : Ref sig .tc := ⟨.hbm, 78, rfl⟩
abbrev main_c_9 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_c_10 : Ref sig .tc := ⟨.hbm, 89, rfl⟩
abbrev main_v64 : Ref sig .tc := ⟨.hbm, 90, rfl⟩
abbrev main_v65 : Ref sig .tc := ⟨.hbm, 91, rfl⟩
abbrev main_c_11 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_call1_cst : Ref sig .tc := ⟨.hbm, 98, rfl⟩
abbrev main_call1_v0 : Ref sig .tc := ⟨.hbm, 99, rfl⟩
abbrev main_call1_cst_0 : Ref sig .tc := ⟨.hbm, 100, rfl⟩
abbrev main_call1_v1 : Ref sig .tc := ⟨.hbm, 101, rfl⟩
abbrev main_call1_v2 : Ref sig .tc := ⟨.hbm, 102, rfl⟩
abbrev main_call1_v3 : Ref sig .tc := ⟨.hbm, 103, rfl⟩
abbrev main_call1_v4 : Ref sig .tc := ⟨.hbm, 104, rfl⟩
abbrev main_call1_v5 : Ref sig .tc := ⟨.hbm, 105, rfl⟩
abbrev main_call1_v6 : Ref sig .tc := ⟨.hbm, 106, rfl⟩
abbrev main_call1_cst_1 : Ref sig .tc := ⟨.hbm, 107, rfl⟩
abbrev main_call1_v7 : Ref sig .tc := ⟨.hbm, 108, rfl⟩
abbrev main_call1_v8 : Ref sig .tc := ⟨.hbm, 109, rfl⟩
abbrev main_call1_v9 : Ref sig .tc := ⟨.hbm, 110, rfl⟩
abbrev main_call1_v10 : Ref sig .tc := ⟨.hbm, 111, rfl⟩
abbrev main_v71 : Ref sig .tc := ⟨.hbm, 112, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S_S60000 : S_.BroadcastsInDim S60000 (![] : Fin 0 → Fin S60000.rank)
  bcast_S60000_S60000x1_0 : S60000.BroadcastsInDim S60000x1 (![0] : Fin 1 → Fin S60000x1.rank)
  bcast_S128_S1x128_1 : S128.BroadcastsInDim S1x128 (![1] : Fin 1 → Fin S1x128.rank)
  bcast_S1x128_S60000x128_0_1 : S1x128.BroadcastsInDim S60000x128 (![0, 1] : Fin 2 → Fin S60000x128.rank)
  bcast_S_S60000x128 : S_.BroadcastsInDim S60000x128 (![] : Fin 0 → Fin S60000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S64_S1x64_1 : S64.BroadcastsInDim S1x64 (![1] : Fin 1 → Fin S1x64.rank)
  bcast_S1x64_S60000x64_0_1 : S1x64.BroadcastsInDim S60000x64 (![0, 1] : Fin 2 → Fin S60000x64.rank)
  reducesTo_S100000x64_S100000_d1 : S100000x64.ReducesTo [1] S100000
  h_S_ : 0 < S_.numel
  bcast_S100000x1_S100000x64_0_1 : S100000x1.BroadcastsInDim S100000x64 (![0, 1] : Fin 2 → Fin S100000x64.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  gather_S100000x128_S60000x1_S60000x128_1_0_n_n_0_1_1128_wf : GatherDims.WF S100000x128 S60000x1 S60000x128 [1] [0] [] [0] [] 1 ![1, 128]
  dot_S60000x128_S128x128_S60000x128_1_0_0_1_n_n_wf : DotDims.WF S60000x128 S128x128 S60000x128 [1] [0] [0] [1] [] []
  gather_S60000x128_S100000x1_S100000x128_1_0_n_n_0_1_1128_wf : GatherDims.WF S60000x128 S100000x1 S100000x128 [1] [0] [] [0] [] 1 ![1, 128]
  dot_S60000x128_S128x64_S60000x64_1_0_0_1_n_n_wf : DotDims.WF S60000x128 S128x64 S60000x64 [1] [0] [0] [1] [] []
  gather_S60000x64_S100000x1_S100000x64_1_0_n_n_0_1_164_wf : GatherDims.WF S60000x64 S100000x1 S100000x64 [1] [0] [] [0] [] 1 ![1, 64]

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def gather_S100000x128_S60000x1_S60000x128_1_0_n_n_0_1_1128 : GatherDims S100000x128 S60000x1 S60000x128 where
  offsetDims := [1]
  collapsedSliceDims := [0]
  operandBatchingDims := []
  startIndicesBatchingDims := []
  startIndexMap := [0]
  indexVectorDim := 1
  sliceSizes := ![1, 128]
  wf := gather_S100000x128_S60000x1_S60000x128_1_0_n_n_0_1_1128_wf
def dot_S60000x128_S128x128_S60000x128_1_0_0_1_n_n : DotDims S60000x128 S128x128 S60000x128 where
  lhsContracting := [1]
  rhsContracting := [0]
  lhsNonContracting := [0]
  rhsNonContracting := [1]
  lhsBatch := []
  rhsBatch := []
  wf := dot_S60000x128_S128x128_S60000x128_1_0_0_1_n_n_wf
def gather_S60000x128_S100000x1_S100000x128_1_0_n_n_0_1_1128 : GatherDims S60000x128 S100000x1 S100000x128 where
  offsetDims := [1]
  collapsedSliceDims := [0]
  operandBatchingDims := []
  startIndicesBatchingDims := []
  startIndexMap := [0]
  indexVectorDim := 1
  sliceSizes := ![1, 128]
  wf := gather_S60000x128_S100000x1_S100000x128_1_0_n_n_0_1_1128_wf
def dot_S60000x128_S128x64_S60000x64_1_0_0_1_n_n : DotDims S60000x128 S128x64 S60000x64 where
  lhsContracting := [1]
  rhsContracting := [0]
  lhsNonContracting := [0]
  rhsNonContracting := [1]
  lhsBatch := []
  rhsBatch := []
  wf := dot_S60000x128_S128x64_S60000x64_1_0_0_1_n_n_wf
def gather_S60000x64_S100000x1_S100000x64_1_0_n_n_0_1_164 : GatherDims S60000x64 S100000x1 S100000x64 where
  offsetDims := [1]
  collapsedSliceDims := [0]
  operandBatchingDims := []
  startIndicesBatchingDims := []
  startIndexMap := [0]
  indexVectorDim := 1
  sliceSizes := ![1, 64]
  wf := gather_S60000x64_S100000x1_S100000x64_1_0_n_n_0_1_164_wf

class Facts : Prop extends Facts₀ where

variable [Facts]
-- ==== Proof.TableRanges.lean ====
import proofs.«407256_j33208687133423_1_alg».proof.Pre_finite_inputs
import Idealize.ShloMosaic.Lib.ReduceAll
import Idealize.ShloMosaic.Lib.StableHlo.Predicate
import Idealize.ShloMosaic.Lib.ValueIdx

namespace Cert.TableRanges

open Idealize.ShloMosaic Cert.Pre_finite_inputs

instance subsingleton_scalar_idx : Subsingleton S_.Idx := ⟨fun a b => funext fun d => d.elim0⟩

/-- `all (0 ≤ t ∧ t < B)` over a table being 1 bounds every entry read unsigned: each entry passes both signed
    compares, and a word that is not negative reads the same signed and unsigned. -/
theorem table_toNat {s : Shape} {axes : List (Fin s.rank)} (t : IVec s 32) (B : Nat) (hB : B < 2 ^ 31)
    (bc : S_.BroadcastsInDim s (![] : Fin 0 → Fin s.rank)) (rd : s.ReducesTo axes S_) (hS : 0 < S_.numel)
    (e : Host.reduce IntOp.andi
          (andi (cmpi .sge t (broadcastInDim s ![] bc (constantI S_ 32 (0#32))))
                (cmpi .slt t (broadcastInDim s ![] bc (constantI S_ 32 (BitVec.ofNat 32 B)))))
          (constantI S_ 1 (1#1)) rd hS ValueIdx.ix0 = 1#1) (k : s.Idx) : (t k).toNat < B := by
  obtain ⟨h0, h1⟩ := IntOp.andi_eq_one.1 (show IntOp.andi (IntOp.cmpi .sge (t k) (0#32)) (IntOp.cmpi .slt (t k) (BitVec.ofNat 32 B)) = 1#1 from
    Host.reduce_andi_all _ _ rd hS ValueIdx.ix0 e k)
  rw [IntOp.cmpi_sge, show (0#32 : BitVec 32).toInt = 0 from by decide] at h0
  rw [IntOp.cmpi_slt, StableHlo.Predicate.toInt_ofNat_small B hB] at h1
  have hw := (t k).isLt
  rw [BitVec.toInt_eq_toNat_cond] at h0 h1
  split at h0 <;> omega

/-- The precondition is a chain of scalar conjunctions ending in the four table tests: each test is 1. -/
theorem of_pre {F : FTy → Type} [FloatOps F] [Cert.Pre_finite_inputs.Facts]
    (a0 : FVec F S100000x128 .f32) (a1 : IVec S2x1600000 32) (a2 : FVec F S1600000 .f32)
    (a3 : IVec S60000 32) (a4 : IVec S100000 32) (a5 : IVec S60000 32) (a6 : IVec S100000 32)
    (a7 : FVec F S128x128 .f32) (a8 : FVec F S128 .f32) (a9 : FVec F S128x64 .f32) (a10 : FVec F S64 .f32)
    (h : Cert.Pre_finite_inputs.fn (F := F) a0 a1 a2 a3 a4 a5 a6 a7 a8 a9 a10 = fun _ => 1#1) :
    (∀ k, (a3 k).toNat < 100000) ∧ (∀ k, (a4 k).toNat < 60000) ∧ (∀ k, (a5 k).toNat < 100000) ∧ (∀ k, (a6 k).toNat < 60000) := by
  have e := congrFun h ValueIdx.ix0
  simp only [fn, fn_part1, fn_part2, fn_part3] at e
  obtain ⟨e, h6⟩ := IntOp.andi_eq_one.1 e
  obtain ⟨e, h5⟩ := IntOp.andi_eq_one.1 e
  obtain ⟨e, h4⟩ := IntOp.andi_eq_one.1 e
  obtain ⟨e, h3⟩ := IntOp.andi_eq_one.1 e
  exact ⟨table_toNat a3 100000 (by norm_num) _ _ _ h3, table_toNat a4 60000 (by norm_num) _ _ _ h4,
    table_toNat a5 100000 (by norm_num) _ _ _ h5, table_toNat a6 60000 (by norm_num) _ _ _ h6⟩

end Cert.TableRanges
-- ==== Proof.Rows.lean ====
import Idealize.ShloMosaic.Lib.Writes
import Idealize.ShloMosaic.Lib.Exec.Geometry

noncomputable section

namespace Cert.Rows

open Idealize.ShloMosaic Idealize.ShloMosaic.TcCoe

variable {F : FTy → Type} [FloatOps F] {sig : RefSig}

/-- An eight-row block, one of its rows, and that row as a vector. -/
abbrev SA : Shape := ⟨2, ![8, 128]⟩
abbrev SA1 : Shape := ⟨2, ![1, 128]⟩
abbrev SAv : Shape := ⟨1, ![128]⟩
theorem sqA : SA1.Squeezes SAv := by decide
theorem inbA (k : ℕ) (hk : k < 8) (a : Fin 2) : (![k, 0] : Fin 2 → ℕ) a + SA1.size a ≤ SA.size a := by
  fin_cases a <;> simp <;> omega

/-- Row `k` of the block, as a rectangle, and the whole block as a rectangle to read. -/
abbrev rowA (k : ℕ) (hk : k < 8) : Rect SA := Rect.unit (s := SA) ![k, 0] SA1.size (inbA k hk)
abbrev blkA : LoadRect SA := (Rect.unit (s := SA) ![0, 0] SA.size (by decide)).toLoadRect

section
variable (p0 : (rowA 0 (by decide)).shape.Idx → Elt F .f32) (p1 : (rowA 1 (by decide)).shape.Idx → Elt F .f32)
  (p2 : (rowA 2 (by decide)).shape.Idx → Elt F .f32) (p3 : (rowA 3 (by decide)).shape.Idx → Elt F .f32)
  (p4 : (rowA 4 (by decide)).shape.Idx → Elt F .f32) (p5 : (rowA 5 (by decide)).shape.Idx → Elt F .f32)
  (p6 : (rowA 6 (by decide)).shape.Idx → Elt F .f32) (p7 : (rowA 7 (by decide)).shape.Idx → Elt F .f32)

abbrev rowsA : List (View.Piece (Elt F) SA .f32) :=
  [⟨rowA 7 (by decide), p7⟩, ⟨rowA 6 (by decide), p6⟩, ⟨rowA 5 (by decide), p5⟩, ⟨rowA 4 (by decide), p4⟩,
    ⟨rowA 3 (by decide), p3⟩, ⟨rowA 2 (by decide), p2⟩, ⟨rowA 1 (by decide), p1⟩, ⟨rowA 0 (by decide), p0⟩]

/-- The eight rows tile the block. -/
theorem rowsA_cover (y : SA.Idx) : ∃ p ∈ rowsA p0 p1 p2 p3 p4 p5 p6 p7, y ∈ p.1.set :=
  View.cover_of_tiled (rowsA p0 p1 p2 p3 p4 p5 p6 p7) SA1.size (by rfl) y
end

variable (M : Memref sig .tc .vmem SA .f32)

/-- The contents `g` with row `k` overwritten by `w`. -/
abbrev wrRowA (k : ℕ) (hk : k < 8) (g : M.view.ty.Contents (Elt F)) (w : SAv.Idx → Elt F .f32) : M.view.ty.Contents (Elt F) :=
  View.write (Elt F) ((M.slice (rowA k hk) (fun _ => rfl)).squeeze SAv sqA).view g w Finset.univ
abbrev wrA (w0 w1 w2 w3 w4 w5 w6 w7 : SAv.Idx → Elt F .f32) (f : M.view.ty.Contents (Elt F)) : M.view.ty.Contents (Elt F) :=
  wrRowA M 7 (by decide) (wrRowA M 6 (by decide) (wrRowA M 5 (by decide) (wrRowA M 4 (by decide) (wrRowA M 3 (by decide)
    (wrRowA M 2 (by decide) (wrRowA M 1 (by decide) (wrRowA M 0 (by decide) f w0) w1) w2) w3) w4) w5) w6) w7

/-- All eight rows overwritten, the block read whole does not depend on what it held before: the rows cover it. -/
theorem rowsA_indep (w0 w1 w2 w3 w4 w5 w6 w7 : SAv.Idx → Elt F .f32) (f f' : M.view.ty.Contents (Elt F)) :
    View.readAt (Elt F) M.view blkA (wrA M w0 w1 w2 w3 w4 w5 w6 w7 f) = View.readAt (Elt F) M.view blkA (wrA M w0 w1 w2 w3 w4 w5 w6 w7 f') := by
  simp only [wrA, wrRowA, Memref.view_squeeze, Memref.view_slice, View.write_reshape_univ]
  exact (View.readAt_writes_of_cover M.view f (rowsA _ _ _ _ _ _ _ _) _ fun _ => rowsA_cover _ _ _ _ _ _ _ _ _).trans
    (View.readAt_writes_of_cover M.view f' (rowsA _ _ _ _ _ _ _ _) _ fun _ => rowsA_cover _ _ _ _ _ _ _ _ _).symm

end Cert.Rows

end
-- ==== Proof.Kernel.Region0.lean ====
import proofs.«407256_j33208687133423_1_alg».proof.Proof.Rows
import proofs.«407256_j33208687133423_1_alg».proof.Proof.Gen.Kernel.Launch
import proofs.«407256_j33208687133423_1_alg».proof.Proof.Gen.Kernel.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.WholeRead

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

abbrev tbM0 : Memref sig .tc .smem S60000 .i32 := Memref.whole main_arg3
abbrev hbM0 : Memref sig .tc .hbm S100000x128 .f32 := Memref.whole main_v16
abbrev scM0 : Memref sig .tc .vmem S8x128 .f32 := Memref.whole cc0_scratch0
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- A word read from a table whose every entry is below the source's row count names a row of the source: each of the
    body's eight range conditions is this inequality. -/
theorem row_ok0 {arg1 : Memref sig .tc .smem S60000 .i32} (harg1 : arg1.IsWhole) (x0 : Vec F S60000 .i32)
    (hT : ∀ k, (x0 k : BitVec 32).toNat < 100000) (B : LoadRect S60000) (x : B.shape.Idx) (a : Fin 2) :
    (![(arg1.view.readAt (Elt F) B (harg1.unread x0) x : BitVec 32).toNat, 0] : Fin 2 → ℕ) a + S1x128.size a ≤ S100000x128.size a := by
  rw [Memref.IsWhole.readAt_unread harg1 x0 B x]
  have := hT (B.idx x)
  fin_cases a <;> simp <;> omega

set_option maxHeartbeats 4000000 in
/-- The body runs from any table whose every entry names a row of the source; `L` lists what it leaves in the output block. -/
noncomputable def kernelRun0 (c : Dev nD) (i : grid0.Coords) (arg1 : Memref sig .tc .smem S60000 .i32) (harg1 : arg1.IsWhole)
    (arg3 : Memref sig .tc .vmem S8x128 .f32) (harg3 : arg3.IsWhole) (arg4 : Memref sig .tc .vmem S8x128 .f32) (harg4 : arg4.IsWhole)
    (x0 : Vec F S60000 .i32) (hT : ∀ k, (x0 k : BitVec 32).toNat < 100000) (fh : HbBuf0 (F := F) c hbM0) :
    { L : List (View.Piece (Elt F) S8x128 .f32) //
      ∀ (W : Waits sig Unit) (K : PUnit → sProp 𝕄),
        iprop(owns (c : Thread nD τ) arg1 fullShare x0 ∗ (∃ d, owns (c : Thread nD τ) arg3 fullShare d) ∗ (∃ d, owns (c : Thread nD τ) arg4 fullShare d)
            ∗ semVal ((c : Thread nD τ), SemLoc.dma 2) 0 ∗ hbPt0 c hbM0 fh ∗ owes (c : Thread nD τ) 0 W
            ∗ (iprop(owns (c : Thread nD τ) arg1 fullShare x0 ∗ (∃ f, arg3.view.loc (c : Thread nD τ) ↦[arg3.view.set]{fullShare} arg3.view.writes (Elt F) f L)
                ∗ (∃ d, owns (c : Thread nD τ) arg4 fullShare d) ∗ semVal ((c : Thread nD τ), SemLoc.dma 2) 0 ∗ hbPt0 c hbM0 fh ∗ (∃ W', owes (c : Thread nD τ) 0 W')) -∗ K ⟨⟩))
          ⊢ wp frame (wpE (defs₀ (F := F)) Variants.none c none) Set.univ (cc0__gather_kernel i arg1 harg1 (Memref.whole main_v16) (Memref.isWhole_whole _) arg3 harg3 arg4 harg4 cc0_scratch1) K } := by
  refine ⟨?_, fun W K => ?run⟩
  case run =>
    simp only [cc0__gather_kernel_eq_skeleton]; unfold cc0__gather_kernel_skel
    simp only [k0_part1_eq_skeleton, k0_part2_eq_skeleton, k0_part3_eq_skeleton]
    unfold owns
    iintro ⟨⟨%f0, %hf0, H0⟩, ⟨%d1, %f1, -, H1⟩, ⟨%ds0, %fs0, -, HS0⟩, Hq0, Hh0, HW, Hk⟩
    obtain rfl := harg1.eq_unread hf0
    sl_exec (disch := sl_exact (row_ok0 harg1 x0 hT _ _))
    sl_unfold_words
    rw [Cert.Rows.rowsA_indep arg4 _ _ _ _ _ _ _ _ fs0 arg4.view.junk]
    sl_step
    iapply Hk
    isplitl [H0]
    · iexists _; isplitr; · ipureintro; exact harg1.read_unread _
      iexact H0
    isplitl [H1]; · iexists _; iexact H1
    isplitl [HS0]
    · iexists _, _; isplitr; swap; · iexact HS0
      ipureintro; rfl
    isplitl [Hq0]; · iexact Hq0
    isplitl [Hh0]; · iexact Hh0
    iexists _; iexact HW

end Cert.Kernel.Hand

end
-- ==== Proof.Kernel.Region0Dat.lean ====
import proofs.«407256_j33208687133423_1_alg».proof.Proof.Kernel.Region0

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
  (V : (c : Dev nD) → (b : Ref sig .tc) → Buf (Elt F) ((c : Thread nD τ).loc b)) (a : (pcfg0 (F := F)).Adm)

abbrev tbl0 (c : Dev nD) : Vec F S60000 .i32 := V c main_arg3

variable (hT : ∀ (c : Dev nD) (k : S60000.Idx), (tbl0 V c k : BitVec 32).toNat < 100000)

abbrev VO0 : View sig .tc .vmem S8x128 .f32 := (Memref.whole cc0_stg0_0 : Memref sig .tc .vmem S8x128 .f32).view

def out0 (c : Dev nD) (i : grid0.Coords) (arg1 : Memref sig .tc .smem S60000 .i32) (harg1 : arg1.IsWhole)
    (arg3 : Memref sig .tc .vmem S8x128 .f32) (harg3 : arg3.IsWhole) (arg4 : Memref sig .tc .vmem S8x128 .f32) (harg4 : arg4.IsWhole)
    (x0 : Vec F S60000 .i32) (hx : ∀ k, (x0 k : BitVec 32).toNat < 100000) (fh : HbBuf0 (F := F) c hbM0) : Vec F S8x128 .f32 :=
  VO0.read (Elt F) (VO0.writes (Elt F) VO0.junk (kernelRun0 c i arg1 harg1 arg3 harg3 arg4 harg4 x0 hx fh).1)

abbrev ms0 (t : Fin (cfg0 a).N) : Memref sig .tc .vmem S8x128 .f32 := spec0_0.stage ((cfg0 a).slots t 0)
abbrev hs0 (t : Fin (cfg0 a).N) : (ms0 a t).IsWhole := hstage0_0 (((cfg0 a).slots t 0).cast nbuf0_0)

def outsAt0 (c : Dev nD) (t : Fin (cfg0 a).N) : Vec F S8x128 .f32 :=
  out0 c ((cfg0 a).grid.coords t) tbM0 (Memref.isWhole_whole _) (ms0 a t) (hs0 a t) scM0 (Memref.isWhole_whole _) (tbl0 V c) (hT c) (V c main_v16)

abbrev osem0 : Fin 1 → SemLoc sig := fun _ => SemLoc.dma 2
theorem ownSemFacts0 : Pipeline.OwnSemFacts spec0 osem0 := by decide
def H0 : Finset (Ref sig .tc) := {main_v16, main_arg3}
theorem H0_sub : H0 ⊆ Pipeline.restRefs sig spec0 := by decide

def dat0 (c : Dev nD) : Dat τ (Elt F) Unit ℕ (Pipeline.UD sig nD τ) ℕ (cfg0 a) c where
  A w := V c (Pipeline.arrRef spec0 w)
  after w t := match w with
    | ⟨0, _⟩ => outsAt0 V a hT c t
  Φ _ := Pipeline.ΦD osem0 spec0 H0 V c
  q _ := fullShare
  owed _ := 0

theorem after0_out (c : Dev nD) (t : Fin (cfg0 a).N) : (dat0 V a hT c).after 0 t = outsAt0 V a hT c t := rfl

theorem hbmPts0_eq (c : Dev nD) :
    bigSep H0 (fun b => ((c : Thread nD τ).loc b) ↦{fullShare} V c b)
      = iprop(hbPt0 c hbM0 (V c main_v16) ∗ hbPt0 c tbM0 (V c main_arg3)) :=
  BI.bigSep_eq_bigSepL_of_eq [main_v16, main_arg3] (by decide) (by decide) _

theorem PhiD0_eq (c : Dev nD) :
    Pipeline.ΦD osem0 spec0 H0 V c
      = iprop(((∃ d, owns (c : Thread nD τ) scM0 fullShare d) ∗ Pipeline.scopedRestBut spec0 c [cc0_scratch0])
          ∗ (∃ r, prngReg c r) ∗ semVal ((c : Thread nD τ), SemLoc.dma 2) 0
          ∗ hbPt0 c hbM0 (V c main_v16) ∗ owns (c : Thread nD τ) tbM0 fullShare (tbl0 V c)) := by
  rw [Pipeline.ΦD_eq, scopedRest0_split, Pipeline.ownSems0_eq_of_list c osem0 [0] (by decide) (by decide), hbmPts0_eq]
  simp only [scM0, tbM0, hbPt0, owns_whole]; rfl

-- Every row the table names is in range, so the body's run leaves the output block at the pieces it wrote, whatever the block held.
theorem body_obligation0 (c : Dev nD) : BodyObligation (dat0 (F := F) V a hT c) (defs₀ (F := F)) Variants.none () Set.univ := fun t => by
  rw [bigSep_W0, bigSep_W0]
  change iprop(Pipeline.ΦD osem0 spec0 H0 V c ∗ Pipeline.owesWithin _ 0 _ ∗ ∃ d, owns _ _ _ _) ⊢ wp _ _ _ _ fun _ => iprop(Pipeline.ΦD osem0 spec0 H0 V c ∗ Pipeline.owesWithin _ 0 _ ∗ owns _ _ _ (outsAt0 V a hT c t))
  rw [PhiD0_eq]
  unfold Pipeline.owesWithin outsAt0 out0
  iintro ⟨⟨⟨HS0, HR⟩, Hg, Hq0, Hh0, Ht⟩, ⟨%W, -, HW⟩, ⟨%d, H0⟩⟩
  iapply ((kernelRun0 c ((cfg0 a).grid.coords t) tbM0 (Memref.isWhole_whole _) (ms0 a t) (hs0 a t) scM0 (Memref.isWhole_whole _) (tbl0 V c) (hT c) (V c main_v16)).2 W _)
  iframe
  isplitl [H0]; · iexists _; iexact H0
  iintro ⟨Ht, ⟨%e, H1⟩, HS0, Hq0, Hh0, ⟨%W', HW'⟩⟩
  iframe
  isplitl [HW']
  · iexists W'; isplitr; · ipureintro; exact fun _ _ => Or.inl trivial
    iexact HW'
  unfold owns; iexists _; isplitr
  swap; · iexact H1
  ipureintro; exact View.read_writes_of_cover _ _ _ _ _ (View.cover_of_tiledL _ S8x128.size (by sl_kernel_rfl))

end Cert.Kernel.Hand

end
-- ==== Proof.Kernel.Region1.lean ====
import proofs.«407256_j33208687133423_1_alg».proof.Proof.Gen.Kernel.Launch
import proofs.«407256_j33208687133423_1_alg».proof.Proof.Gen.Kernel.Skeleton
import proofs.«407256_j33208687133423_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

section Region1

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (Pipeline.UD sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

abbrev r1_x : Rect S2000x128 := Rect.unit (s := S2000x128) ![0, 0] S2000x128.size inb_S2000x128_S2000x128_0_0
abbrev r1_w : Rect S128x128 := Rect.unit (s := S128x128) ![0, 0] S128x128.size inb_S128x128_S128x128_0_0
abbrev r1_b : Rect S1x128 := Rect.unit (s := S1x128) ![0, 0] S1x128.size inb_S1x128_S1x128_0_0

def out1 (x0 : Vec F S2000x128 .f32) (x1 : Vec F S128x128 .f32) (x2 : Vec F S1x128 .f32) : Vec F S2000x128 .f32 :=
  View.canon [⟨r1_x, k1_pay1 (View.ld x0 r1_x) (View.ld x1 r1_w) (View.ld x2 r1_b)⟩]

theorem cover1_3 (p0 : Vec F S2000x128 .f32) (y : S2000x128.Idx) :
    ∃ pc ∈ ([⟨r1_x, p0⟩] : List (View.Piece (Elt F) S2000x128 .f32)), y ∈ pc.1.set :=
  View.cover_of_tiled [⟨r1_x, p0⟩] S2000x128.size (by rfl) y

set_option maxHeartbeats 1000000 in

theorem sound_kernel1 (c : Dev nD) (E : Set ℕ) (i : grid1.Coords)
    (arg1 : Memref sig .tc .vmem S2000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S2000x128 .f32) (harg4 : arg4.IsWhole)
    (x0 : Vec F S2000x128 .f32) (x1 : Vec F S128x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1 x0 x1 x2)) -∗ K ⟨⟩))
      ⊢ wp frame (wpE (defs₀ (F := F)) Variants.none c none) E (cc1__linear_kernel i arg1 harg1 arg2 harg2 arg3 harg3 arg4 harg4) K := by
  simp only [cc1__linear_kernel_eq_skeleton]; unfold cc1__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_out (c : Dev nD) (t : Fin cfg1.N) :
    (dat1 V c).after 3 t = out1 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_out]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation1 (c : Dev nD) : BodyObligation (dat1 (F := F) V c) (defs₀ (F := F)) Variants.none () Set.univ := fun t => by
  rw [bigSep_W1, bigSep_W1]
  exact sound_body1 V c t

end Region1

end Cert.Kernel.Hand

end
-- ==== Proof.Kernel.Region2.lean ====
import proofs.«407256_j33208687133423_1_alg».proof.Proof.Rows
import proofs.«407256_j33208687133423_1_alg».proof.Proof.Gen.Kernel.Launch
import proofs.«407256_j33208687133423_1_alg».proof.Proof.Gen.Kernel.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.WholeRead

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

abbrev tbM2 : Memref sig .tc .smem S100000 .i32 := Memref.whole main_arg4
abbrev hbM2 : Memref sig .tc .hbm S60000x128 .f32 := Memref.whole main_v19
abbrev scM2 : Memref sig .tc .vmem S8x128 .f32 := Memref.whole cc2_scratch0
abbrev HbBuf2 (c : Dev nD) {sp : Space} {S : Shape} {e : EltTy} (M : Memref sig .tc sp S e) : Type := Buf (Elt F) (M.view.loc (c : Thread nD τ))
abbrev hbPt2 (c : Dev nD) {sp : Space} {S : Shape} {e : EltTy} (M : Memref sig .tc sp S e) (f : HbBuf2 (F := F) c M) : sProp 𝕄 :=
  M.view.loc (c : Thread nD τ) ↦{fullShare} f

/-- A word read from a table whose every entry is below the source's row count names a row of the source: each of the
    body's eight range conditions is this inequality. -/
theorem row_ok2 {arg1 : Memref sig .tc .smem S100000 .i32} (harg1 : arg1.IsWhole) (x0 : Vec F S100000 .i32)
    (hT : ∀ k, (x0 k : BitVec 32).toNat < 60000) (B : LoadRect S100000) (x : B.shape.Idx) (a : Fin 2) :
    (![(arg1.view.readAt (Elt F) B (harg1.unread x0) x : BitVec 32).toNat, 0] : Fin 2 → ℕ) a + S1x128.size a ≤ S60000x128.size a := by
  rw [Memref.IsWhole.readAt_unread harg1 x0 B x]
  have := hT (B.idx x)
  fin_cases a <;> simp <;> omega

set_option maxHeartbeats 4000000 in
/-- The body runs from any table whose every entry names a row of the source; `L` lists what it leaves in the output block. -/
noncomputable def kernelRun2 (c : Dev nD) (i : grid2.Coords) (arg1 : Memref sig .tc .smem S100000 .i32) (harg1 : arg1.IsWhole)
    (arg3 : Memref sig .tc .vmem S8x128 .f32) (harg3 : arg3.IsWhole) (arg4 : Memref sig .tc .vmem S8x128 .f32) (harg4 : arg4.IsWhole)
    (x0 : Vec F S100000 .i32) (hT : ∀ k, (x0 k : BitVec 32).toNat < 60000) (fh : HbBuf2 (F := F) c hbM2) :
    { L : List (View.Piece (Elt F) S8x128 .f32) //
      ∀ (W : Waits sig Unit) (K : PUnit → sProp 𝕄),
        iprop(owns (c : Thread nD τ) arg1 fullShare x0 ∗ (∃ d, owns (c : Thread nD τ) arg3 fullShare d) ∗ (∃ d, owns (c : Thread nD τ) arg4 fullShare d)
            ∗ semVal ((c : Thread nD τ), SemLoc.dma 11) 0 ∗ hbPt2 c hbM2 fh ∗ owes (c : Thread nD τ) 0 W
            ∗ (iprop(owns (c : Thread nD τ) arg1 fullShare x0 ∗ (∃ f, arg3.view.loc (c : Thread nD τ) ↦[arg3.view.set]{fullShare} arg3.view.writes (Elt F) f L)
                ∗ (∃ d, owns (c : Thread nD τ) arg4 fullShare d) ∗ semVal ((c : Thread nD τ), SemLoc.dma 11) 0 ∗ hbPt2 c hbM2 fh ∗ (∃ W', owes (c : Thread nD τ) 0 W')) -∗ K ⟨⟩))
          ⊢ wp frame (wpE (defs₀ (F := F)) Variants.none c none) Set.univ (cc2__gather_kernel i arg1 harg1 (Memref.whole main_v19) (Memref.isWhole_whole _) arg3 harg3 arg4 harg4 cc2_scratch1) K } := by
  refine ⟨?_, fun W K => ?run⟩
  case run =>
    simp only [cc2__gather_kernel_eq_skeleton]; unfold cc2__gather_kernel_skel
    simp only [k2_part1_eq_skeleton, k2_part2_eq_skeleton, k2_part3_eq_skeleton]
    unfold owns
    iintro ⟨⟨%f0, %hf0, H2⟩, ⟨%d1, %f1, -, H1⟩, ⟨%ds0, %fs0, -, HS0⟩, Hq0, Hh0, HW, Hk⟩
    obtain rfl := harg1.eq_unread hf0
    sl_exec (disch := sl_exact (row_ok2 harg1 x0 hT _ _))
    sl_unfold_words
    rw [Cert.Rows.rowsA_indep arg4 _ _ _ _ _ _ _ _ fs0 arg4.view.junk]
    sl_step
    iapply Hk
    isplitl [H2]
    · iexists _; isplitr; · ipureintro; exact harg1.read_unread _
      iexact H2
    isplitl [H1]; · iexists _; iexact H1
    isplitl [HS0]
    · iexists _, _; isplitr; swap; · iexact HS0
      ipureintro; rfl
    isplitl [Hq0]; · iexact Hq0
    isplitl [Hh0]; · iexact Hh0
    iexists _; iexact HW

end Cert.Kernel.Hand

end
-- ==== Proof.Kernel.Region2Dat.lean ====
import proofs.«407256_j33208687133423_1_alg».proof.Proof.Kernel.Region2

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
  (V : (c : Dev nD) → (b : Ref sig .tc) → Buf (Elt F) ((c : Thread nD τ).loc b)) (a : (pcfg2 (F := F)).Adm)

abbrev tbl2 (c : Dev nD) : Vec F S100000 .i32 := V c main_arg4

variable (hT : ∀ (c : Dev nD) (k : S100000.Idx), (tbl2 V c k : BitVec 32).toNat < 60000)

abbrev VO2 : View sig .tc .vmem S8x128 .f32 := (Memref.whole cc2_stg0_0 : Memref sig .tc .vmem S8x128 .f32).view

def out2 (c : Dev nD) (i : grid2.Coords) (arg1 : Memref sig .tc .smem S100000 .i32) (harg1 : arg1.IsWhole)
    (arg3 : Memref sig .tc .vmem S8x128 .f32) (harg3 : arg3.IsWhole) (arg4 : Memref sig .tc .vmem S8x128 .f32) (harg4 : arg4.IsWhole)
    (x0 : Vec F S100000 .i32) (hx : ∀ k, (x0 k : BitVec 32).toNat < 60000) (fh : HbBuf2 (F := F) c hbM2) : Vec F S8x128 .f32 :=
  VO2.read (Elt F) (VO2.writes (Elt F) VO2.junk (kernelRun2 c i arg1 harg1 arg3 harg3 arg4 harg4 x0 hx fh).1)

abbrev ms2 (t : Fin (cfg2 a).N) : Memref sig .tc .vmem S8x128 .f32 := spec2_0.stage ((cfg2 a).slots t 0)
abbrev hs2 (t : Fin (cfg2 a).N) : (ms2 a t).IsWhole := hstage2_0 (((cfg2 a).slots t 0).cast nbuf2_0)

def outsAt2 (c : Dev nD) (t : Fin (cfg2 a).N) : Vec F S8x128 .f32 :=
  out2 c ((cfg2 a).grid.coords t) tbM2 (Memref.isWhole_whole _) (ms2 a t) (hs2 a t) scM2 (Memref.isWhole_whole _) (tbl2 V c) (hT c) (V c main_v19)

abbrev osem2 : Fin 1 → SemLoc sig := fun _ => SemLoc.dma 11
theorem ownSemFacts2 : Pipeline.OwnSemFacts spec2 osem2 := by decide
def H2 : Finset (Ref sig .tc) := {main_v19, main_arg4}
theorem H2_sub : H2 ⊆ Pipeline.restRefs sig spec2 := by decide

def dat2 (c : Dev nD) : Dat τ (Elt F) Unit ℕ (Pipeline.UD sig nD τ) ℕ (cfg2 a) c where
  A w := V c (Pipeline.arrRef spec2 w)
  after w t := match w with
    | ⟨0, _⟩ => outsAt2 V a hT c t
  Φ _ := Pipeline.ΦD osem2 spec2 H2 V c
  q _ := fullShare
  owed _ := 0

theorem after2_out (c : Dev nD) (t : Fin (cfg2 a).N) : (dat2 V a hT c).after 0 t = outsAt2 V a hT c t := rfl

theorem hbmPts2_eq (c : Dev nD) :
    bigSep H2 (fun b => ((c : Thread nD τ).loc b) ↦{fullShare} V c b)
      = iprop(hbPt2 c hbM2 (V c main_v19) ∗ hbPt2 c tbM2 (V c main_arg4)) :=
  BI.bigSep_eq_bigSepL_of_eq [main_v19, main_arg4] (by decide) (by decide) _

theorem PhiD2_eq (c : Dev nD) :
    Pipeline.ΦD osem2 spec2 H2 V c
      = iprop(((∃ d, owns (c : Thread nD τ) scM2 fullShare d) ∗ Pipeline.scopedRestBut spec2 c [cc2_scratch0])
          ∗ (∃ r, prngReg c r) ∗ semVal ((c : Thread nD τ), SemLoc.dma 11) 0
          ∗ hbPt2 c hbM2 (V c main_v19) ∗ owns (c : Thread nD τ) tbM2 fullShare (tbl2 V c)) := by
  rw [Pipeline.ΦD_eq, scopedRest2_split, Pipeline.ownSems0_eq_of_list c osem2 [0] (by decide) (by decide), hbmPts2_eq]
  simp only [scM2, tbM2, hbPt2, owns_whole]; rfl

-- Every row the table names is in range, so the body's run leaves the output block at the pieces it wrote, whatever the block held.
theorem body_obligation2 (c : Dev nD) : BodyObligation (dat2 (F := F) V a hT c) (defs₀ (F := F)) Variants.none () Set.univ := fun t => by
  rw [bigSep_W2, bigSep_W2]
  change iprop(Pipeline.ΦD osem2 spec2 H2 V c ∗ Pipeline.owesWithin _ 0 _ ∗ ∃ d, owns _ _ _ _) ⊢ wp _ _ _ _ fun _ => iprop(Pipeline.ΦD osem2 spec2 H2 V c ∗ Pipeline.owesWithin _ 0 _ ∗ owns _ _ _ (outsAt2 V a hT c t))
  rw [PhiD2_eq]
  unfold Pipeline.owesWithin outsAt2 out2
  iintro ⟨⟨⟨HS0, HR⟩, Hg, Hq0, Hh0, Ht⟩, ⟨%W, -, HW⟩, ⟨%d, H2⟩⟩
  iapply ((kernelRun2 c ((cfg2 a).grid.coords t) tbM2 (Memref.isWhole_whole _) (ms2 a t) (hs2 a t) scM2 (Memref.isWhole_whole _) (tbl2 V c) (hT c) (V c main_v19)).2 W _)
  iframe
  isplitl [H2]; · iexists _; iexact H2
  iintro ⟨Ht, ⟨%e, H1⟩, HS0, Hq0, Hh0, ⟨%W', HW'⟩⟩
  iframe
  isplitl [HW']
  · iexists W'; isplitr; · ipureintro; exact fun _ _ => Or.inl trivial
    iexact HW'
  unfold owns; iexists _; isplitr
  swap; · iexact H1
  ipureintro; exact View.read_writes_of_cover _ _ _ _ _ (View.cover_of_tiledL _ S8x128.size (by sl_kernel_rfl))

end Cert.Kernel.Hand

end
-- ==== Proof.Kernel.Region3.lean ====
import proofs.«407256_j33208687133423_1_alg».proof.Proof.Rows
import proofs.«407256_j33208687133423_1_alg».proof.Proof.Gen.Kernel.Launch
import proofs.«407256_j33208687133423_1_alg».proof.Proof.Gen.Kernel.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.WholeRead

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

abbrev tbM3 : Memref sig .tc .smem S60000 .i32 := Memref.whole main_arg5
abbrev hbM3 : Memref sig .tc .hbm S100000x128 .f32 := Memref.whole main_v37
abbrev scM3 : Memref sig .tc .vmem S8x128 .f32 := Memref.whole cc3_scratch0
abbrev HbBuf3 (c : Dev nD) {sp : Space} {S : Shape} {e : EltTy} (M : Memref sig .tc sp S e) : Type := Buf (Elt F) (M.view.loc (c : Thread nD τ))
abbrev hbPt3 (c : Dev nD) {sp : Space} {S : Shape} {e : EltTy} (M : Memref sig .tc sp S e) (f : HbBuf3 (F := F) c M) : sProp 𝕄 :=
  M.view.loc (c : Thread nD τ) ↦{fullShare} f

/-- A word read from a table whose every entry is below the source's row count names a row of the source: each of the
    body's eight range conditions is this inequality. -/
theorem row_ok3 {arg1 : Memref sig .tc .smem S60000 .i32} (harg1 : arg1.IsWhole) (x0 : Vec F S60000 .i32)
    (hT : ∀ k, (x0 k : BitVec 32).toNat < 100000) (B : LoadRect S60000) (x : B.shape.Idx) (a : Fin 2) :
    (![(arg1.view.readAt (Elt F) B (harg1.unread x0) x : BitVec 32).toNat, 0] : Fin 2 → ℕ) a + S1x128.size a ≤ S100000x128.size a := by
  rw [Memref.IsWhole.readAt_unread harg1 x0 B x]
  have := hT (B.idx x)
  fin_cases a <;> simp <;> omega

set_option maxHeartbeats 4000000 in
/-- The body runs from any table whose every entry names a row of the source; `L` lists what it leaves in the output block. -/
noncomputable def kernelRun3 (c : Dev nD) (i : grid3.Coords) (arg1 : Memref sig .tc .smem S60000 .i32) (harg1 : arg1.IsWhole)
    (arg3 : Memref sig .tc .vmem S8x128 .f32) (harg3 : arg3.IsWhole) (arg4 : Memref sig .tc .vmem S8x128 .f32) (harg4 : arg4.IsWhole)
    (x0 : Vec F S60000 .i32) (hT : ∀ k, (x0 k : BitVec 32).toNat < 100000) (fh : HbBuf3 (F := F) c hbM3) :
    { L : List (View.Piece (Elt F) S8x128 .f32) //
      ∀ (W : Waits sig Unit) (K : PUnit → sProp 𝕄),
        iprop(owns (c : Thread nD τ) arg1 fullShare x0 ∗ (∃ d, owns (c : Thread nD τ) arg3 fullShare d) ∗ (∃ d, owns (c : Thread nD τ) arg4 fullShare d)
            ∗ semVal ((c : Thread nD τ), SemLoc.dma 14) 0 ∗ hbPt3 c hbM3 fh ∗ owes (c : Thread nD τ) 0 W
            ∗ (iprop(owns (c : Thread nD τ) arg1 fullShare x0 ∗ (∃ f, arg3.view.loc (c : Thread nD τ) ↦[arg3.view.set]{fullShare} arg3.view.writes (Elt F) f L)
                ∗ (∃ d, owns (c : Thread nD τ) arg4 fullShare d) ∗ semVal ((c : Thread nD τ), SemLoc.dma 14) 0 ∗ hbPt3 c hbM3 fh ∗ (∃ W', owes (c : Thread nD τ) 0 W')) -∗ K ⟨⟩))
          ⊢ wp frame (wpE (defs₀ (F := F)) Variants.none c none) Set.univ (cc3__gather_kernel i arg1 harg1 (Memref.whole main_v37) (Memref.isWhole_whole _) arg3 harg3 arg4 harg4 cc3_scratch1) K } := by
  refine ⟨?_, fun W K => ?run⟩
  case run =>
    simp only [cc3__gather_kernel_eq_skeleton]; unfold cc3__gather_kernel_skel
    simp only [k3_part1_eq_skeleton, k3_part2_eq_skeleton, k3_part3_eq_skeleton]
    unfold owns
    iintro ⟨⟨%f0, %hf0, H3⟩, ⟨%d1, %f1, -, H1⟩, ⟨%ds0, %fs0, -, HS0⟩, Hq0, Hh0, HW, Hk⟩
    obtain rfl := harg1.eq_unread hf0
    sl_exec (disch := sl_exact (row_ok3 harg1 x0 hT _ _))
    sl_unfold_words
    rw [Cert.Rows.rowsA_indep arg4 _ _ _ _ _ _ _ _ fs0 arg4.view.junk]
    sl_step
    iapply Hk
    isplitl [H3]
    · iexists _; isplitr; · ipureintro; exact harg1.read_unread _
      iexact H3
    isplitl [H1]; · iexists _; iexact H1
    isplitl [HS0]
    · iexists _, _; isplitr; swap; · iexact HS0
      ipureintro; rfl
    isplitl [Hq0]; · iexact Hq0
    isplitl [Hh0]; · iexact Hh0
    iexists _; iexact HW

end Cert.Kernel.Hand

end
-- ==== Proof.Kernel.Region3Dat.lean ====
import proofs.«407256_j33208687133423_1_alg».proof.Proof.Kernel.Region3

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
  (V : (c : Dev nD) → (b : Ref sig .tc) → Buf (Elt F) ((c : Thread nD τ).loc b)) (a : (pcfg3 (F := F)).Adm)

abbrev tbl3 (c : Dev nD) : Vec F S60000 .i32 := V c main_arg5

variable (hT : ∀ (c : Dev nD) (k : S60000.Idx), (tbl3 V c k : BitVec 32).toNat < 100000)

abbrev VO3 : View sig .tc .vmem S8x128 .f32 := (Memref.whole cc3_stg0_0 : Memref sig .tc .vmem S8x128 .f32).view

def out3 (c : Dev nD) (i : grid3.Coords) (arg1 : Memref sig .tc .smem S60000 .i32) (harg1 : arg1.IsWhole)
    (arg3 : Memref sig .tc .vmem S8x128 .f32) (harg3 : arg3.IsWhole) (arg4 : Memref sig .tc .vmem S8x128 .f32) (harg4 : arg4.IsWhole)
    (x0 : Vec F S60000 .i32) (hx : ∀ k, (x0 k : BitVec 32).toNat < 100000) (fh : HbBuf3 (F := F) c hbM3) : Vec F S8x128 .f32 :=
  VO3.read (Elt F) (VO3.writes (Elt F) VO3.junk (kernelRun3 c i arg1 harg1 arg3 harg3 arg4 harg4 x0 hx fh).1)

abbrev ms3 (t : Fin (cfg3 a).N) : Memref sig .tc .vmem S8x128 .f32 := spec3_0.stage ((cfg3 a).slots t 0)
abbrev hs3 (t : Fin (cfg3 a).N) : (ms3 a t).IsWhole := hstage3_0 (((cfg3 a).slots t 0).cast nbuf3_0)

def outsAt3 (c : Dev nD) (t : Fin (cfg3 a).N) : Vec F S8x128 .f32 :=
  out3 c ((cfg3 a).grid.coords t) tbM3 (Memref.isWhole_whole _) (ms3 a t) (hs3 a t) scM3 (Memref.isWhole_whole _) (tbl3 V c) (hT c) (V c main_v37)

abbrev osem3 : Fin 1 → SemLoc sig := fun _ => SemLoc.dma 14
theorem ownSemFacts3 : Pipeline.OwnSemFacts spec3 osem3 := by decide
def H3 : Finset (Ref sig .tc) := {main_v37, main_arg5}
theorem H3_sub : H3 ⊆ Pipeline.restRefs sig spec3 := by decide

def dat3 (c : Dev nD) : Dat τ (Elt F) Unit ℕ (Pipeline.UD sig nD τ) ℕ (cfg3 a) c where
  A w := V c (Pipeline.arrRef spec3 w)
  after w t := match w with
    | ⟨0, _⟩ => outsAt3 V a hT c t
  Φ _ := Pipeline.ΦD osem3 spec3 H3 V c
  q _ := fullShare
  owed _ := 0

theorem after3_out (c : Dev nD) (t : Fin (cfg3 a).N) : (dat3 V a hT c).after 0 t = outsAt3 V a hT c t := rfl

theorem hbmPts3_eq (c : Dev nD) :
    bigSep H3 (fun b => ((c : Thread nD τ).loc b) ↦{fullShare} V c b)
      = iprop(hbPt3 c hbM3 (V c main_v37) ∗ hbPt3 c tbM3 (V c main_arg5)) :=
  BI.bigSep_eq_bigSepL_of_eq [main_v37, main_arg5] (by decide) (by decide) _

theorem PhiD3_eq (c : Dev nD) :
    Pipeline.ΦD osem3 spec3 H3 V c
      = iprop(((∃ d, owns (c : Thread nD τ) scM3 fullShare d) ∗ Pipeline.scopedRestBut spec3 c [cc3_scratch0])
          ∗ (∃ r, prngReg c r) ∗ semVal ((c : Thread nD τ), SemLoc.dma 14) 0
          ∗ hbPt3 c hbM3 (V c main_v37) ∗ owns (c : Thread nD τ) tbM3 fullShare (tbl3 V c)) := by
  rw [Pipeline.ΦD_eq, scopedRest3_split, Pipeline.ownSems0_eq_of_list c osem3 [0] (by decide) (by decide), hbmPts3_eq]
  simp only [scM3, tbM3, hbPt3, owns_whole]; rfl

-- Every row the table names is in range, so the body's run leaves the output block at the pieces it wrote, whatever the block held.
theorem body_obligation3 (c : Dev nD) : BodyObligation (dat3 (F := F) V a hT c) (defs₀ (F := F)) Variants.none () Set.univ := fun t => by
  rw [bigSep_W3, bigSep_W3]
  change iprop(Pipeline.ΦD osem3 spec3 H3 V c ∗ Pipeline.owesWithin _ 0 _ ∗ ∃ d, owns _ _ _ _) ⊢ wp _ _ _ _ fun _ => iprop(Pipeline.ΦD osem3 spec3 H3 V c ∗ Pipeline.owesWithin _ 0 _ ∗ owns _ _ _ (outsAt3 V a hT c t))
  rw [PhiD3_eq]
  unfold Pipeline.owesWithin outsAt3 out3
  iintro ⟨⟨⟨HS0, HR⟩, Hg, Hq0, Hh0, Ht⟩, ⟨%W, -, HW⟩, ⟨%d, H3⟩⟩
  iapply ((kernelRun3 c ((cfg3 a).grid.coords t) tbM3 (Memref.isWhole_whole _) (ms3 a t) (hs3 a t) scM3 (Memref.isWhole_whole _) (tbl3 V c) (hT c) (V c main_v37)).2 W _)
  iframe
  isplitl [H3]; · iexists _; iexact H3
  iintro ⟨Ht, ⟨%e, H1⟩, HS0, Hq0, Hh0, ⟨%W', HW'⟩⟩
  iframe
  isplitl [HW']
  · iexists W'; isplitr; · ipureintro; exact fun _ _ => Or.inl trivial
    iexact HW'
  unfold owns; iexists _; isplitr
  swap; · iexact H1
  ipureintro; exact View.read_writes_of_cover _ _ _ _ _ (View.cover_of_tiledL _ S8x128.size (by sl_kernel_rfl))

end Cert.Kernel.Hand

end
-- ==== Proof.Kernel.Region4.lean ====
import proofs.«407256_j33208687133423_1_alg».proof.Proof.Gen.Kernel.Launch
import proofs.«407256_j33208687133423_1_alg».proof.Proof.Gen.Kernel.Skeleton
import proofs.«407256_j33208687133423_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

section Region4

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem before4_0_of {c : Dev nD} (dat : Dat τ (Elt F) Unit ℕ (Pipeline.UD sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

theorem before4_1_of {c : Dev nD} (dat : Dat τ (Elt F) Unit ℕ (Pipeline.UD sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

theorem before4_2_of {c : Dev nD} (dat : Dat τ (Elt F) Unit ℕ (Pipeline.UD sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

abbrev r4_0 : Rect S2000x128 := Rect.unit (s := S2000x128) ![0, 0] S2000x128.size inb_S2000x128_S2000x128_0_0
abbrev r4_1 : Rect S128x64 := Rect.unit (s := S128x64) ![0, 0] S128x64.size inb_S128x64_S128x64_0_0
abbrev r4_2 : Rect S1x64 := Rect.unit (s := S1x64) ![0, 0] S1x64.size inb_S1x64_S1x64_0_0
abbrev r4_3 : Rect S2000x64 := Rect.unit (s := S2000x64) ![0, 0] S2000x64.size inb_S2000x64_S2000x64_0_0

def out4 (x0 : Vec F S2000x128 .f32) (x1 : Vec F S128x64 .f32) (x2 : Vec F S1x64 .f32) : Vec F S2000x64 .f32 :=
  View.canon [⟨r4_3, k4_pay1 (View.ld x0 r4_0) (View.ld x1 r4_1) (View.ld x2 r4_2)⟩]

theorem cover4 (p : Vec F S2000x64 .f32) (y : S2000x64.Idx) :
    ∃ pc ∈ ([⟨r4_3, p⟩] : List (View.Piece (Elt F) S2000x64 .f32)), y ∈ pc.1.set :=
  View.cover_of_tiled [⟨r4_3, p⟩] S2000x64.size (by rfl) y

set_option maxHeartbeats 1000000 in

theorem sound_kernel4 (c : Dev nD) (E : Set ℕ) (i : grid4.Coords)
    (arg1 : Memref sig .tc .vmem S2000x128 .f32) (harg1 : arg1.IsWhole) (arg2 : Memref sig .tc .vmem S128x64 .f32) (harg2 : arg2.IsWhole)
    (arg3 : Memref sig .tc .vmem S1x64 .f32) (harg3 : arg3.IsWhole) (arg4 : Memref sig .tc .vmem S2000x64 .f32) (harg4 : arg4.IsWhole)
    (x0 : Vec F S2000x128 .f32) (x1 : Vec F S128x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out4 x0 x1 x2)) -∗ K ⟨⟩))
      ⊢ wp frame (wpE (defs₀ (F := F)) Variants.none c none) E (cc4__linear_kernel i arg1 harg1 arg2 harg2 arg3 harg3 arg4 harg4) K := by
  simp only [cc4__linear_kernel_eq_skeleton]; unfold cc4__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover4 _)

def dat4 (c : Dev nD) : Dat τ (Elt F) Unit ℕ (Pipeline.UD sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4 (iblk4 V c 0 t) (iblk4 V c 1 t) (iblk4 V c 2 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_out (c : Dev nD) (t : Fin cfg4.N) :
    (dat4 V c).after 3 t = out4 (iblk4 V c 0 t) (iblk4 V c 1 t) (iblk4 V c 2 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_out]
  iintro ⟨HΦ, Ho, ⟨%d0, H0⟩, ⟨%d1, H1⟩, ⟨%d2, H2⟩, ⟨%d3, H3⟩⟩
  iapply (sound_kernel4 c Set.univ (grid4.coords t) _ _ _ _ _ _ _ _ (iblk4 V c 0 t) (iblk4 V c 1 t) (iblk4 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation4 (c : Dev nD) : BodyObligation (dat4 (F := F) V c) (defs₀ (F := F)) Variants.none () Set.univ := fun t => by
  rw [bigSep_W4, bigSep_W4]
  exact sound_body4 V c t

end Region4

end Cert.Kernel.Hand

end
-- ==== Proof.Rows64.lean ====
import Idealize.ShloMosaic.Lib.Writes
import Idealize.ShloMosaic.Lib.Exec.Geometry

noncomputable section

namespace Cert.Rows

open Idealize.ShloMosaic Idealize.ShloMosaic.TcCoe

variable {F : FTy → Type} [FloatOps F] {sig : RefSig}

/-- An eight-row block, one of its rows, and that row as a vector. -/
abbrev SB : Shape := ⟨2, ![8, 64]⟩
abbrev SB1 : Shape := ⟨2, ![1, 64]⟩
abbrev SBv : Shape := ⟨1, ![64]⟩
theorem sqB : SB1.Squeezes SBv := by decide
theorem inbB (k : ℕ) (hk : k < 8) (a : Fin 2) : (![k, 0] : Fin 2 → ℕ) a + SB1.size a ≤ SB.size a := by
  fin_cases a <;> simp <;> omega

/-- Row `k` of the block, as a rectangle, and the whole block as a rectangle to read. -/
abbrev rowB (k : ℕ) (hk : k < 8) : Rect SB := Rect.unit (s := SB) ![k, 0] SB1.size (inbB k hk)
abbrev blkB : LoadRect SB := (Rect.unit (s := SB) ![0, 0] SB.size (by decide)).toLoadRect

section
variable (p0 : (rowB 0 (by decide)).shape.Idx → Elt F .f32) (p1 : (rowB 1 (by decide)).shape.Idx → Elt F .f32)
  (p2 : (rowB 2 (by decide)).shape.Idx → Elt F .f32) (p3 : (rowB 3 (by decide)).shape.Idx → Elt F .f32)
  (p4 : (rowB 4 (by decide)).shape.Idx → Elt F .f32) (p5 : (rowB 5 (by decide)).shape.Idx → Elt F .f32)
  (p6 : (rowB 6 (by decide)).shape.Idx → Elt F .f32) (p7 : (rowB 7 (by decide)).shape.Idx → Elt F .f32)

abbrev rowsB : List (View.Piece (Elt F) SB .f32) :=
  [⟨rowB 7 (by decide), p7⟩, ⟨rowB 6 (by decide), p6⟩, ⟨rowB 5 (by decide), p5⟩, ⟨rowB 4 (by decide), p4⟩,
    ⟨rowB 3 (by decide), p3⟩, ⟨rowB 2 (by decide), p2⟩, ⟨rowB 1 (by decide), p1⟩, ⟨rowB 0 (by decide), p0⟩]

/-- The eight rows tile the block. -/
theorem rowsB_cover (y : SB.Idx) : ∃ p ∈ rowsB p0 p1 p2 p3 p4 p5 p6 p7, y ∈ p.1.set :=
  View.cover_of_tiled (rowsB p0 p1 p2 p3 p4 p5 p6 p7) SB1.size (by rfl) y
end

variable (M : Memref sig .tc .vmem SB .f32)

/-- The contents `g` with row `k` overwritten by `w`. -/
abbrev wrRowB (k : ℕ) (hk : k < 8) (g : M.view.ty.Contents (Elt F)) (w : SBv.Idx → Elt F .f32) : M.view.ty.Contents (Elt F) :=
  View.write (Elt F) ((M.slice (rowB k hk) (fun _ => rfl)).squeeze SBv sqB).view g w Finset.univ
abbrev wrB (w0 w1 w2 w3 w4 w5 w6 w7 : SBv.Idx → Elt F .f32) (f : M.view.ty.Contents (Elt F)) : M.view.ty.Contents (Elt F) :=
  wrRowB M 7 (by decide) (wrRowB M 6 (by decide) (wrRowB M 5 (by decide) (wrRowB M 4 (by decide) (wrRowB M 3 (by decide)
    (wrRowB M 2 (by decide) (wrRowB M 1 (by decide) (wrRowB M 0 (by decide) f w0) w1) w2) w3) w4) w5) w6) w7

/-- All eight rows overwritten, the block read whole does not depend on what it held before: the rows cover it. -/
theorem rowsB_indep (w0 w1 w2 w3 w4 w5 w6 w7 : SBv.Idx → Elt F .f32) (f f' : M.view.ty.Contents (Elt F)) :
    View.readAt (Elt F) M.view blkB (wrB M w0 w1 w2 w3 w4 w5 w6 w7 f) = View.readAt (Elt F) M.view blkB (wrB M w0 w1 w2 w3 w4 w5 w6 w7 f') := by
  simp only [wrB, wrRowB, Memref.view_squeeze, Memref.view_slice, View.write_reshape_univ]
  exact (View.readAt_writes_of_cover M.view f (rowsB _ _ _ _ _ _ _ _) _ fun _ => rowsB_cover _ _ _ _ _ _ _ _ _).trans
    (View.readAt_writes_of_cover M.view f' (rowsB _ _ _ _ _ _ _ _) _ fun _ => rowsB_cover _ _ _ _ _ _ _ _ _).symm

end Cert.Rows

end
-- ==== Proof.Kernel.Region5.lean ====
import proofs.«407256_j33208687133423_1_alg».proof.Proof.Rows64
import proofs.«407256_j33208687133423_1_alg».proof.Proof.Gen.Kernel.Launch
import proofs.«407256_j33208687133423_1_alg».proof.Proof.Gen.Kernel.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.WholeRead

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

abbrev tbM5 : Memref sig .tc .smem S100000 .i32 := Memref.whole main_arg6
abbrev hbM5 : Memref sig .tc .hbm S60000x64 .f32 := Memref.whole main_v40
abbrev scM5 : Memref sig .tc .vmem S8x64 .f32 := Memref.whole cc5_scratch0
abbrev HbBuf5 (c : Dev nD) {sp : Space} {S : Shape} {e : EltTy} (M : Memref sig .tc sp S e) : Type := Buf (Elt F) (M.view.loc (c : Thread nD τ))
abbrev hbPt5 (c : Dev nD) {sp : Space} {S : Shape} {e : EltTy} (M : Memref sig .tc sp S e) (f : HbBuf5 (F := F) c M) : sProp 𝕄 :=
  M.view.loc (c : Thread nD τ) ↦{fullShare} f

/-- A word read from a table whose every entry is below the source's row count names a row of the source: each of the
    body's eight range conditions is this inequality. -/
theorem row_ok5 {arg1 : Memref sig .tc .smem S100000 .i32} (harg1 : arg1.IsWhole) (x0 : Vec F S100000 .i32)
    (hT : ∀ k, (x0 k : BitVec 32).toNat < 60000) (B : LoadRect S100000) (x : B.shape.Idx) (a : Fin 2) :
    (![(arg1.view.readAt (Elt F) B (harg1.unread x0) x : BitVec 32).toNat, 0] : Fin 2 → ℕ) a + S1x64.size a ≤ S60000x64.size a := by
  rw [Memref.IsWhole.readAt_unread harg1 x0 B x]
  have := hT (B.idx x)
  fin_cases a <;> simp <;> omega

set_option maxHeartbeats 4000000 in
/-- The body runs from any table whose every entry names a row of the source; `L` lists what it leaves in the output block. -/
noncomputable def kernelRun5 (c : Dev nD) (i : grid5.Coords) (arg1 : Memref sig .tc .smem S100000 .i32) (harg1 : arg1.IsWhole)
    (arg3 : Memref sig .tc .vmem S8x64 .f32) (harg3 : arg3.IsWhole) (arg4 : Memref sig .tc .vmem S8x64 .f32) (harg4 : arg4.IsWhole)
    (x0 : Vec F S100000 .i32) (hT : ∀ k, (x0 k : BitVec 32).toNat < 60000) (fh : HbBuf5 (F := F) c hbM5) :
    { L : List (View.Piece (Elt F) S8x64 .f32) //
      ∀ (W : Waits sig Unit) (K : PUnit → sProp 𝕄),
        iprop(owns (c : Thread nD τ) arg1 fullShare x0 ∗ (∃ d, owns (c : Thread nD τ) arg3 fullShare d) ∗ (∃ d, owns (c : Thread nD τ) arg4 fullShare d)
            ∗ semVal ((c : Thread nD τ), SemLoc.dma 23) 0 ∗ hbPt5 c hbM5 fh ∗ owes (c : Thread nD τ) 0 W
            ∗ (iprop(owns (c : Thread nD τ) arg1 fullShare x0 ∗ (∃ f, arg3.view.loc (c : Thread nD τ) ↦[arg3.view.set]{fullShare} arg3.view.writes (Elt F) f L)
                ∗ (∃ d, owns (c : Thread nD τ) arg4 fullShare d) ∗ semVal ((c : Thread nD τ), SemLoc.dma 23) 0 ∗ hbPt5 c hbM5 fh ∗ (∃ W', owes (c : Thread nD τ) 0 W')) -∗ K ⟨⟩))
          ⊢ wp frame (wpE (defs₀ (F := F)) Variants.none c none) Set.univ (cc5__gather_kernel i arg1 harg1 (Memref.whole main_v40) (Memref.isWhole_whole _) arg3 harg3 arg4 harg4 cc5_scratch1) K } := by
  refine ⟨?_, fun W K => ?run⟩
  case run =>
    simp only [cc5__gather_kernel_eq_skeleton]; unfold cc5__gather_kernel_skel
    simp only [k5_part1_eq_skeleton, k5_part2_eq_skeleton, k5_part3_eq_skeleton]
    unfold owns
    iintro ⟨⟨%f0, %hf0, H5⟩, ⟨%d1, %f1, -, H1⟩, ⟨%ds0, %fs0, -, HS0⟩, Hq0, Hh0, HW, Hk⟩
    obtain rfl := harg1.eq_unread hf0
    sl_exec (disch := sl_exact (row_ok5 harg1 x0 hT _ _))
    sl_unfold_words
    rw [Cert.Rows.rowsB_indep arg4 _ _ _ _ _ _ _ _ fs0 arg4.view.junk]
    sl_step
    iapply Hk
    isplitl [H5]
    · iexists _; isplitr; · ipureintro; exact harg1.read_unread _
      iexact H5
    isplitl [H1]; · iexists _; iexact H1
    isplitl [HS0]
    · iexists _, _; isplitr; swap; · iexact HS0
      ipureintro; rfl
    isplitl [Hq0]; · iexact Hq0
    isplitl [Hh0]; · iexact Hh0
    iexists _; iexact HW

end Cert.Kernel.Hand

end
-- ==== Proof.Kernel.Region5Dat.lean ====
import proofs.«407256_j33208687133423_1_alg».proof.Proof.Kernel.Region5

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
  (V : (c : Dev nD) → (b : Ref sig .tc) → Buf (Elt F) ((c : Thread nD τ).loc b)) (a : (pcfg5 (F := F)).Adm)

abbrev tbl5 (c : Dev nD) : Vec F S100000 .i32 := V c main_arg6

variable (hT : ∀ (c : Dev nD) (k : S100000.Idx), (tbl5 V c k : BitVec 32).toNat < 60000)

abbrev VO5 : View sig .tc .vmem S8x64 .f32 := (Memref.whole cc5_stg0_0 : Memref sig .tc .vmem S8x64 .f32).view

def out5 (c : Dev nD) (i : grid5.Coords) (arg1 : Memref sig .tc .smem S100000 .i32) (harg1 : arg1.IsWhole)
    (arg3 : Memref sig .tc .vmem S8x64 .f32) (harg3 : arg3.IsWhole) (arg4 : Memref sig .tc .vmem S8x64 .f32) (harg4 : arg4.IsWhole)
    (x0 : Vec F S100000 .i32) (hx : ∀ k, (x0 k : BitVec 32).toNat < 60000) (fh : HbBuf5 (F := F) c hbM5) : Vec F S8x64 .f32 :=
  VO5.read (Elt F) (VO5.writes (Elt F) VO5.junk (kernelRun5 c i arg1 harg1 arg3 harg3 arg4 harg4 x0 hx fh).1)

abbrev ms5 (t : Fin (cfg5 a).N) : Memref sig .tc .vmem S8x64 .f32 := spec5_0.stage ((cfg5 a).slots t 0)
abbrev hs5 (t : Fin (cfg5 a).N) : (ms5 a t).IsWhole := hstage5_0 (((cfg5 a).slots t 0).cast nbuf5_0)

def outsAt5 (c : Dev nD) (t : Fin (cfg5 a).N) : Vec F S8x64 .f32 :=
  out5 c ((cfg5 a).grid.coords t) tbM5 (Memref.isWhole_whole _) (ms5 a t) (hs5 a t) scM5 (Memref.isWhole_whole _) (tbl5 V c) (hT c) (V c main_v40)

abbrev osem5 : Fin 1 → SemLoc sig := fun _ => SemLoc.dma 23
theorem ownSemFacts5 : Pipeline.OwnSemFacts spec5 osem5 := by decide
def H5 : Finset (Ref sig .tc) := {main_v40, main_arg6}
theorem H5_sub : H5 ⊆ Pipeline.restRefs sig spec5 := by decide

def dat5 (c : Dev nD) : Dat τ (Elt F) Unit ℕ (Pipeline.UD sig nD τ) ℕ (cfg5 a) c where
  A w := V c (Pipeline.arrRef spec5 w)
  after w t := match w with
    | ⟨0, _⟩ => outsAt5 V a hT c t
  Φ _ := Pipeline.ΦD osem5 spec5 H5 V c
  q _ := fullShare
  owed _ := 0

theorem after5_out (c : Dev nD) (t : Fin (cfg5 a).N) : (dat5 V a hT c).after 0 t = outsAt5 V a hT c t := rfl

theorem hbmPts5_eq (c : Dev nD) :
    bigSep H5 (fun b => ((c : Thread nD τ).loc b) ↦{fullShare} V c b)
      = iprop(hbPt5 c hbM5 (V c main_v40) ∗ hbPt5 c tbM5 (V c main_arg6)) :=
  BI.bigSep_eq_bigSepL_of_eq [main_v40, main_arg6] (by decide) (by decide) _

theorem PhiD5_eq (c : Dev nD) :
    Pipeline.ΦD osem5 spec5 H5 V c
      = iprop(((∃ d, owns (c : Thread nD τ) scM5 fullShare d) ∗ Pipeline.scopedRestBut spec5 c [cc5_scratch0])
          ∗ (∃ r, prngReg c r) ∗ semVal ((c : Thread nD τ), SemLoc.dma 23) 0
          ∗ hbPt5 c hbM5 (V c main_v40) ∗ owns (c : Thread nD τ) tbM5 fullShare (tbl5 V c)) := by
  rw [Pipeline.ΦD_eq, scopedRest5_split, Pipeline.ownSems0_eq_of_list c osem5 [0] (by decide) (by decide), hbmPts5_eq]
  simp only [scM5, tbM5, hbPt5, owns_whole]; rfl

-- Every row the table names is in range, so the body's run leaves the output block at the pieces it wrote, whatever the block held.
theorem body_obligation5 (c : Dev nD) : BodyObligation (dat5 (F := F) V a hT c) (defs₀ (F := F)) Variants.none () Set.univ := fun t => by
  rw [bigSep_W5, bigSep_W5]
  change iprop(Pipeline.ΦD osem5 spec5 H5 V c ∗ Pipeline.owesWithin _ 0 _ ∗ ∃ d, owns _ _ _ _) ⊢ wp _ _ _ _ fun _ => iprop(Pipeline.ΦD osem5 spec5 H5 V c ∗ Pipeline.owesWithin _ 0 _ ∗ owns _ _ _ (outsAt5 V a hT c t))
  rw [PhiD5_eq]
  unfold Pipeline.owesWithin outsAt5 out5
  iintro ⟨⟨⟨HS0, HR⟩, Hg, Hq0, Hh0, Ht⟩, ⟨%W, -, HW⟩, ⟨%d, H5⟩⟩
  iapply ((kernelRun5 c ((cfg5 a).grid.coords t) tbM5 (Memref.isWhole_whole _) (ms5 a t) (hs5 a t) scM5 (Memref.isWhole_whole _) (tbl5 V c) (hT c) (V c main_v40)).2 W _)
  iframe
  isplitl [H5]; · iexists _; iexact H5
  iintro ⟨Ht, ⟨%e, H1⟩, HS0, Hq0, Hh0, ⟨%W', HW'⟩⟩
  iframe
  isplitl [HW']
  · iexists W'; isplitr; · ipureintro; exact fun _ _ => Or.inl trivial
    iexact HW'
  unfold owns; iexists _; isplitr
  swap; · iexact H1
  ipureintro; exact View.read_writes_of_cover _ _ _ _ _ (View.cover_of_tiledL _ S8x64.size (by sl_kernel_rfl))

end Cert.Kernel.Hand

end
-- ==== Proof.Kernel.Region6.lean ====
import proofs.«407256_j33208687133423_1_alg».proof.Proof.Gen.Kernel.Launch
import proofs.«407256_j33208687133423_1_alg».proof.Proof.Gen.Kernel.Skeleton
import proofs.«407256_j33208687133423_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

theorem before6_0_of {c : Dev nD} (dat : Dat τ (Elt F) Unit ℕ (Pipeline.UD sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

abbrev r6_0 : Rect S2000x64 := Rect.unit (s := S2000x64) ![0, 0] S2000x64.size inb_S2000x64_S2000x64_0_0

def out6 (x0 : Vec F S2000x64 .f32) : Vec F S2000x64 .f32 :=
  View.canon [⟨r6_0, k6_pay1 (View.ld x0 r6_0)⟩]

theorem cover6 (p0 : Vec F S2000x64 .f32) (y : S2000x64.Idx) :
    ∃ pc ∈ ([⟨r6_0, p0⟩] : List (View.Piece (Elt F) S2000x64 .f32)), y ∈ pc.1.set :=
  View.cover_of_tiled [⟨r6_0, p0⟩] S2000x64.size (by rfl) y

set_option maxHeartbeats 1000000 in

theorem sound_kernel6 (c : Dev nD) (E : Set ℕ) (i : grid6.Coords) (arg1 : Memref sig .tc .vmem S2000x64 .f32) (harg1 : arg1.IsWhole) (arg2 : Memref sig .tc .vmem S2000x64 .f32) (harg2 : arg2.IsWhole)
    (x0 : Vec F S2000x64 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out6 x0)) -∗ K ⟨⟩))
      ⊢ wp frame (wpE (defs₀ (F := F)) Variants.none c none) E (cc6__log_softmax_kernel i arg1 harg1 arg2 harg2) K := by
  simp only [cc6__log_softmax_kernel_eq_skeleton]; unfold cc6__log_softmax_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover6 _)

def dat6 (c : Dev nD) : Dat τ (Elt F) Unit ℕ (Pipeline.UD sig nD τ) ℕ cfg6 c where
  A w := V c (Pipeline.arrRef spec6 w)
  after w t := match w with
    | ⟨0, _⟩ => iblk6 V c 0 t
    | ⟨1, _⟩ => out6 (iblk6 V c 0 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_out (c : Dev nD) (t : Fin cfg6.N) : (dat6 V c).after 1 t = out6 (iblk6 V c 0 t) := by dsimp only [dat6]

theorem before6_0 (c : Dev nD) (t : Fin cfg6.N) (d) : (dat6 V c).before 0 t d = iblk6 V c 0 t :=
  before6_0_of V (dat6 V c) (A_eq6 V c 0) (after6_0 V c) t d

def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d)))

def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t))

theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0]
  rw [show (dat6 V c).Φ t.succ = (dat6 V c).Φ t.castSucc from rfl,
    show (dat6 V c).owesAt () t.succ = (dat6 V c).owesAt () t.castSucc from rfl,
    after6_0, after6_out]
  iintro ⟨HΦ, Ho, ⟨%d0, H0⟩, ⟨%d1, H1⟩⟩
  iapply (sound_kernel6 c Set.univ (grid6.coords t) _ _ _ _ (iblk6 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation6 (c : Dev nD) : BodyObligation (dat6 (F := F) V c) (defs₀ (F := F)) Variants.none () Set.univ := fun t => by
  rw [bigSep_W6, bigSep_W6]
  exact sound_body6 V c t

end Cert.Kernel.Hand

end
-- ==== Proof.Kernel.Run.Fold.lean ====
import proofs.«407256_j33208687133423_1_alg».proof.Proof.Kernel.Region0Dat
import proofs.«407256_j33208687133423_1_alg».proof.Proof.Kernel.Region1
import proofs.«407256_j33208687133423_1_alg».proof.Proof.Kernel.Region2Dat
import proofs.«407256_j33208687133423_1_alg».proof.Proof.Kernel.Region3Dat
import proofs.«407256_j33208687133423_1_alg».proof.Proof.Kernel.Region4
import proofs.«407256_j33208687133423_1_alg».proof.Proof.Kernel.Region5Dat
import proofs.«407256_j33208687133423_1_alg».proof.Proof.Kernel.Region6
import proofs.«407256_j33208687133423_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

abbrev adm0 : (pcfg0 (F := F)).Adm := ⟨fun j => m (((0 : Dev nD) : Thread nD τ).loc (pre0.ref j)), trivial⟩

abbrev adm2 : (pcfg2 (F := F)).Adm := ⟨fun j => m (((0 : Dev nD) : Thread nD τ).loc (pre2.ref j)), trivial⟩

abbrev adm3 : (pcfg3 (F := F)).Adm := ⟨fun j => m (((0 : Dev nD) : Thread nD τ).loc (pre3.ref j)), trivial⟩

abbrev adm5 : (pcfg5 (F := F)).Adm := ⟨fun j => m (((0 : Dev nD) : Thread nD τ).loc (pre5.ref j)), trivial⟩

abbrev adm : (p : Fin 7) → (pcfgs (F := F) p).Adm
  | ⟨0, _⟩ => adm0 m
  | ⟨1, _⟩ => cfg1.toPCfg_adm
  | ⟨2, _⟩ => adm2 m
  | ⟨3, _⟩ => adm3 m
  | ⟨4, _⟩ => cfg4.toPCfg_adm
  | ⟨5, _⟩ => adm5 m
  | ⟨6, _⟩ => cfg6.toPCfg_adm

abbrev W0 : Dev nD → Valuation τ sig (Elt F) := fun c b => (s₀ m ρ).mem ((c : Dev nD), b)

/-- The program's eleven argument buffers. -/
abbrev args : List (Ref sig .tc) :=
  [main_arg0, main_arg1, main_arg2, main_arg3, main_arg4, main_arg5, main_arg6, main_arg7, main_arg8, main_arg9, main_arg10]

/-- The contents `W` hold every argument buffer as launched. -/
def Kept (W : Dev nD → Valuation τ sig (Elt F)) : Prop :=
  ∀ (c : Dev nD) (b : Ref sig .tc), b ∈ args → W c (Proc.devRef .tc b) = m ((c : Thread nD τ).loc b)
variable {m} in

theorem Kept.after {W : Dev nD → Valuation τ sig (Elt F)} (h : Kept m W) (ops : List (HloOp τ sig (Elt F))) {L : List (Ref sig .tc)}
    (hL : ops.Forall fun op => op.writes ⊆ (L.map (Proc.devRef (τ := τ) .tc)).toFinset) (hd : ∀ b ∈ args, b ∉ L) :
    Kept m fun c => StableHlo.after ops (W c) :=
  fun c b hb => (StableHlo.after_of_writes_sub ops _ hL (hd b hb)).trans (h c b hb)
theorem kept0 : Kept m (W0 m ρ) := fun _ _ _ => rfl

/-- Every word of each of the four tables names a row of the matrix it indexes. -/
abbrev Ranges : Prop :=
  (∀ k : S60000.Idx, ((m (((0 : Dev nD) : Thread nD τ).loc main_arg3) : S60000.Idx → BitVec 32) k).toNat < 100000)
    ∧ (∀ k : S100000.Idx, ((m (((0 : Dev nD) : Thread nD τ).loc main_arg4) : S100000.Idx → BitVec 32) k).toNat < 60000)
    ∧ (∀ k : S60000.Idx, ((m (((0 : Dev nD) : Thread nD τ).loc main_arg5) : S60000.Idx → BitVec 32) k).toNat < 100000)
    ∧ (∀ k : S100000.Idx, ((m (((0 : Dev nD) : Thread nD τ).loc main_arg6) : S100000.Idx → BitVec 32) k).toNat < 60000)
variable (hR : Ranges m)

abbrev W1 : Dev nD → Valuation τ sig (Elt F) := fun c => StableHlo.after hostOps0 (W0 m ρ c)
theorem kept1 : Kept m (W1 m ρ) := (kept0 m ρ).after hostOps0 hostOps0_writes (by decide)

abbrev V1 : (c : Dev nD) → (b : Ref sig .tc) → Buf (Elt F) ((c : Thread nD τ).loc b) := fun c b => W1 m ρ c b
include hR in

theorem tabOk0 (c : Dev nD) (k : S60000.Idx) : (tbl0 (V1 m ρ) c k : BitVec 32).toNat < 100000 := by
  have e : (tbl0 (V1 m ρ) c k : BitVec 32) = (m (((0 : Dev nD) : Thread nD τ).loc main_arg3) : S60000.Idx → BitVec 32) k := by
    obtain rfl : c = 0 := Subsingleton.elim _ _
    exact congrFun (kept1 m ρ 0 main_arg3 (by decide)) k
  rw [e]; exact hR.1 k

def W2 (c : Dev nD) : Valuation τ sig (Elt F) :=
  Pipeline.withArrays spec0 c (W1 m ρ c) fun w => (dat0 (V1 m ρ) (adm0 m) (tabOk0 m ρ hR) c).arrAt w (cfg0 (adm0 m)).N
theorem W2_arr (c : Dev nD) (w : Fin (cfg0 (adm0 m)).W) :
    W2 m ρ hR c (Proc.devRef .tc (Pipeline.arrRef spec0 w)) = (dat0 (V1 m ρ) (adm0 m) (tabOk0 m ρ hR) c).arrAt w (cfg0 (adm0 m)).N := by
  unfold W2; exact Pipeline.withArrays_arr spec0 winFacts0.arr_inj c _ _ w
theorem W2_of_ne (c : Dev nD) (b : Ref sig .tc) (hb : ∀ w, Pipeline.arrRef spec0 w ≠ b) :
    W2 m ρ hR c (Proc.devRef .tc b) = W1 m ρ c (Proc.devRef .tc b) := by
  unfold W2; exact Pipeline.withArrays_of_ne spec0 c _ _ b hb

abbrev X0 : (c : Dev nD) → (b : Ref sig .tc) → Buf (Elt F) ((c : Thread nD τ).loc b) := fun c b => W2 m ρ hR c b

theorem hF0 (c : Dev nD) (w : Fin (cfg0 (adm0 m)).W) : (dat0 (V1 m ρ) (adm0 m) (tabOk0 m ρ hR) c).arrAt w (cfg0 (adm0 m)).N = X0 m ρ hR c (Pipeline.arrRef spec0 w) :=
  (W2_arr m ρ hR c w).symm
theorem hrest0 (c : Dev nD) : ∀ b, b ∉ Finset.univ.image (Pipeline.arrRef spec0) → X0 m ρ hR c b = V1 m ρ c b :=
  fun b hb => W2_of_ne m ρ hR c b fun w e => hb (Finset.mem_image.mpr ⟨w, Finset.mem_univ _, e⟩)
theorem kept2 : Kept m (W2 m ρ hR) := fun c b hb =>
  (W2_of_ne m ρ hR c b ((by decide : ∀ b ∈ args, ∀ w, Pipeline.arrRef spec0 w ≠ b) b hb)).trans (kept1 m ρ c b hb)

abbrev W3 : Dev nD → Valuation τ sig (Elt F) := fun c => StableHlo.after hostOps1 (W2 m ρ hR c)
theorem kept3 : Kept m (W3 m ρ hR) := (kept2 m ρ hR).after hostOps1 hostOps1_writes (by decide)

abbrev V3 : (c : Dev nD) → (b : Ref sig .tc) → Buf (Elt F) ((c : Thread nD τ).loc b) := fun c b => W3 m ρ hR c b

def W4 (c : Dev nD) : Valuation τ sig (Elt F) :=
  Pipeline.withArrays spec1 c (W3 m ρ hR c) fun w => (dat1 (V3 m ρ hR) c).arrAt w cfg1.N
theorem W4_arr (c : Dev nD) (w : Fin cfg1.W) :
    W4 m ρ hR c (Proc.devRef .tc (Pipeline.arrRef spec1 w)) = (dat1 (V3 m ρ hR) c).arrAt w cfg1.N := by
  unfold W4; exact Pipeline.withArrays_arr spec1 winFacts1.arr_inj c _ _ w
theorem W4_of_ne (c : Dev nD) (b : Ref sig .tc) (hb : ∀ w, Pipeline.arrRef spec1 w ≠ b) :
    W4 m ρ hR c (Proc.devRef .tc b) = W3 m ρ hR c (Proc.devRef .tc b) := by
  unfold W4; exact Pipeline.withArrays_of_ne spec1 c _ _ b hb

abbrev X1 : (c : Dev nD) → (b : Ref sig .tc) → Buf (Elt F) ((c : Thread nD τ).loc b) := fun c b => W4 m ρ hR c b

theorem hF1 (c : Dev nD) (w : Fin cfg1.W) : (dat1 (V3 m ρ hR) c).arrAt w cfg1.N = X1 m ρ hR c (Pipeline.arrRef spec1 w) :=
  (W4_arr m ρ hR c w).symm
theorem hrest1 (c : Dev nD) : ∀ b, b ∉ Finset.univ.image (Pipeline.arrRef spec1) → X1 m ρ hR c b = V3 m ρ hR c b :=
  fun b hb => W4_of_ne m ρ hR c b fun w e => hb (Finset.mem_image.mpr ⟨w, Finset.mem_univ _, e⟩)

/-- The first weight matrix is read, never written. -/
theorem kept4 : Kept m (W4 m ρ hR) := fun c b hb => by
  by_cases h : b = main_arg7
  · subst h; exact ((W4_arr m ρ hR c 1).trans (((dat1 (V3 m ρ hR) c).arrAt_in 1 rfl _).trans (A_eq1 (V3 m ρ hR) c 1))).trans (kept3 m ρ hR c _ hb)
  · exact (W4_of_ne m ρ hR c b ((by decide : ∀ b ∈ args, b ≠ main_arg7 → ∀ w, Pipeline.arrRef spec1 w ≠ b) b hb h)).trans (kept3 m ρ hR c b hb)

abbrev V4 : (c : Dev nD) → (b : Ref sig .tc) → Buf (Elt F) ((c : Thread nD τ).loc b) := fun c b => W4 m ρ hR c b
include hR in

theorem tabOk2 (c : Dev nD) (k : S100000.Idx) : (tbl2 (V4 m ρ hR) c k : BitVec 32).toNat < 60000 := by
  have e : (tbl2 (V4 m ρ hR) c k : BitVec 32) = (m (((0 : Dev nD) : Thread nD τ).loc main_arg4) : S100000.Idx → BitVec 32) k := by
    obtain rfl : c = 0 := Subsingleton.elim _ _
    exact congrFun (kept4 m ρ hR 0 main_arg4 (by decide)) k
  rw [e]; exact hR.2.1 k

def W5 (c : Dev nD) : Valuation τ sig (Elt F) :=
  Pipeline.withArrays spec2 c (W4 m ρ hR c) fun w => (dat2 (V4 m ρ hR) (adm2 m) (tabOk2 m ρ hR) c).arrAt w (cfg2 (adm2 m)).N
theorem W5_arr (c : Dev nD) (w : Fin (cfg2 (adm2 m)).W) :
    W5 m ρ hR c (Proc.devRef .tc (Pipeline.arrRef spec2 w)) = (dat2 (V4 m ρ hR) (adm2 m) (tabOk2 m ρ hR) c).arrAt w (cfg2 (adm2 m)).N := by
  unfold W5; exact Pipeline.withArrays_arr spec2 winFacts2.arr_inj c _ _ w
theorem W5_of_ne (c : Dev nD) (b : Ref sig .tc) (hb : ∀ w, Pipeline.arrRef spec2 w ≠ b) :
    W5 m ρ hR c (Proc.devRef .tc b) = W4 m ρ hR c (Proc.devRef .tc b) := by
  unfold W5; exact Pipeline.withArrays_of_ne spec2 c _ _ b hb

abbrev X2 : (c : Dev nD) → (b : Ref sig .tc) → Buf (Elt F) ((c : Thread nD τ).loc b) := fun c b => W5 m ρ hR c b

theorem hF2 (c : Dev nD) (w : Fin (cfg2 (adm2 m)).W) : (dat2 (V4 m ρ hR) (adm2 m) (tabOk2 m ρ hR) c).arrAt w (cfg2 (adm2 m)).N = X2 m ρ hR c (Pipeline.arrRef spec2 w) :=
  (W5_arr m ρ hR c w).symm
theorem hrest2 (c : Dev nD) : ∀ b, b ∉ Finset.univ.image (Pipeline.arrRef spec2) → X2 m ρ hR c b = V4 m ρ hR c b :=
  fun b hb => W5_of_ne m ρ hR c b fun w e => hb (Finset.mem_image.mpr ⟨w, Finset.mem_univ _, e⟩)
theorem kept5 : Kept m (W5 m ρ hR) := fun c b hb =>
  (W5_of_ne m ρ hR c b ((by decide : ∀ b ∈ args, ∀ w, Pipeline.arrRef spec2 w ≠ b) b hb)).trans (kept4 m ρ hR c b hb)

abbrev W6 : Dev nD → Valuation τ sig (Elt F) := fun c => StableHlo.after hostOps3 (W5 m ρ hR c)
theorem kept6 : Kept m (W6 m ρ hR) := (kept5 m ρ hR).after hostOps3 hostOps3_writes (by decide)

abbrev V6 : (c : Dev nD) → (b : Ref sig .tc) → Buf (Elt F) ((c : Thread nD τ).loc b) := fun c b => W6 m ρ hR c b
include hR in

theorem tabOk3 (c : Dev nD) (k : S60000.Idx) : (tbl3 (V6 m ρ hR) c k : BitVec 32).toNat < 100000 := by
  have e : (tbl3 (V6 m ρ hR) c k : BitVec 32) = (m (((0 : Dev nD) : Thread nD τ).loc main_arg5) : S60000.Idx → BitVec 32) k := by
    obtain rfl : c = 0 := Subsingleton.elim _ _
    exact congrFun (kept6 m ρ hR 0 main_arg5 (by decide)) k
  rw [e]; exact hR.2.2.1 k

def W7 (c : Dev nD) : Valuation τ sig (Elt F) :=
  Pipeline.withArrays spec3 c (W6 m ρ hR c) fun w => (dat3 (V6 m ρ hR) (adm3 m) (tabOk3 m ρ hR) c).arrAt w (cfg3 (adm3 m)).N
theorem W7_arr (c : Dev nD) (w : Fin (cfg3 (adm3 m)).W) :
    W7 m ρ hR c (Proc.devRef .tc (Pipeline.arrRef spec3 w)) = (dat3 (V6 m ρ hR) (adm3 m) (tabOk3 m ρ hR) c).arrAt w (cfg3 (adm3 m)).N := by
  unfold W7; exact Pipeline.withArrays_arr spec3 winFacts3.arr_inj c _ _ w
theorem W7_of_ne (c : Dev nD) (b : Ref sig .tc) (hb : ∀ w, Pipeline.arrRef spec3 w ≠ b) :
    W7 m ρ hR c (Proc.devRef .tc b) = W6 m ρ hR c (Proc.devRef .tc b) := by
  unfold W7; exact Pipeline.withArrays_of_ne spec3 c _ _ b hb

abbrev X3 : (c : Dev nD) → (b : Ref sig .tc) → Buf (Elt F) ((c : Thread nD τ).loc b) := fun c b => W7 m ρ hR c b

theorem hF3 (c : Dev nD) (w : Fin (cfg3 (adm3 m)).W) : (dat3 (V6 m ρ hR) (adm3 m) (tabOk3 m ρ hR) c).arrAt w (cfg3 (adm3 m)).N = X3 m ρ hR c (Pipeline.arrRef spec3 w) :=
  (W7_arr m ρ hR c w).symm
theorem hrest3 (c : Dev nD) : ∀ b, b ∉ Finset.univ.image (Pipeline.arrRef spec3) → X3 m ρ hR c b = V6 m ρ hR c b :=
  fun b hb => W7_of_ne m ρ hR c b fun w e => hb (Finset.mem_image.mpr ⟨w, Finset.mem_univ _, e⟩)
theorem kept7 : Kept m (W7 m ρ hR) := fun c b hb =>
  (W7_of_ne m ρ hR c b ((by decide : ∀ b ∈ args, ∀ w, Pipeline.arrRef spec3 w ≠ b) b hb)).trans (kept6 m ρ hR c b hb)

abbrev W8 : Dev nD → Valuation τ sig (Elt F) := fun c => StableHlo.after hostOps4 (W7 m ρ hR c)
theorem kept8 : Kept m (W8 m ρ hR) := (kept7 m ρ hR).after hostOps4 hostOps4_writes (by decide)

abbrev V8 : (c : Dev nD) → (b : Ref sig .tc) → Buf (Elt F) ((c : Thread nD τ).loc b) := fun c b => W8 m ρ hR c b

def W9 (c : Dev nD) : Valuation τ sig (Elt F) :=
  Pipeline.withArrays spec4 c (W8 m ρ hR c) fun w => (dat4 (V8 m ρ hR) c).arrAt w cfg4.N
theorem W9_arr (c : Dev nD) (w : Fin cfg4.W) :
    W9 m ρ hR c (Proc.devRef .tc (Pipeline.arrRef spec4 w)) = (dat4 (V8 m ρ hR) c).arrAt w cfg4.N := by
  unfold W9; exact Pipeline.withArrays_arr spec4 winFacts4.arr_inj c _ _ w
theorem W9_of_ne (c : Dev nD) (b : Ref sig .tc) (hb : ∀ w, Pipeline.arrRef spec4 w ≠ b) :
    W9 m ρ hR c (Proc.devRef .tc b) = W8 m ρ hR c (Proc.devRef .tc b) := by
  unfold W9; exact Pipeline.withArrays_of_ne spec4 c _ _ b hb

abbrev X4 : (c : Dev nD) → (b : Ref sig .tc) → Buf (Elt F) ((c : Thread nD τ).loc b) := fun c b => W9 m ρ hR c b

theorem hF4 (c : Dev nD) (w : Fin cfg4.W) : (dat4 (V8 m ρ hR) c).arrAt w cfg4.N = X4 m ρ hR c (Pipeline.arrRef spec4 w) :=
  (W9_arr m ρ hR c w).symm
theorem hrest4 (c : Dev nD) : ∀ b, b ∉ Finset.univ.image (Pipeline.arrRef spec4) → X4 m ρ hR c b = V8 m ρ hR c b :=
  fun b hb => W9_of_ne m ρ hR c b fun w e => hb (Finset.mem_image.mpr ⟨w, Finset.mem_univ _, e⟩)

/-- The second weight matrix is read, never written. -/
theorem kept9 : Kept m (W9 m ρ hR) := fun c b hb => by
  by_cases h : b = main_arg9
  · subst h; exact ((W9_arr m ρ hR c 1).trans (((dat4 (V8 m ρ hR) c).arrAt_in 1 rfl _).trans (A_eq4 (V8 m ρ hR) c 1))).trans (kept8 m ρ hR c _ hb)
  · exact (W9_of_ne m ρ hR c b ((by decide : ∀ b ∈ args, b ≠ main_arg9 → ∀ w, Pipeline.arrRef spec4 w ≠ b) b hb h)).trans (kept8 m ρ hR c b hb)

abbrev V9 : (c : Dev nD) → (b : Ref sig .tc) → Buf (Elt F) ((c : Thread nD τ).loc b) := fun c b => W9 m ρ hR c b
include hR in

theorem tabOk5 (c : Dev nD) (k : S100000.Idx) : (tbl5 (V9 m ρ hR) c k : BitVec 32).toNat < 60000 := by
  have e : (tbl5 (V9 m ρ hR) c k : BitVec 32) = (m (((0 : Dev nD) : Thread nD τ).loc main_arg6) : S100000.Idx → BitVec 32) k := by
    obtain rfl : c = 0 := Subsingleton.elim _ _
    exact congrFun (kept9 m ρ hR 0 main_arg6 (by decide)) k
  rw [e]; exact hR.2.2.2 k

def W10 (c : Dev nD) : Valuation τ sig (Elt F) :=
  Pipeline.withArrays spec5 c (W9 m ρ hR c) fun w => (dat5 (V9 m ρ hR) (adm5 m) (tabOk5 m ρ hR) c).arrAt w (cfg5 (adm5 m)).N
theorem W10_arr (c : Dev nD) (w : Fin (cfg5 (adm5 m)).W) :
    W10 m ρ hR c (Proc.devRef .tc (Pipeline.arrRef spec5 w)) = (dat5 (V9 m ρ hR) (adm5 m) (tabOk5 m ρ hR) c).arrAt w (cfg5 (adm5 m)).N := by
  unfold W10; exact Pipeline.withArrays_arr spec5 winFacts5.arr_inj c _ _ w
theorem W10_of_ne (c : Dev nD) (b : Ref sig .tc) (hb : ∀ w, Pipeline.arrRef spec5 w ≠ b) :
    W10 m ρ hR c (Proc.devRef .tc b) = W9 m ρ hR c (Proc.devRef .tc b) := by
  unfold W10; exact Pipeline.withArrays_of_ne spec5 c _ _ b hb

abbrev X5 : (c : Dev nD) → (b : Ref sig .tc) → Buf (Elt F) ((c : Thread nD τ).loc b) := fun c b => W10 m ρ hR c b

theorem hF5 (c : Dev nD) (w : Fin (cfg5 (adm5 m)).W) : (dat5 (V9 m ρ hR) (adm5 m) (tabOk5 m ρ hR) c).arrAt w (cfg5 (adm5 m)).N = X5 m ρ hR c (Pipeline.arrRef spec5 w) :=
  (W10_arr m ρ hR c w).symm
theorem hrest5 (c : Dev nD) : ∀ b, b ∉ Finset.univ.image (Pipeline.arrRef spec5) → X5 m ρ hR c b = V9 m ρ hR c b :=
  fun b hb => W10_of_ne m ρ hR c b fun w e => hb (Finset.mem_image.mpr ⟨w, Finset.mem_univ _, e⟩)
theorem kept10 : Kept m (W10 m ρ hR) := fun c b hb =>
  (W10_of_ne m ρ hR c b ((by decide : ∀ b ∈ args, ∀ w, Pipeline.arrRef spec5 w ≠ b) b hb)).trans (kept9 m ρ hR c b hb)

abbrev V10 : (c : Dev nD) → (b : Ref sig .tc) → Buf (Elt F) ((c : Thread nD τ).loc b) := fun c b => W10 m ρ hR c b

def W11 (c : Dev nD) : Valuation τ sig (Elt F) :=
  Pipeline.withArrays spec6 c (W10 m ρ hR c) fun w => (dat6 (V10 m ρ hR) c).arrAt w cfg6.N
theorem W11_arr (c : Dev nD) (w : Fin cfg6.W) :
    W11 m ρ hR c (Proc.devRef .tc (Pipeline.arrRef spec6 w)) = (dat6 (V10 m ρ hR) c).arrAt w cfg6.N := by
  unfold W11; exact Pipeline.withArrays_arr spec6 winFacts6.arr_inj c _ _ w
theorem W11_of_ne (c : Dev nD) (b : Ref sig .tc) (hb : ∀ w, Pipeline.arrRef spec6 w ≠ b) :
    W11 m ρ hR c (Proc.devRef .tc b) = W10 m ρ hR c (Proc.devRef .tc b) := by
  unfold W11; exact Pipeline.withArrays_of_ne spec6 c _ _ b hb

abbrev X6 : (c : Dev nD) → (b : Ref sig .tc) → Buf (Elt F) ((c : Thread nD τ).loc b) := fun c b => W11 m ρ hR c b

theorem hF6 (c : Dev nD) (w : Fin cfg6.W) : (dat6 (V10 m ρ hR) c).arrAt w cfg6.N = X6 m ρ hR c (Pipeline.arrRef spec6 w) :=
  (W11_arr m ρ hR c w).symm
theorem hrest6 (c : Dev nD) : ∀ b, b ∉ Finset.univ.image (Pipeline.arrRef spec6) → X6 m ρ hR c b = V10 m ρ hR c b :=
  fun b hb => W11_of_ne m ρ hR c b fun w e => hb (Finset.mem_image.mpr ⟨w, Finset.mem_univ _, e⟩)
theorem kept11 : Kept m (W11 m ρ hR) := fun c b hb =>
  (W11_of_ne m ρ hR c b ((by decide : ∀ b ∈ args, ∀ w, Pipeline.arrRef spec6 w ≠ b) b hb)).trans (kept10 m ρ hR c b hb)

theorem V1_src (c : Dev nD) : V1 m ρ c main_v16 = StableHlo.after hostOps0 (W0 m ρ c) (Proc.devRef .tc main_v16) := rfl

theorem V3_x (c : Dev nD) : V3 m ρ hR c main_v17 = (dat0 (V1 m ρ) (adm0 m) (tabOk0 m ρ hR) c).arrAt 0 (cfg0 (adm0 m)).N :=
  (StableHlo.after_of_writes_sub hostOps1 _ hostOps1_writes (by decide)).trans (W2_arr m ρ hR c 0)
theorem V3_w (c : Dev nD) : V3 m ρ hR c main_arg7 = m ((c : Thread nD τ).loc main_arg7) := kept3 m ρ hR c main_arg7 (by decide)
theorem V3_b (c : Dev nD) : V3 m ρ hR c main_v18 = StableHlo.after hostOps1 (W2 m ρ hR c) (Proc.devRef .tc main_v18) := rfl

theorem V4_src (c : Dev nD) : V4 m ρ hR c main_v19 = (dat1 (V3 m ρ hR) c).arrAt 3 cfg1.N := W4_arr m ρ hR c 3

theorem W5_out (c : Dev nD) : W5 m ρ hR c (Proc.devRef .tc main_v20) = (dat2 (V4 m ρ hR) (adm2 m) (tabOk2 m ρ hR) c).arrAt 0 (cfg2 (adm2 m)).N := W5_arr m ρ hR c 0

theorem V6_src (c : Dev nD) : V6 m ρ hR c main_v37 = StableHlo.after hostOps3 (W5 m ρ hR c) (Proc.devRef .tc main_v37) := rfl

theorem V8_x (c : Dev nD) : V8 m ρ hR c main_v38 = (dat3 (V6 m ρ hR) (adm3 m) (tabOk3 m ρ hR) c).arrAt 0 (cfg3 (adm3 m)).N :=
  (StableHlo.after_of_writes_sub hostOps4 _ hostOps4_writes (by decide)).trans (W7_arr m ρ hR c 0)
theorem V8_w (c : Dev nD) : V8 m ρ hR c main_arg9 = m ((c : Thread nD τ).loc main_arg9) := kept8 m ρ hR c main_arg9 (by decide)
theorem V8_b (c : Dev nD) : V8 m ρ hR c main_v39 = StableHlo.after hostOps4 (W7 m ρ hR c) (Proc.devRef .tc main_v39) := rfl

theorem V9_src (c : Dev nD) : V9 m ρ hR c main_v40 = (dat4 (V8 m ρ hR) c).arrAt 3 cfg4.N := W9_arr m ρ hR c 3

theorem V10_x (c : Dev nD) : V10 m ρ hR c main_v41 = (dat5 (V9 m ρ hR) (adm5 m) (tabOk5 m ρ hR) c).arrAt 0 (cfg5 (adm5 m)).N := W10_arr m ρ hR c 0

theorem W11_out (c : Dev nD) : W11 m ρ hR c (Proc.devRef .tc main_v42) = (dat6 (V10 m ρ hR) c).arrAt 1 cfg6.N := W11_arr m ρ hR c 1

end Cert.Kernel.Hand

end
-- ==== Proof.Kernel.Run.Regions.lean ====
import proofs.«407256_j33208687133423_1_alg».proof.Proof.Kernel.Run.Fold

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat)

variable {F : FTy → Type} [FloatOps F]

local notation "𝕄" => MT nD τ sig Unit (Elt F) ℕ (Pipeline.UD sig nD τ) ℕ

section
variable {M : Type} [URA M] {A B H S T P Z Pr O O' Os Lv Sc Ub Ub' Q : sProp M}

-- Entering or leaving a region only moves resources between the thread state, the invariant and what bypasses the region.
theorem gEntry (hU : Ub' = Ub) (hs : Ub' ⊢ iprop(A ∗ B)) (hB : B = iprop(H ∗ Z)) (hH : H = iprop(S ∗ T)) (hP : P = T) (hO : O ⊢ O') :
    iprop((Ub ∗ Pr ∗ O) ∗ Os ∗ Lv) ⊢ iprop(A ∗ P ∗ O' ∗ (Pr ∗ Os ∗ S) ∗ Z) := by
  subst hU hB hH hP
  iintro ⟨⟨Hub, Hp, HO⟩, Hos, -⟩
  icases hs $$ Hub with ⟨Ha, ⟨HS, HT⟩, HR⟩
  ihave HO := hO $$ HO
  iframe

theorem gIn (hH : H = iprop(S ∗ T)) (hP : P = T) : iprop((Pr ∗ Os ∗ S) ∗ P ∗ Sc) ⊢ iprop(Sc ∗ Pr ∗ Os ∗ H) := by
  subst hH hP; iintro ⟨⟨Hp, Ho, HS⟩, HT, Hr⟩; iframe

theorem gOut : iprop(Sc ∗ Pr ∗ Os ∗ H) ⊢ iprop((Pr ∗ H) ∗ Os ∗ Sc) := by
  iintro ⟨Hr, Hp, Ho, HH⟩; iframe

theorem gExit (hU : Ub' = Ub) (hj : iprop(A ∗ B) ⊢ Ub') (hB : B = iprop(H ∗ Z)) (hO : O' ⊢ O) :
    iprop(A ∗ O' ∗ (Pr ∗ H) ∗ Z) ⊢ iprop(Ub ∗ Pr ∗ O) := by
  subst hU hB
  iintro ⟨Ha, HO, ⟨HY, HH⟩, HR⟩
  ihave HO := hO $$ HO
  isplitl [Ha HH HR]
  · iapply hj; iframe
  iframe

theorem lEntry (hU : Ub' = Ub) (hs : Ub' ⊢ iprop(A ∗ B)) (hP : P = iprop(emp)) (hO : O ⊢ O') :
    iprop((Ub ∗ Pr ∗ O) ∗ Os ∗ Lv) ⊢ iprop(A ∗ P ∗ O' ∗ Pr ∗ B) := by
  subst hU hP
  iintro ⟨⟨Hub, Hp, HO⟩, -, -⟩
  icases hs $$ Hub with ⟨Ha, HR⟩
  ihave HO := hO $$ HO
  iframe

theorem lIn : iprop(Pr ∗ P ∗ Sc) ⊢ iprop(Sc ∗ Pr) := by
  iintro ⟨Hp, -, Hr⟩; iframe

theorem lOut (hOs : Os = iprop(emp)) : iprop(Sc ∗ Pr) ⊢ iprop(Pr ∗ Os ∗ Sc) := by
  subst hOs; iintro ⟨Hr, Hp⟩; iframe

theorem lExit (hU : Ub' = Ub) (hj : iprop(A ∗ B) ⊢ Ub') (hO : O' ⊢ O) (hQ : iprop(Ub ∗ Pr ∗ O) ⊢ Q) :
    iprop(A ∗ O' ∗ Pr ∗ B) ⊢ Q := by
  subst hU
  iintro ⟨Ha, HO, HY, HR⟩
  ihave HO := hO $$ HO
  iapply hQ
  isplitl [Ha HR]
  · iapply hj; iframe
  iframe

end

theorem owesIn {c : Dev nD} {B : Set (SemLoc sig × Unit)} (hB : ∀ x, x ∈ B) :
    iprop(∃ W, owes c.tc (0 : CellTallies nD τ sig Unit) W) ⊢ (Pipeline.owesWithin c 0 B : sProp 𝕄) := by
  iintro ⟨%W, H⟩; iexists W; isplitr; · ipureintro; exact fun x _ => hB x
  iexact H

theorem owesOut {c : Dev nD} {B : Set (SemLoc sig × Unit)} :
    (Pipeline.owesWithin c 0 B : sProp 𝕄) ⊢ iprop(∃ W, owes c.tc (0 : CellTallies nD τ sig Unit) W) := by
  iintro ⟨%W, -, H⟩; iexists W; iexact H

variable (m : (ℓ : Loc nD τ sig) → Buf (Elt F) ℓ) (ρ : Dev nD → PrngReg)

variable (hR : Ranges m)

def pdats : (p : Fin 7) → (c : Dev nD) → Dat τ (Elt F) Unit ℕ (Pipeline.UD sig nD τ) ℕ (Pipeline.pin (pcfgs (F := F)) (adm m) p) c
  | ⟨0, _⟩ => fun c => dat0 (V1 m ρ) (adm0 m) (tabOk0 m ρ hR) c
  | ⟨1, _⟩ => fun c => dat1 (V3 m ρ hR) c
  | ⟨2, _⟩ => fun c => dat2 (V4 m ρ hR) (adm2 m) (tabOk2 m ρ hR) c
  | ⟨3, _⟩ => fun c => dat3 (V6 m ρ hR) (adm3 m) (tabOk3 m ρ hR) c
  | ⟨4, _⟩ => fun c => dat4 (V8 m ρ hR) c
  | ⟨5, _⟩ => fun c => dat5 (V9 m ρ hR) (adm5 m) (tabOk5 m ρ hR) c
  | ⟨6, _⟩ => fun c => dat6 (V10 m ρ hR) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes c.tc (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held c.tc (Pipeline.ucRefs τ sig) (W11 m ρ hR c) ∗ ∃ r, prngReg c r)

abbrev pt (V : (c : Dev nD) → (b : Ref sig .tc) → Buf (Elt F) ((c : Thread nD τ).loc b)) (c : Dev nD) (b : Ref sig .tc) : sProp 𝕄 :=
  (c.tc.loc b) ↦{fullShare} V c b

-- A table of row numbers is an argument buffer, and every boundary keeps those as launched.
theorem tabHeld {W : Dev nD → Valuation τ sig (Elt F)} (hW : Kept m W) (pre : Pipeline.Prefetch sig) (h : ∀ k, pre.ref k ∈ args) (c : Dev nD) :
    (Pipeline.prefHeld (Ix := Unit) (Name := ℕ) (U := Pipeline.UD sig nD τ) (Lvl := ℕ) pre c (fun _ => fullShare) (fun k => m ((0 : Dev nD).tc.loc (pre.ref k))) : sProp 𝕄)
      = bigSep Finset.univ fun k => (c.tc.loc (pre.ref k)) ↦{fullShare} W c (pre.ref k) := by
  obtain rfl : c = 0 := Subsingleton.elim _ _
  exact bigSep_congr fun k _ => by rw [hW 0 _ (h k)]

def reg0 : Pipeline.RegionSeg pcfgs (adm m) (pdats m ρ hR) () defs₀ 𝒱₀ L lv 0 where
  win := winFacts0.to₀
  block_pos := block_pos0
  stage_whole := stage_whole0
  K := Fin 1
  osem := osem0
  ho := ownSemFacts0
  hbody c := (body_obligation0 (V1 m ρ) (adm0 m) (tabOk0 m ρ hR) c).loose
  hwaits := Pipeline.hwaits_of_owed_zero _ _ _ _ L lv 0 fun _ _ => rfl
  pre c := iprop(StableHlo.held c.tc (Pipeline.ucRefs τ sig) (W1 m ρ c) ∗ R c)
  post c := iprop(StableHlo.held c.tc (Pipeline.ucRefs τ sig) (W2 m ρ hR c) ∗ R c)
  X c := iprop((∃ r, prngReg c r) ∗ Pipeline.ownSems0 osem0 c ∗ pt (V1 m ρ) c main_v16)
  Y c := iprop((∃ r, prngReg c r) ∗ bigSep H0 (pt (V1 m ρ) c))
  Z c := bigSep (Pipeline.restRefs sig spec0 \ H0) (pt (V1 m ρ) c)
  hentry c := (gEntry (Pipeline.unscopedBufs_held c _) (Pipeline.arrays_of_unscopedBufs (p := 0) _ _ (pdats m ρ hR) winFacts0 arr_whole0 c
    (Dat.share_full _ fun _ => rfl) (V1 m ρ c) fun _ => rfl) (Pipeline.unscopedRest_sdiff spec0 H0 H0_sub c _) (hbmPts0_eq (V1 m ρ) c)
    ((tabHeld m (kept1 m ρ) pre0 (by decide) c).trans (bigSep_W0 _)) (owesIn fun _ => Or.inl trivial)).trans fupd_intro
  hin c := gIn (hbmPts0_eq (V1 m ρ) c) ((tabHeld m (kept1 m ρ) pre0 (by decide) c).trans (bigSep_W0 _))
  hout c := gOut
  hexit c := (gExit (Pipeline.unscopedBufs_held c _) (Pipeline.unscopedBufs_of_arrays (p := 0) _ _ winFacts0 arr_whole0 c (pdats m ρ hR)
    (Dat.share_full _ fun _ => rfl) _ _ _ (hF0 m ρ hR c) (hrest0 m ρ hR c)) (Pipeline.unscopedRest_sdiff spec0 H0 H0_sub c _) owesOut).trans fupd_intro

def reg1 : Pipeline.RegionSeg pcfgs (adm m) (pdats m ρ hR) () defs₀ 𝒱₀ L lv 1 where
  win := winFacts1.to₀
  block_pos := block_pos1
  stage_whole := stage_whole1
  K := PEmpty
  osem k := k.elim
  ho := Pipeline.OwnSemFacts.none _
  hbody c := (body_obligation1 (V3 m ρ hR) c).loose
  hwaits := Pipeline.hwaits_of_owed_zero _ _ _ _ L lv 1 fun _ _ => rfl
  pre c := iprop(StableHlo.held c.tc (Pipeline.ucRefs τ sig) (W3 m ρ hR c) ∗ R c)
  post c := iprop(StableHlo.held c.tc (Pipeline.ucRefs τ sig) (W4 m ρ hR c) ∗ R c)
  X c := iprop(∃ r, prngReg c r)
  Y c := iprop(∃ r, prngReg c r)
  Z c := Pipeline.unscopedRest spec1 c (V3 m ρ hR c)
  hentry c := (lEntry (Pipeline.unscopedBufs_held c _) (Pipeline.arrays_of_unscopedBufs (p := 1) _ _ (pdats m ρ hR) winFacts1 arr_whole1 c
    (Dat.share_full _ fun _ => rfl) (V3 m ρ hR c) fun _ => rfl) BI.bigSep_empty (owesIn fun _ => Or.inl trivial)).trans fupd_intro
  hin c := lIn
  hout c := lOut (Pipeline.ownSems0_none ..)
  hexit c := (lExit (Pipeline.unscopedBufs_held c _) (Pipeline.unscopedBufs_of_arrays (p := 1) _ _ winFacts1 arr_whole1 c (pdats m ρ hR)
    (Dat.share_full _ fun _ => rfl) _ _ _ (hF1 m ρ hR c) (hrest1 m ρ hR c)) owesOut .rfl).trans fupd_intro

def reg2 : Pipeline.RegionSeg pcfgs (adm m) (pdats m ρ hR) () defs₀ 𝒱₀ L lv 2 where
  win := winFacts2.to₀
  block_pos := block_pos2
  stage_whole := stage_whole2
  K := Fin 1
  osem := osem2
  ho := ownSemFacts2
  hbody c := (body_obligation2 (V4 m ρ hR) (adm2 m) (tabOk2 m ρ hR) c).loose
  hwaits := Pipeline.hwaits_of_owed_zero _ _ _ _ L lv 2 fun _ _ => rfl
  pre c := iprop(StableHlo.held c.tc (Pipeline.ucRefs τ sig) (W4 m ρ hR c) ∗ R c)
  post c := iprop(StableHlo.held c.tc (Pipeline.ucRefs τ sig) (W5 m ρ hR c) ∗ R c)
  X c := iprop((∃ r, prngReg c r) ∗ Pipeline.ownSems0 osem2 c ∗ pt (V4 m ρ hR) c main_v19)
  Y c := iprop((∃ r, prngReg c r) ∗ bigSep H2 (pt (V4 m ρ hR) c))
  Z c := bigSep (Pipeline.restRefs sig spec2 \ H2) (pt (V4 m ρ hR) c)
  hentry c := (gEntry (Pipeline.unscopedBufs_held c _) (Pipeline.arrays_of_unscopedBufs (p := 2) _ _ (pdats m ρ hR) winFacts2 arr_whole2 c
    (Dat.share_full _ fun _ => rfl) (V4 m ρ hR c) fun _ => rfl) (Pipeline.unscopedRest_sdiff spec2 H2 H2_sub c _) (hbmPts2_eq (V4 m ρ hR) c)
    ((tabHeld m (kept4 m ρ hR) pre2 (by decide) c).trans (bigSep_W0 _)) (owesIn fun _ => Or.inl trivial)).trans fupd_intro
  hin c := gIn (hbmPts2_eq (V4 m ρ hR) c) ((tabHeld m (kept4 m ρ hR) pre2 (by decide) c).trans (bigSep_W0 _))
  hout c := gOut
  hexit c := (gExit (Pipeline.unscopedBufs_held c _) (Pipeline.unscopedBufs_of_arrays (p := 2) _ _ winFacts2 arr_whole2 c (pdats m ρ hR)
    (Dat.share_full _ fun _ => rfl) _ _ _ (hF2 m ρ hR c) (hrest2 m ρ hR c)) (Pipeline.unscopedRest_sdiff spec2 H2 H2_sub c _) owesOut).trans fupd_intro

def reg3 : Pipeline.RegionSeg pcfgs (adm m) (pdats m ρ hR) () defs₀ 𝒱₀ L lv 3 where
  win := winFacts3.to₀
  block_pos := block_pos3
  stage_whole := stage_whole3
  K := Fin 1
  osem := osem3
  ho := ownSemFacts3
  hbody c := (body_obligation3 (V6 m ρ hR) (adm3 m) (tabOk3 m ρ hR) c).loose
  hwaits := Pipeline.hwaits_of_owed_zero _ _ _ _ L lv 3 fun _ _ => rfl
  pre c := iprop(StableHlo.held c.tc (Pipeline.ucRefs τ sig) (W6 m ρ hR c) ∗ R c)
  post c := iprop(StableHlo.held c.tc (Pipeline.ucRefs τ sig) (W7 m ρ hR c) ∗ R c)
  X c := iprop((∃ r, prngReg c r) ∗ Pipeline.ownSems0 osem3 c ∗ pt (V6 m ρ hR) c main_v37)
  Y c := iprop((∃ r, prngReg c r) ∗ bigSep H3 (pt (V6 m ρ hR) c))
  Z c := bigSep (Pipeline.restRefs sig spec3 \ H3) (pt (V6 m ρ hR) c)
  hentry c := (gEntry (Pipeline.unscopedBufs_held c _) (Pipeline.arrays_of_unscopedBufs (p := 3) _ _ (pdats m ρ hR) winFacts3 arr_whole3 c
    (Dat.share_full _ fun _ => rfl) (V6 m ρ hR c) fun _ => rfl) (Pipeline.unscopedRest_sdiff spec3 H3 H3_sub c _) (hbmPts3_eq (V6 m ρ hR) c)
    ((tabHeld m (kept6 m ρ hR) pre3 (by decide) c).trans (bigSep_W0 _)) (owesIn fun _ => Or.inl trivial)).trans fupd_intro
  hin c := gIn (hbmPts3_eq (V6 m ρ hR) c) ((tabHeld m (kept6 m ρ hR) pre3 (by decide) c).trans (bigSep_W0 _))
  hout c := gOut
  hexit c := (gExit (Pipeline.unscopedBufs_held c _) (Pipeline.unscopedBufs_of_arrays (p := 3) _ _ winFacts3 arr_whole3 c (pdats m ρ hR)
    (Dat.share_full _ fun _ => rfl) _ _ _ (hF3 m ρ hR c) (hrest3 m ρ hR c)) (Pipeline.unscopedRest_sdiff spec3 H3 H3_sub c _) owesOut).trans fupd_intro

def reg4 : Pipeline.RegionSeg pcfgs (adm m) (pdats m ρ hR) () defs₀ 𝒱₀ L lv 4 where
  win := winFacts4.to₀
  block_pos := block_pos4
  stage_whole := stage_whole4
  K := PEmpty
  osem k := k.elim
  ho := Pipeline.OwnSemFacts.none _
  hbody c := (body_obligation4 (V8 m ρ hR) c).loose
  hwaits := Pipeline.hwaits_of_owed_zero _ _ _ _ L lv 4 fun _ _ => rfl
  pre c := iprop(StableHlo.held c.tc (Pipeline.ucRefs τ sig) (W8 m ρ hR c) ∗ R c)
  post c := iprop(StableHlo.held c.tc (Pipeline.ucRefs τ sig) (W9 m ρ hR c) ∗ R c)
  X c := iprop(∃ r, prngReg c r)
  Y c := iprop(∃ r, prngReg c r)
  Z c := Pipeline.unscopedRest spec4 c (V8 m ρ hR c)
  hentry c := (lEntry (Pipeline.unscopedBufs_held c _) (Pipeline.arrays_of_unscopedBufs (p := 4) _ _ (pdats m ρ hR) winFacts4 arr_whole4 c
    (Dat.share_full _ fun _ => rfl) (V8 m ρ hR c) fun _ => rfl) BI.bigSep_empty (owesIn fun _ => Or.inl trivial)).trans fupd_intro
  hin c := lIn
  hout c := lOut (Pipeline.ownSems0_none ..)
  hexit c := (lExit (Pipeline.unscopedBufs_held c _) (Pipeline.unscopedBufs_of_arrays (p := 4) _ _ winFacts4 arr_whole4 c (pdats m ρ hR)
    (Dat.share_full _ fun _ => rfl) _ _ _ (hF4 m ρ hR c) (hrest4 m ρ hR c)) owesOut .rfl).trans fupd_intro

def reg5 : Pipeline.RegionSeg pcfgs (adm m) (pdats m ρ hR) () defs₀ 𝒱₀ L lv 5 where
  win := winFacts5.to₀
  block_pos := block_pos5
  stage_whole := stage_whole5
  K := Fin 1
  osem := osem5
  ho := ownSemFacts5
  hbody c := (body_obligation5 (V9 m ρ hR) (adm5 m) (tabOk5 m ρ hR) c).loose
  hwaits := Pipeline.hwaits_of_owed_zero _ _ _ _ L lv 5 fun _ _ => rfl
  pre c := iprop(StableHlo.held c.tc (Pipeline.ucRefs τ sig) (W9 m ρ hR c) ∗ R c)
  post c := iprop(StableHlo.held c.tc (Pipeline.ucRefs τ sig) (W10 m ρ hR c) ∗ R c)
  X c := iprop((∃ r, prngReg c r) ∗ Pipeline.ownSems0 osem5 c ∗ pt (V9 m ρ hR) c main_v40)
  Y c := iprop((∃ r, prngReg c r) ∗ bigSep H5 (pt (V9 m ρ hR) c))
  Z c := bigSep (Pipeline.restRefs sig spec5 \ H5) (pt (V9 m ρ hR) c)
  hentry c := (gEntry (Pipeline.unscopedBufs_held c _) (Pipeline.arrays_of_unscopedBufs (p := 5) _ _ (pdats m ρ hR) winFacts5 arr_whole5 c
    (Dat.share_full _ fun _ => rfl) (V9 m ρ hR c) fun _ => rfl) (Pipeline.unscopedRest_sdiff spec5 H5 H5_sub c _) (hbmPts5_eq (V9 m ρ hR) c)
    ((tabHeld m (kept9 m ρ hR) pre5 (by decide) c).trans (bigSep_W0 _)) (owesIn fun _ => Or.inl trivial)).trans fupd_intro
  hin c := gIn (hbmPts5_eq (V9 m ρ hR) c) ((tabHeld m (kept9 m ρ hR) pre5 (by decide) c).trans (bigSep_W0 _))
  hout c := gOut
  hexit c := (gExit (Pipeline.unscopedBufs_held c _) (Pipeline.unscopedBufs_of_arrays (p := 5) _ _ winFacts5 arr_whole5 c (pdats m ρ hR)
    (Dat.share_full _ fun _ => rfl) _ _ _ (hF5 m ρ hR c) (hrest5 m ρ hR c)) (Pipeline.unscopedRest_sdiff spec5 H5 H5_sub c _) owesOut).trans fupd_intro

def reg6 : Pipeline.RegionSeg pcfgs (adm m) (pdats m ρ hR) () defs₀ 𝒱₀ L lv 6 where
  win := winFacts6.to₀
  block_pos := block_pos6
  stage_whole := stage_whole6
  K := PEmpty
  osem k := k.elim
  ho := Pipeline.OwnSemFacts.none _
  hbody c := (body_obligation6 (V10 m ρ hR) c).loose
  hwaits := Pipeline.hwaits_of_owed_zero _ _ _ _ L lv 6 fun _ _ => rfl
  pre c := iprop(StableHlo.held c.tc (Pipeline.ucRefs τ sig) (W10 m ρ hR c) ∗ R c)
  post c := iprop(Tₙ m ρ hR c ∗ ∃ W, owes c.tc (0 : CellTallies nD τ sig Unit) W)
  X c := iprop(∃ r, prngReg c r)
  Y c := iprop(∃ r, prngReg c r)
  Z c := Pipeline.unscopedRest spec6 c (V10 m ρ hR c)
  hentry c := (lEntry (Pipeline.unscopedBufs_held c _) (Pipeline.arrays_of_unscopedBufs (p := 6) _ _ (pdats m ρ hR) winFacts6 arr_whole6 c
    (Dat.share_full _ fun _ => rfl) (V10 m ρ hR c) fun _ => rfl) BI.bigSep_empty (owesIn fun _ => Or.inl trivial)).trans fupd_intro
  hin c := lIn
  hout c := lOut (Pipeline.ownSems0_none ..)
  hexit c := (lExit (Pipeline.unscopedBufs_held c _) (Pipeline.unscopedBufs_of_arrays (p := 6) _ _ winFacts6 arr_whole6 c (pdats m ρ hR)
    (Dat.share_full _ fun _ => rfl) _ _ _ (hF6 m ρ hR c) (hrest6 m ρ hR c)) owesOut sep_assoc.2).trans fupd_intro

end Cert.Kernel.Hand

end
-- ==== Proof.Kernel.Run.lean ====
import proofs.«407256_j33208687133423_1_alg».proof.Proof.Kernel.Run.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

variable (hR : Ranges m)

abbrev segs : List (Pipeline.Seg (pcfgs (F := F)) (adm m) (pdats m ρ hR) () defs₀ 𝒱₀ L lv) :=
  [ .host (hseg hostOps0 hostOps0_sub hostOps0_fresh (W0 m ρ)),
    .region (reg0 m ρ hR),
    .host (hseg hostOps1 hostOps1_sub hostOps1_fresh (W2 m ρ hR)),
    .region (reg1 m ρ hR),
    .region (reg2 m ρ hR),
    .host (hseg hostOps3 hostOps3_sub hostOps3_fresh (W5 m ρ hR)),
    .region (reg3 m ρ hR),
    .host (hseg hostOps4 hostOps4_sub hostOps4_fresh (W7 m ρ hR)),
    .region (reg4 m ρ hR),
    .region (reg5 m ρ hR),
    .region (reg6 m ρ hR) ]

theorem main_run (c : Dev nD) : main (F := F) c = Pipeline.Seg.run (segs m ρ hR) := (main_chain c).trans (by chain_rfl)

set_option backward.isDefEq.respectTransparency.types false in

/-- From a memory whose four tables are in range, every weakly fair execution of @main ends, nothing faulting, with every
    buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W11 m ρ hR c b) :=
  Pipeline.θ_run_regions_kit (pcfgs (F := F)) (adm m) (pdats m ρ hR) () (cellOf_inj (adm m)) embL defs₀ 𝒱₀ L lv m ρ main (segs m ρ hR)
    (fun c Q => by rw [main_run m ρ hR c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells (Pipeline.pin (pcfgs (F := F)) (adm m)) (cellOf_inj (adm m))) (Pipeline.launchToks (Pipeline.pin (pcfgs (F := F)) (adm m)) (cellOf_inj (adm m))), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ hR)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ hR c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ hR c) s')
      isplitl [Hh] <;> iassumption)
    (hQ := fun s h => h)

/-- The result array ends at the last boundary's contents and every argument array as launched. -/
theorem run_value : θ_run defs (onTc (τ := τ) (main (F := F))) ⟨m, fun _ => 0, ρ⟩ (fun r => ∀ c : Dev nD,
      r.2.mem ((c.tc : Thread nD τ).loc main_v42) = W11 m ρ hR c (Proc.devRef .tc main_v42)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨h c _ (mem_uc main_v42 (by decide)),
      (h c _ (mem_uc main_arg0 (by decide))).trans (kept11 m ρ hR c _ (by decide)),
      (h c _ (mem_uc main_arg1 (by decide))).trans (kept11 m ρ hR c _ (by decide)),
      (h c _ (mem_uc main_arg2 (by decide))).trans (kept11 m ρ hR c _ (by decide)),
      (h c _ (mem_uc main_arg3 (by decide))).trans (kept11 m ρ hR c _ (by decide)),
      (h c _ (mem_uc main_arg4 (by decide))).trans (kept11 m ρ hR c _ (by decide)),
      (h c _ (mem_uc main_arg5 (by decide))).trans (kept11 m ρ hR c _ (by decide)),
      (h c _ (mem_uc main_arg6 (by decide))).trans (kept11 m ρ hR c _ (by decide)),
      (h c _ (mem_uc main_arg7 (by decide))).trans (kept11 m ρ hR c _ (by decide)),
      (h c _ (mem_uc main_arg8 (by decide))).trans (kept11 m ρ hR c _ (by decide)),
      (h c _ (mem_uc main_arg9 (by decide))).trans (kept11 m ρ hR c _ (by decide)),
      (h c _ (mem_uc main_arg10 (by decide))).trans (kept11 m ρ hR c _ (by decide))⟩) (run_all m ρ hR)

include hR in

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => (h c).2) (run_value m ρ hR)

end Cert.Kernel.Hand

end
-- ==== Proof.KernelIdeal.Region0.lean ====
import proofs.«407256_j33208687133423_1_alg».proof.Proof.Rows
import proofs.«407256_j33208687133423_1_alg».proof.Proof.Gen.KernelIdeal.Launch
import proofs.«407256_j33208687133423_1_alg».proof.Proof.Gen.KernelIdeal.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.WholeRead

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

abbrev tbM0 : Memref sig .tc .smem S60000 .i32 := Memref.whole main_arg3
abbrev hbM0 : Memref sig .tc .hbm S100000x128 .f32 := Memref.whole main_v16
abbrev scM0 : Memref sig .tc .vmem S8x128 .f32 := Memref.whole cc0_scratch0
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- A word read from a table whose every entry is below the source's row count names a row of the source: each of the
    body's eight range conditions is this inequality. -/
theorem row_ok0 {arg1 : Memref sig .tc .smem S60000 .i32} (harg1 : arg1.IsWhole) (x0 : Vec F S60000 .i32)
    (hT : ∀ k, (x0 k : BitVec 32).toNat < 100000) (B : LoadRect S60000) (x : B.shape.Idx) (a : Fin 2) :
    (![(arg1.view.readAt (Elt F) B (harg1.unread x0) x : BitVec 32).toNat, 0] : Fin 2 → ℕ) a + S1x128.size a ≤ S100000x128.size a := by
  rw [Memref.IsWhole.readAt_unread harg1 x0 B x]
  have := hT (B.idx x)
  fin_cases a <;> simp <;> omega

set_option maxHeartbeats 4000000 in
/-- The body runs from any table whose every entry names a row of the source; `L` lists what it leaves in the output block. -/
noncomputable def kernelRun0 (c : Dev nD) (i : grid0.Coords) (arg1 : Memref sig .tc .smem S60000 .i32) (harg1 : arg1.IsWhole)
    (arg3 : Memref sig .tc .vmem S8x128 .f32) (harg3 : arg3.IsWhole) (arg4 : Memref sig .tc .vmem S8x128 .f32) (harg4 : arg4.IsWhole)
    (x0 : Vec F S60000 .i32) (hT : ∀ k, (x0 k : BitVec 32).toNat < 100000) (fh : HbBuf0 (F := F) c hbM0) :
    { L : List (View.Piece (Elt F) S8x128 .f32) //
      ∀ (W : Waits sig Unit) (K : PUnit → sProp 𝕄),
        iprop(owns (c : Thread nD τ) arg1 fullShare x0 ∗ (∃ d, owns (c : Thread nD τ) arg3 fullShare d) ∗ (∃ d, owns (c : Thread nD τ) arg4 fullShare d)
            ∗ semVal ((c : Thread nD τ), SemLoc.dma 2) 0 ∗ hbPt0 c hbM0 fh ∗ owes (c : Thread nD τ) 0 W
            ∗ (iprop(owns (c : Thread nD τ) arg1 fullShare x0 ∗ (∃ f, arg3.view.loc (c : Thread nD τ) ↦[arg3.view.set]{fullShare} arg3.view.writes (Elt F) f L)
                ∗ (∃ d, owns (c : Thread nD τ) arg4 fullShare d) ∗ semVal ((c : Thread nD τ), SemLoc.dma 2) 0 ∗ hbPt0 c hbM0 fh ∗ (∃ W', owes (c : Thread nD τ) 0 W')) -∗ K ⟨⟩))
          ⊢ wp frame (wpE (defs₀ (F := F)) Variants.none c none) Set.univ (cc0__gather_kernel i arg1 harg1 (Memref.whole main_v16) (Memref.isWhole_whole _) arg3 harg3 arg4 harg4 cc0_scratch1) K } := by
  refine ⟨?_, fun W K => ?run⟩
  case run =>
    simp only [cc0__gather_kernel_eq_skeleton]; unfold cc0__gather_kernel_skel
    simp only [k0_part1_eq_skeleton, k0_part2_eq_skeleton, k0_part3_eq_skeleton]
    unfold owns
    iintro ⟨⟨%f0, %hf0, H0⟩, ⟨%d1, %f1, -, H1⟩, ⟨%ds0, %fs0, -, HS0⟩, Hq0, Hh0, HW, Hk⟩
    obtain rfl := harg1.eq_unread hf0
    sl_exec (disch := sl_exact (row_ok0 harg1 x0 hT _ _))
    sl_unfold_words
    rw [Cert.Rows.rowsA_indep arg4 _ _ _ _ _ _ _ _ fs0 arg4.view.junk]
    sl_step
    iapply Hk
    isplitl [H0]
    · iexists _; isplitr; · ipureintro; exact harg1.read_unread _
      iexact H0
    isplitl [H1]; · iexists _; iexact H1
    isplitl [HS0]
    · iexists _, _; isplitr; swap; · iexact HS0
      ipureintro; rfl
    isplitl [Hq0]; · iexact Hq0
    isplitl [Hh0]; · iexact Hh0
    iexists _; iexact HW

end Cert.KernelIdeal.Hand

end
-- ==== Proof.KernelIdeal.Region0Dat.lean ====
import proofs.«407256_j33208687133423_1_alg».proof.Proof.KernelIdeal.Region0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
  (V : (c : Dev nD) → (b : Ref sig .tc) → Buf (Elt F) ((c : Thread nD τ).loc b)) (a : (pcfg0 (F := F)).Adm)

abbrev tbl0 (c : Dev nD) : Vec F S60000 .i32 := V c main_arg3

variable (hT : ∀ (c : Dev nD) (k : S60000.Idx), (tbl0 V c k : BitVec 32).toNat < 100000)

abbrev VO0 : View sig .tc .vmem S8x128 .f32 := (Memref.whole cc0_stg0_0 : Memref sig .tc .vmem S8x128 .f32).view

def out0 (c : Dev nD) (i : grid0.Coords) (arg1 : Memref sig .tc .smem S60000 .i32) (harg1 : arg1.IsWhole)
    (arg3 : Memref sig .tc .vmem S8x128 .f32) (harg3 : arg3.IsWhole) (arg4 : Memref sig .tc .vmem S8x128 .f32) (harg4 : arg4.IsWhole)
    (x0 : Vec F S60000 .i32) (hx : ∀ k, (x0 k : BitVec 32).toNat < 100000) (fh : HbBuf0 (F := F) c hbM0) : Vec F S8x128 .f32 :=
  VO0.read (Elt F) (VO0.writes (Elt F) VO0.junk (kernelRun0 c i arg1 harg1 arg3 harg3 arg4 harg4 x0 hx fh).1)

abbrev ms0 (t : Fin (cfg0 a).N) : Memref sig .tc .vmem S8x128 .f32 := spec0_0.stage ((cfg0 a).slots t 0)
abbrev hs0 (t : Fin (cfg0 a).N) : (ms0 a t).IsWhole := hstage0_0 (((cfg0 a).slots t 0).cast nbuf0_0)

def outsAt0 (c : Dev nD) (t : Fin (cfg0 a).N) : Vec F S8x128 .f32 :=
  out0 c ((cfg0 a).grid.coords t) tbM0 (Memref.isWhole_whole _) (ms0 a t) (hs0 a t) scM0 (Memref.isWhole_whole _) (tbl0 V c) (hT c) (V c main_v16)

abbrev osem0 : Fin 1 → SemLoc sig := fun _ => SemLoc.dma 2
theorem ownSemFacts0 : Pipeline.OwnSemFacts spec0 osem0 := by decide
def H0 : Finset (Ref sig .tc) := {main_v16, main_arg3}
theorem H0_sub : H0 ⊆ Pipeline.restRefs sig spec0 := by decide

def dat0 (c : Dev nD) : Dat τ (Elt F) Unit ℕ (Pipeline.UD sig nD τ) ℕ (cfg0 a) c where
  A w := V c (Pipeline.arrRef spec0 w)
  after w t := match w with
    | ⟨0, _⟩ => outsAt0 V a hT c t
  Φ _ := Pipeline.ΦD osem0 spec0 H0 V c
  q _ := fullShare
  owed _ := 0

theorem after0_out (c : Dev nD) (t : Fin (cfg0 a).N) : (dat0 V a hT c).after 0 t = outsAt0 V a hT c t := rfl

theorem hbmPts0_eq (c : Dev nD) :
    bigSep H0 (fun b => ((c : Thread nD τ).loc b) ↦{fullShare} V c b)
      = iprop(hbPt0 c hbM0 (V c main_v16) ∗ hbPt0 c tbM0 (V c main_arg3)) :=
  BI.bigSep_eq_bigSepL_of_eq [main_v16, main_arg3] (by decide) (by decide) _

theorem PhiD0_eq (c : Dev nD) :
    Pipeline.ΦD osem0 spec0 H0 V c
      = iprop(((∃ d, owns (c : Thread nD τ) scM0 fullShare d) ∗ Pipeline.scopedRestBut spec0 c [cc0_scratch0])
          ∗ (∃ r, prngReg c r) ∗ semVal ((c : Thread nD τ), SemLoc.dma 2) 0
          ∗ hbPt0 c hbM0 (V c main_v16) ∗ owns (c : Thread nD τ) tbM0 fullShare (tbl0 V c)) := by
  rw [Pipeline.ΦD_eq, scopedRest0_split, Pipeline.ownSems0_eq_of_list c osem0 [0] (by decide) (by decide), hbmPts0_eq]
  simp only [scM0, tbM0, hbPt0, owns_whole]; rfl

-- Every row the table names is in range, so the body's run leaves the output block at the pieces it wrote, whatever the block held.
theorem body_obligation0 (c : Dev nD) : BodyObligation (dat0 (F := F) V a hT c) (defs₀ (F := F)) Variants.none () Set.univ := fun t => by
  rw [bigSep_W0, bigSep_W0]
  change iprop(Pipeline.ΦD osem0 spec0 H0 V c ∗ Pipeline.owesWithin _ 0 _ ∗ ∃ d, owns _ _ _ _) ⊢ wp _ _ _ _ fun _ => iprop(Pipeline.ΦD osem0 spec0 H0 V c ∗ Pipeline.owesWithin _ 0 _ ∗ owns _ _ _ (outsAt0 V a hT c t))
  rw [PhiD0_eq]
  unfold Pipeline.owesWithin outsAt0 out0
  iintro ⟨⟨⟨HS0, HR⟩, Hg, Hq0, Hh0, Ht⟩, ⟨%W, -, HW⟩, ⟨%d, H0⟩⟩
  iapply ((kernelRun0 c ((cfg0 a).grid.coords t) tbM0 (Memref.isWhole_whole _) (ms0 a t) (hs0 a t) scM0 (Memref.isWhole_whole _) (tbl0 V c) (hT c) (V c main_v16)).2 W _)
  iframe
  isplitl [H0]; · iexists _; iexact H0
  iintro ⟨Ht, ⟨%e, H1⟩, HS0, Hq0, Hh0, ⟨%W', HW'⟩⟩
  iframe
  isplitl [HW']
  · iexists W'; isplitr; · ipureintro; exact fun _ _ => Or.inl trivial
    iexact HW'
  unfold owns; iexists _; isplitr
  swap; · iexact H1
  ipureintro; exact View.read_writes_of_cover _ _ _ _ _ (View.cover_of_tiledL _ S8x128.size (by sl_kernel_rfl))

end Cert.KernelIdeal.Hand

end
-- ==== Proof.KernelIdeal.Region1.lean ====
import proofs.«407256_j33208687133423_1_alg».proof.Proof.Gen.KernelIdeal.Launch
import proofs.«407256_j33208687133423_1_alg».proof.Proof.Gen.KernelIdeal.Skeleton
import proofs.«407256_j33208687133423_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

section Region1

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (Pipeline.UD sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

abbrev r1_x : Rect S2000x128 := Rect.unit (s := S2000x128) ![0, 0] S2000x128.size inb_S2000x128_S2000x128_0_0
abbrev r1_w : Rect S128x128 := Rect.unit (s := S128x128) ![0, 0] S128x128.size inb_S128x128_S128x128_0_0
abbrev r1_b : Rect S1x128 := Rect.unit (s := S1x128) ![0, 0] S1x128.size inb_S1x128_S1x128_0_0

def out1 (x0 : Vec F S2000x128 .f32) (x1 : Vec F S128x128 .f32) (x2 : Vec F S1x128 .f32) : Vec F S2000x128 .f32 :=
  View.canon [⟨r1_x, k1_pay1 (View.ld x0 r1_x) (View.ld x1 r1_w) (View.ld x2 r1_b)⟩]

theorem cover1_3 (p0 : Vec F S2000x128 .f32) (y : S2000x128.Idx) :
    ∃ pc ∈ ([⟨r1_x, p0⟩] : List (View.Piece (Elt F) S2000x128 .f32)), y ∈ pc.1.set :=
  View.cover_of_tiled [⟨r1_x, p0⟩] S2000x128.size (by rfl) y

set_option maxHeartbeats 1000000 in

theorem sound_kernel1 (c : Dev nD) (E : Set ℕ) (i : grid1.Coords)
    (arg1 : Memref sig .tc .vmem S2000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S2000x128 .f32) (harg4 : arg4.IsWhole)
    (x0 : Vec F S2000x128 .f32) (x1 : Vec F S128x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1 x0 x1 x2)) -∗ K ⟨⟩))
      ⊢ wp frame (wpE (defs₀ (F := F)) Variants.none c none) E (cc1__linear_kernel i arg1 harg1 arg2 harg2 arg3 harg3 arg4 harg4) K := by
  simp only [cc1__linear_kernel_eq_skeleton]; unfold cc1__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_out (c : Dev nD) (t : Fin cfg1.N) :
    (dat1 V c).after 3 t = out1 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_out]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation1 (c : Dev nD) : BodyObligation (dat1 (F := F) V c) (defs₀ (F := F)) Variants.none () Set.univ := fun t => by
  rw [bigSep_W1, bigSep_W1]
  exact sound_body1 V c t

end Region1

end Cert.KernelIdeal.Hand

end
-- ==== Proof.KernelIdeal.Region2.lean ====
import proofs.«407256_j33208687133423_1_alg».proof.Proof.Rows
import proofs.«407256_j33208687133423_1_alg».proof.Proof.Gen.KernelIdeal.Launch
import proofs.«407256_j33208687133423_1_alg».proof.Proof.Gen.KernelIdeal.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.WholeRead

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

abbrev tbM2 : Memref sig .tc .smem S100000 .i32 := Memref.whole main_arg4
abbrev hbM2 : Memref sig .tc .hbm S60000x128 .f32 := Memref.whole main_v19
abbrev scM2 : Memref sig .tc .vmem S8x128 .f32 := Memref.whole cc2_scratch0
abbrev HbBuf2 (c : Dev nD) {sp : Space} {S : Shape} {e : EltTy} (M : Memref sig .tc sp S e) : Type := Buf (Elt F) (M.view.loc (c : Thread nD τ))
abbrev hbPt2 (c : Dev nD) {sp : Space} {S : Shape} {e : EltTy} (M : Memref sig .tc sp S e) (f : HbBuf2 (F := F) c M) : sProp 𝕄 :=
  M.view.loc (c : Thread nD τ) ↦{fullShare} f

/-- A word read from a table whose every entry is below the source's row count names a row of the source: each of the
    body's eight range conditions is this inequality. -/
theorem row_ok2 {arg1 : Memref sig .tc .smem S100000 .i32} (harg1 : arg1.IsWhole) (x0 : Vec F S100000 .i32)
    (hT : ∀ k, (x0 k : BitVec 32).toNat < 60000) (B : LoadRect S100000) (x : B.shape.Idx) (a : Fin 2) :
    (![(arg1.view.readAt (Elt F) B (harg1.unread x0) x : BitVec 32).toNat, 0] : Fin 2 → ℕ) a + S1x128.size a ≤ S60000x128.size a := by
  rw [Memref.IsWhole.readAt_unread harg1 x0 B x]
  have := hT (B.idx x)
  fin_cases a <;> simp <;> omega

set_option maxHeartbeats 4000000 in
/-- The body runs from any table whose every entry names a row of the source; `L` lists what it leaves in the output block. -/
noncomputable def kernelRun2 (c : Dev nD) (i : grid2.Coords) (arg1 : Memref sig .tc .smem S100000 .i32) (harg1 : arg1.IsWhole)
    (arg3 : Memref sig .tc .vmem S8x128 .f32) (harg3 : arg3.IsWhole) (arg4 : Memref sig .tc .vmem S8x128 .f32) (harg4 : arg4.IsWhole)
    (x0 : Vec F S100000 .i32) (hT : ∀ k, (x0 k : BitVec 32).toNat < 60000) (fh : HbBuf2 (F := F) c hbM2) :
    { L : List (View.Piece (Elt F) S8x128 .f32) //
      ∀ (W : Waits sig Unit) (K : PUnit → sProp 𝕄),
        iprop(owns (c : Thread nD τ) arg1 fullShare x0 ∗ (∃ d, owns (c : Thread nD τ) arg3 fullShare d) ∗ (∃ d, owns (c : Thread nD τ) arg4 fullShare d)
            ∗ semVal ((c : Thread nD τ), SemLoc.dma 11) 0 ∗ hbPt2 c hbM2 fh ∗ owes (c : Thread nD τ) 0 W
            ∗ (iprop(owns (c : Thread nD τ) arg1 fullShare x0 ∗ (∃ f, arg3.view.loc (c : Thread nD τ) ↦[arg3.view.set]{fullShare} arg3.view.writes (Elt F) f L)
                ∗ (∃ d, owns (c : Thread nD τ) arg4 fullShare d) ∗ semVal ((c : Thread nD τ), SemLoc.dma 11) 0 ∗ hbPt2 c hbM2 fh ∗ (∃ W', owes (c : Thread nD τ) 0 W')) -∗ K ⟨⟩))
          ⊢ wp frame (wpE (defs₀ (F := F)) Variants.none c none) Set.univ (cc2__gather_kernel i arg1 harg1 (Memref.whole main_v19) (Memref.isWhole_whole _) arg3 harg3 arg4 harg4 cc2_scratch1) K } := by
  refine ⟨?_, fun W K => ?run⟩
  case run =>
    simp only [cc2__gather_kernel_eq_skeleton]; unfold cc2__gather_kernel_skel
    simp only [k2_part1_eq_skeleton, k2_part2_eq_skeleton, k2_part3_eq_skeleton]
    unfold owns
    iintro ⟨⟨%f0, %hf0, H2⟩, ⟨%d1, %f1, -, H1⟩, ⟨%ds0, %fs0, -, HS0⟩, Hq0, Hh0, HW, Hk⟩
    obtain rfl := harg1.eq_unread hf0
    sl_exec (disch := sl_exact (row_ok2 harg1 x0 hT _ _))
    sl_unfold_words
    rw [Cert.Rows.rowsA_indep arg4 _ _ _ _ _ _ _ _ fs0 arg4.view.junk]
    sl_step
    iapply Hk
    isplitl [H2]
    · iexists _; isplitr; · ipureintro; exact harg1.read_unread _
      iexact H2
    isplitl [H1]; · iexists _; iexact H1
    isplitl [HS0]
    · iexists _, _; isplitr; swap; · iexact HS0
      ipureintro; rfl
    isplitl [Hq0]; · iexact Hq0
    isplitl [Hh0]; · iexact Hh0
    iexists _; iexact HW

end Cert.KernelIdeal.Hand

end
-- ==== Proof.KernelIdeal.Region2Dat.lean ====
import proofs.«407256_j33208687133423_1_alg».proof.Proof.KernelIdeal.Region2

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
  (V : (c : Dev nD) → (b : Ref sig .tc) → Buf (Elt F) ((c : Thread nD τ).loc b)) (a : (pcfg2 (F := F)).Adm)

abbrev tbl2 (c : Dev nD) : Vec F S100000 .i32 := V c main_arg4

variable (hT : ∀ (c : Dev nD) (k : S100000.Idx), (tbl2 V c k : BitVec 32).toNat < 60000)

abbrev VO2 : View sig .tc .vmem S8x128 .f32 := (Memref.whole cc2_stg0_0 : Memref sig .tc .vmem S8x128 .f32).view

def out2 (c : Dev nD) (i : grid2.Coords) (arg1 : Memref sig .tc .smem S100000 .i32) (harg1 : arg1.IsWhole)
    (arg3 : Memref sig .tc .vmem S8x128 .f32) (harg3 : arg3.IsWhole) (arg4 : Memref sig .tc .vmem S8x128 .f32) (harg4 : arg4.IsWhole)
    (x0 : Vec F S100000 .i32) (hx : ∀ k, (x0 k : BitVec 32).toNat < 60000) (fh : HbBuf2 (F := F) c hbM2) : Vec F S8x128 .f32 :=
  VO2.read (Elt F) (VO2.writes (Elt F) VO2.junk (kernelRun2 c i arg1 harg1 arg3 harg3 arg4 harg4 x0 hx fh).1)

abbrev ms2 (t : Fin (cfg2 a).N) : Memref sig .tc .vmem S8x128 .f32 := spec2_0.stage ((cfg2 a).slots t 0)
abbrev hs2 (t : Fin (cfg2 a).N) : (ms2 a t).IsWhole := hstage2_0 (((cfg2 a).slots t 0).cast nbuf2_0)

def outsAt2 (c : Dev nD) (t : Fin (cfg2 a).N) : Vec F S8x128 .f32 :=
  out2 c ((cfg2 a).grid.coords t) tbM2 (Memref.isWhole_whole _) (ms2 a t) (hs2 a t) scM2 (Memref.isWhole_whole _) (tbl2 V c) (hT c) (V c main_v19)

abbrev osem2 : Fin 1 → SemLoc sig := fun _ => SemLoc.dma 11
theorem ownSemFacts2 : Pipeline.OwnSemFacts spec2 osem2 := by decide
def H2 : Finset (Ref sig .tc) := {main_v19, main_arg4}
theorem H2_sub : H2 ⊆ Pipeline.restRefs sig spec2 := by decide

def dat2 (c : Dev nD) : Dat τ (Elt F) Unit ℕ (Pipeline.UD sig nD τ) ℕ (cfg2 a) c where
  A w := V c (Pipeline.arrRef spec2 w)
  after w t := match w with
    | ⟨0, _⟩ => outsAt2 V a hT c t
  Φ _ := Pipeline.ΦD osem2 spec2 H2 V c
  q _ := fullShare
  owed _ := 0

theorem after2_out (c : Dev nD) (t : Fin (cfg2 a).N) : (dat2 V a hT c).after 0 t = outsAt2 V a hT c t := rfl

theorem hbmPts2_eq (c : Dev nD) :
    bigSep H2 (fun b => ((c : Thread nD τ).loc b) ↦{fullShare} V c b)
      = iprop(hbPt2 c hbM2 (V c main_v19) ∗ hbPt2 c tbM2 (V c main_arg4)) :=
  BI.bigSep_eq_bigSepL_of_eq [main_v19, main_arg4] (by decide) (by decide) _

theorem PhiD2_eq (c : Dev nD) :
    Pipeline.ΦD osem2 spec2 H2 V c
      = iprop(((∃ d, owns (c : Thread nD τ) scM2 fullShare d) ∗ Pipeline.scopedRestBut spec2 c [cc2_scratch0])
          ∗ (∃ r, prngReg c r) ∗ semVal ((c : Thread nD τ), SemLoc.dma 11) 0
          ∗ hbPt2 c hbM2 (V c main_v19) ∗ owns (c : Thread nD τ) tbM2 fullShare (tbl2 V c)) := by
  rw [Pipeline.ΦD_eq, scopedRest2_split, Pipeline.ownSems0_eq_of_list c osem2 [0] (by decide) (by decide), hbmPts2_eq]
  simp only [scM2, tbM2, hbPt2, owns_whole]; rfl

-- Every row the table names is in range, so the body's run leaves the output block at the pieces it wrote, whatever the block held.
theorem body_obligation2 (c : Dev nD) : BodyObligation (dat2 (F := F) V a hT c) (defs₀ (F := F)) Variants.none () Set.univ := fun t => by
  rw [bigSep_W2, bigSep_W2]
  change iprop(Pipeline.ΦD osem2 spec2 H2 V c ∗ Pipeline.owesWithin _ 0 _ ∗ ∃ d, owns _ _ _ _) ⊢ wp _ _ _ _ fun _ => iprop(Pipeline.ΦD osem2 spec2 H2 V c ∗ Pipeline.owesWithin _ 0 _ ∗ owns _ _ _ (outsAt2 V a hT c t))
  rw [PhiD2_eq]
  unfold Pipeline.owesWithin outsAt2 out2
  iintro ⟨⟨⟨HS0, HR⟩, Hg, Hq0, Hh0, Ht⟩, ⟨%W, -, HW⟩, ⟨%d, H2⟩⟩
  iapply ((kernelRun2 c ((cfg2 a).grid.coords t) tbM2 (Memref.isWhole_whole _) (ms2 a t) (hs2 a t) scM2 (Memref.isWhole_whole _) (tbl2 V c) (hT c) (V c main_v19)).2 W _)
  iframe
  isplitl [H2]; · iexists _; iexact H2
  iintro ⟨Ht, ⟨%e, H1⟩, HS0, Hq0, Hh0, ⟨%W', HW'⟩⟩
  iframe
  isplitl [HW']
  · iexists W'; isplitr; · ipureintro; exact fun _ _ => Or.inl trivial
    iexact HW'
  unfold owns; iexists _; isplitr
  swap; · iexact H1
  ipureintro; exact View.read_writes_of_cover _ _ _ _ _ (View.cover_of_tiledL _ S8x128.size (by sl_kernel_rfl))

end Cert.KernelIdeal.Hand

end
-- ==== Proof.KernelIdeal.Region3.lean ====
import proofs.«407256_j33208687133423_1_alg».proof.Proof.Rows
import proofs.«407256_j33208687133423_1_alg».proof.Proof.Gen.KernelIdeal.Launch
import proofs.«407256_j33208687133423_1_alg».proof.Proof.Gen.KernelIdeal.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.WholeRead

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

abbrev tbM3 : Memref sig .tc .smem S60000 .i32 := Memref.whole main_arg5
abbrev hbM3 : Memref sig .tc .hbm S100000x128 .f32 := Memref.whole main_v37
abbrev scM3 : Memref sig .tc .vmem S8x128 .f32 := Memref.whole cc3_scratch0
abbrev HbBuf3 (c : Dev nD) {sp : Space} {S : Shape} {e : EltTy} (M : Memref sig .tc sp S e) : Type := Buf (Elt F) (M.view.loc (c : Thread nD τ))
abbrev hbPt3 (c : Dev nD) {sp : Space} {S : Shape} {e : EltTy} (M : Memref sig .tc sp S e) (f : HbBuf3 (F := F) c M) : sProp 𝕄 :=
  M.view.loc (c : Thread nD τ) ↦{fullShare} f

/-- A word read from a table whose every entry is below the source's row count names a row of the source: each of the
    body's eight range conditions is this inequality. -/
theorem row_ok3 {arg1 : Memref sig .tc .smem S60000 .i32} (harg1 : arg1.IsWhole) (x0 : Vec F S60000 .i32)
    (hT : ∀ k, (x0 k : BitVec 32).toNat < 100000) (B : LoadRect S60000) (x : B.shape.Idx) (a : Fin 2) :
    (![(arg1.view.readAt (Elt F) B (harg1.unread x0) x : BitVec 32).toNat, 0] : Fin 2 → ℕ) a + S1x128.size a ≤ S100000x128.size a := by
  rw [Memref.IsWhole.readAt_unread harg1 x0 B x]
  have := hT (B.idx x)
  fin_cases a <;> simp <;> omega

set_option maxHeartbeats 4000000 in
/-- The body runs from any table whose every entry names a row of the source; `L` lists what it leaves in the output block. -/
noncomputable def kernelRun3 (c : Dev nD) (i : grid3.Coords) (arg1 : Memref sig .tc .smem S60000 .i32) (harg1 : arg1.IsWhole)
    (arg3 : Memref sig .tc .vmem S8x128 .f32) (harg3 : arg3.IsWhole) (arg4 : Memref sig .tc .vmem S8x128 .f32) (harg4 : arg4.IsWhole)
    (x0 : Vec F S60000 .i32) (hT : ∀ k, (x0 k : BitVec 32).toNat < 100000) (fh : HbBuf3 (F := F) c hbM3) :
    { L : List (View.Piece (Elt F) S8x128 .f32) //
      ∀ (W : Waits sig Unit) (K : PUnit → sProp 𝕄),
        iprop(owns (c : Thread nD τ) arg1 fullShare x0 ∗ (∃ d, owns (c : Thread nD τ) arg3 fullShare d) ∗ (∃ d, owns (c : Thread nD τ) arg4 fullShare d)
            ∗ semVal ((c : Thread nD τ), SemLoc.dma 14) 0 ∗ hbPt3 c hbM3 fh ∗ owes (c : Thread nD τ) 0 W
            ∗ (iprop(owns (c : Thread nD τ) arg1 fullShare x0 ∗ (∃ f, arg3.view.loc (c : Thread nD τ) ↦[arg3.view.set]{fullShare} arg3.view.writes (Elt F) f L)
                ∗ (∃ d, owns (c : Thread nD τ) arg4 fullShare d) ∗ semVal ((c : Thread nD τ), SemLoc.dma 14) 0 ∗ hbPt3 c hbM3 fh ∗ (∃ W', owes (c : Thread nD τ) 0 W')) -∗ K ⟨⟩))
          ⊢ wp frame (wpE (defs₀ (F := F)) Variants.none c none) Set.univ (cc3__gather_kernel i arg1 harg1 (Memref.whole main_v37) (Memref.isWhole_whole _) arg3 harg3 arg4 harg4 cc3_scratch1) K } := by
  refine ⟨?_, fun W K => ?run⟩
  case run =>
    simp only [cc3__gather_kernel_eq_skeleton]; unfold cc3__gather_kernel_skel
    simp only [k3_part1_eq_skeleton, k3_part2_eq_skeleton, k3_part3_eq_skeleton]
    unfold owns
    iintro ⟨⟨%f0, %hf0, H3⟩, ⟨%d1, %f1, -, H1⟩, ⟨%ds0, %fs0, -, HS0⟩, Hq0, Hh0, HW, Hk⟩
    obtain rfl := harg1.eq_unread hf0
    sl_exec (disch := sl_exact (row_ok3 harg1 x0 hT _ _))
    sl_unfold_words
    rw [Cert.Rows.rowsA_indep arg4 _ _ _ _ _ _ _ _ fs0 arg4.view.junk]
    sl_step
    iapply Hk
    isplitl [H3]
    · iexists _; isplitr; · ipureintro; exact harg1.read_unread _
      iexact H3
    isplitl [H1]; · iexists _; iexact H1
    isplitl [HS0]
    · iexists _, _; isplitr; swap; · iexact HS0
      ipureintro; rfl
    isplitl [Hq0]; · iexact Hq0
    isplitl [Hh0]; · iexact Hh0
    iexists _; iexact HW

end Cert.KernelIdeal.Hand

end
-- ==== Proof.KernelIdeal.Region3Dat.lean ====
import proofs.«407256_j33208687133423_1_alg».proof.Proof.KernelIdeal.Region3

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
  (V : (c : Dev nD) → (b : Ref sig .tc) → Buf (Elt F) ((c : Thread nD τ).loc b)) (a : (pcfg3 (F := F)).Adm)

abbrev tbl3 (c : Dev nD) : Vec F S60000 .i32 := V c main_arg5

variable (hT : ∀ (c : Dev nD) (k : S60000.Idx), (tbl3 V c k : BitVec 32).toNat < 100000)

abbrev VO3 : View sig .tc .vmem S8x128 .f32 := (Memref.whole cc3_stg0_0 : Memref sig .tc .vmem S8x128 .f32).view

def out3 (c : Dev nD) (i : grid3.Coords) (arg1 : Memref sig .tc .smem S60000 .i32) (harg1 : arg1.IsWhole)
    (arg3 : Memref sig .tc .vmem S8x128 .f32) (harg3 : arg3.IsWhole) (arg4 : Memref sig .tc .vmem S8x128 .f32) (harg4 : arg4.IsWhole)
    (x0 : Vec F S60000 .i32) (hx : ∀ k, (x0 k : BitVec 32).toNat < 100000) (fh : HbBuf3 (F := F) c hbM3) : Vec F S8x128 .f32 :=
  VO3.read (Elt F) (VO3.writes (Elt F) VO3.junk (kernelRun3 c i arg1 harg1 arg3 harg3 arg4 harg4 x0 hx fh).1)

abbrev ms3 (t : Fin (cfg3 a).N) : Memref sig .tc .vmem S8x128 .f32 := spec3_0.stage ((cfg3 a).slots t 0)
abbrev hs3 (t : Fin (cfg3 a).N) : (ms3 a t).IsWhole := hstage3_0 (((cfg3 a).slots t 0).cast nbuf3_0)

def outsAt3 (c : Dev nD) (t : Fin (cfg3 a).N) : Vec F S8x128 .f32 :=
  out3 c ((cfg3 a).grid.coords t) tbM3 (Memref.isWhole_whole _) (ms3 a t) (hs3 a t) scM3 (Memref.isWhole_whole _) (tbl3 V c) (hT c) (V c main_v37)

abbrev osem3 : Fin 1 → SemLoc sig := fun _ => SemLoc.dma 14
theorem ownSemFacts3 : Pipeline.OwnSemFacts spec3 osem3 := by decide
def H3 : Finset (Ref sig .tc) := {main_v37, main_arg5}
theorem H3_sub : H3 ⊆ Pipeline.restRefs sig spec3 := by decide

def dat3 (c : Dev nD) : Dat τ (Elt F) Unit ℕ (Pipeline.UD sig nD τ) ℕ (cfg3 a) c where
  A w := V c (Pipeline.arrRef spec3 w)
  after w t := match w with
    | ⟨0, _⟩ => outsAt3 V a hT c t
  Φ _ := Pipeline.ΦD osem3 spec3 H3 V c
  q _ := fullShare
  owed _ := 0

theorem after3_out (c : Dev nD) (t : Fin (cfg3 a).N) : (dat3 V a hT c).after 0 t = outsAt3 V a hT c t := rfl

theorem hbmPts3_eq (c : Dev nD) :
    bigSep H3 (fun b => ((c : Thread nD τ).loc b) ↦{fullShare} V c b)
      = iprop(hbPt3 c hbM3 (V c main_v37) ∗ hbPt3 c tbM3 (V c main_arg5)) :=
  BI.bigSep_eq_bigSepL_of_eq [main_v37, main_arg5] (by decide) (by decide) _

theorem PhiD3_eq (c : Dev nD) :
    Pipeline.ΦD osem3 spec3 H3 V c
      = iprop(((∃ d, owns (c : Thread nD τ) scM3 fullShare d) ∗ Pipeline.scopedRestBut spec3 c [cc3_scratch0])
          ∗ (∃ r, prngReg c r) ∗ semVal ((c : Thread nD τ), SemLoc.dma 14) 0
          ∗ hbPt3 c hbM3 (V c main_v37) ∗ owns (c : Thread nD τ) tbM3 fullShare (tbl3 V c)) := by
  rw [Pipeline.ΦD_eq, scopedRest3_split, Pipeline.ownSems0_eq_of_list c osem3 [0] (by decide) (by decide), hbmPts3_eq]
  simp only [scM3, tbM3, hbPt3, owns_whole]; rfl

-- Every row the table names is in range, so the body's run leaves the output block at the pieces it wrote, whatever the block held.
theorem body_obligation3 (c : Dev nD) : BodyObligation (dat3 (F := F) V a hT c) (defs₀ (F := F)) Variants.none () Set.univ := fun t => by
  rw [bigSep_W3, bigSep_W3]
  change iprop(Pipeline.ΦD osem3 spec3 H3 V c ∗ Pipeline.owesWithin _ 0 _ ∗ ∃ d, owns _ _ _ _) ⊢ wp _ _ _ _ fun _ => iprop(Pipeline.ΦD osem3 spec3 H3 V c ∗ Pipeline.owesWithin _ 0 _ ∗ owns _ _ _ (outsAt3 V a hT c t))
  rw [PhiD3_eq]
  unfold Pipeline.owesWithin outsAt3 out3
  iintro ⟨⟨⟨HS0, HR⟩, Hg, Hq0, Hh0, Ht⟩, ⟨%W, -, HW⟩, ⟨%d, H3⟩⟩
  iapply ((kernelRun3 c ((cfg3 a).grid.coords t) tbM3 (Memref.isWhole_whole _) (ms3 a t) (hs3 a t) scM3 (Memref.isWhole_whole _) (tbl3 V c) (hT c) (V c main_v37)).2 W _)
  iframe
  isplitl [H3]; · iexists _; iexact H3
  iintro ⟨Ht, ⟨%e, H1⟩, HS0, Hq0, Hh0, ⟨%W', HW'⟩⟩
  iframe
  isplitl [HW']
  · iexists W'; isplitr; · ipureintro; exact fun _ _ => Or.inl trivial
    iexact HW'
  unfold owns; iexists _; isplitr
  swap; · iexact H1
  ipureintro; exact View.read_writes_of_cover _ _ _ _ _ (View.cover_of_tiledL _ S8x128.size (by sl_kernel_rfl))

end Cert.KernelIdeal.Hand

end
-- ==== Proof.KernelIdeal.Region4.lean ====
import proofs.«407256_j33208687133423_1_alg».proof.Proof.Gen.KernelIdeal.Launch
import proofs.«407256_j33208687133423_1_alg».proof.Proof.Gen.KernelIdeal.Skeleton
import proofs.«407256_j33208687133423_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

section Region4

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem before4_0_of {c : Dev nD} (dat : Dat τ (Elt F) Unit ℕ (Pipeline.UD sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

theorem before4_1_of {c : Dev nD} (dat : Dat τ (Elt F) Unit ℕ (Pipeline.UD sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

theorem before4_2_of {c : Dev nD} (dat : Dat τ (Elt F) Unit ℕ (Pipeline.UD sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

abbrev r4_0 : Rect S2000x128 := Rect.unit (s := S2000x128) ![0, 0] S2000x128.size inb_S2000x128_S2000x128_0_0
abbrev r4_1 : Rect S128x64 := Rect.unit (s := S128x64) ![0, 0] S128x64.size inb_S128x64_S128x64_0_0
abbrev r4_2 : Rect S1x64 := Rect.unit (s := S1x64) ![0, 0] S1x64.size inb_S1x64_S1x64_0_0
abbrev r4_3 : Rect S2000x64 := Rect.unit (s := S2000x64) ![0, 0] S2000x64.size inb_S2000x64_S2000x64_0_0

def out4 (x0 : Vec F S2000x128 .f32) (x1 : Vec F S128x64 .f32) (x2 : Vec F S1x64 .f32) : Vec F S2000x64 .f32 :=
  View.canon [⟨r4_3, k4_pay1 (View.ld x0 r4_0) (View.ld x1 r4_1) (View.ld x2 r4_2)⟩]

theorem cover4 (p : Vec F S2000x64 .f32) (y : S2000x64.Idx) :
    ∃ pc ∈ ([⟨r4_3, p⟩] : List (View.Piece (Elt F) S2000x64 .f32)), y ∈ pc.1.set :=
  View.cover_of_tiled [⟨r4_3, p⟩] S2000x64.size (by rfl) y

set_option maxHeartbeats 1000000 in

theorem sound_kernel4 (c : Dev nD) (E : Set ℕ) (i : grid4.Coords)
    (arg1 : Memref sig .tc .vmem S2000x128 .f32) (harg1 : arg1.IsWhole) (arg2 : Memref sig .tc .vmem S128x64 .f32) (harg2 : arg2.IsWhole)
    (arg3 : Memref sig .tc .vmem S1x64 .f32) (harg3 : arg3.IsWhole) (arg4 : Memref sig .tc .vmem S2000x64 .f32) (harg4 : arg4.IsWhole)
    (x0 : Vec F S2000x128 .f32) (x1 : Vec F S128x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out4 x0 x1 x2)) -∗ K ⟨⟩))
      ⊢ wp frame (wpE (defs₀ (F := F)) Variants.none c none) E (cc4__linear_kernel i arg1 harg1 arg2 harg2 arg3 harg3 arg4 harg4) K := by
  simp only [cc4__linear_kernel_eq_skeleton]; unfold cc4__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover4 _)

def dat4 (c : Dev nD) : Dat τ (Elt F) Unit ℕ (Pipeline.UD sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4 (iblk4 V c 0 t) (iblk4 V c 1 t) (iblk4 V c 2 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_out (c : Dev nD) (t : Fin cfg4.N) :
    (dat4 V c).after 3 t = out4 (iblk4 V c 0 t) (iblk4 V c 1 t) (iblk4 V c 2 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_out]
  iintro ⟨HΦ, Ho, ⟨%d0, H0⟩, ⟨%d1, H1⟩, ⟨%d2, H2⟩, ⟨%d3, H3⟩⟩
  iapply (sound_kernel4 c Set.univ (grid4.coords t) _ _ _ _ _ _ _ _ (iblk4 V c 0 t) (iblk4 V c 1 t) (iblk4 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation4 (c : Dev nD) : BodyObligation (dat4 (F := F) V c) (defs₀ (F := F)) Variants.none () Set.univ := fun t => by
  rw [bigSep_W4, bigSep_W4]
  exact sound_body4 V c t

end Region4

end Cert.KernelIdeal.Hand

end
-- ==== Proof.KernelIdeal.Region5.lean ====
import proofs.«407256_j33208687133423_1_alg».proof.Proof.Rows64
import proofs.«407256_j33208687133423_1_alg».proof.Proof.Gen.KernelIdeal.Launch
import proofs.«407256_j33208687133423_1_alg».proof.Proof.Gen.KernelIdeal.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.WholeRead

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

abbrev tbM5 : Memref sig .tc .smem S100000 .i32 := Memref.whole main_arg6
abbrev hbM5 : Memref sig .tc .hbm S60000x64 .f32 := Memref.whole main_v40
abbrev scM5 : Memref sig .tc .vmem S8x64 .f32 := Memref.whole cc5_scratch0
abbrev HbBuf5 (c : Dev nD) {sp : Space} {S : Shape} {e : EltTy} (M : Memref sig .tc sp S e) : Type := Buf (Elt F) (M.view.loc (c : Thread nD τ))
abbrev hbPt5 (c : Dev nD) {sp : Space} {S : Shape} {e : EltTy} (M : Memref sig .tc sp S e) (f : HbBuf5 (F := F) c M) : sProp 𝕄 :=
  M.view.loc (c : Thread nD τ) ↦{fullShare} f

/-- A word read from a table whose every entry is below the source's row count names a row of the source: each of the
    body's eight range conditions is this inequality. -/
theorem row_ok5 {arg1 : Memref sig .tc .smem S100000 .i32} (harg1 : arg1.IsWhole) (x0 : Vec F S100000 .i32)
    (hT : ∀ k, (x0 k : BitVec 32).toNat < 60000) (B : LoadRect S100000) (x : B.shape.Idx) (a : Fin 2) :
    (![(arg1.view.readAt (Elt F) B (harg1.unread x0) x : BitVec 32).toNat, 0] : Fin 2 → ℕ) a + S1x64.size a ≤ S60000x64.size a := by
  rw [Memref.IsWhole.readAt_unread harg1 x0 B x]
  have := hT (B.idx x)
  fin_cases a <;> simp <;> omega

set_option maxHeartbeats 4000000 in
/-- The body runs from any table whose every entry names a row of the source; `L` lists what it leaves in the output block. -/
noncomputable def kernelRun5 (c : Dev nD) (i : grid5.Coords) (arg1 : Memref sig .tc .smem S100000 .i32) (harg1 : arg1.IsWhole)
    (arg3 : Memref sig .tc .vmem S8x64 .f32) (harg3 : arg3.IsWhole) (arg4 : Memref sig .tc .vmem S8x64 .f32) (harg4 : arg4.IsWhole)
    (x0 : Vec F S100000 .i32) (hT : ∀ k, (x0 k : BitVec 32).toNat < 60000) (fh : HbBuf5 (F := F) c hbM5) :
    { L : List (View.Piece (Elt F) S8x64 .f32) //
      ∀ (W : Waits sig Unit) (K : PUnit → sProp 𝕄),
        iprop(owns (c : Thread nD τ) arg1 fullShare x0 ∗ (∃ d, owns (c : Thread nD τ) arg3 fullShare d) ∗ (∃ d, owns (c : Thread nD τ) arg4 fullShare d)
            ∗ semVal ((c : Thread nD τ), SemLoc.dma 23) 0 ∗ hbPt5 c hbM5 fh ∗ owes (c : Thread nD τ) 0 W
            ∗ (iprop(owns (c : Thread nD τ) arg1 fullShare x0 ∗ (∃ f, arg3.view.loc (c : Thread nD τ) ↦[arg3.view.set]{fullShare} arg3.view.writes (Elt F) f L)
                ∗ (∃ d, owns (c : Thread nD τ) arg4 fullShare d) ∗ semVal ((c : Thread nD τ), SemLoc.dma 23) 0 ∗ hbPt5 c hbM5 fh ∗ (∃ W', owes (c : Thread nD τ) 0 W')) -∗ K ⟨⟩))
          ⊢ wp frame (wpE (defs₀ (F := F)) Variants.none c none) Set.univ (cc5__gather_kernel i arg1 harg1 (Memref.whole main_v40) (Memref.isWhole_whole _) arg3 harg3 arg4 harg4 cc5_scratch1) K } := by
  refine ⟨?_, fun W K => ?run⟩
  case run =>
    simp only [cc5__gather_kernel_eq_skeleton]; unfold cc5__gather_kernel_skel
    simp only [k5_part1_eq_skeleton, k5_part2_eq_skeleton, k5_part3_eq_skeleton]
    unfold owns
    iintro ⟨⟨%f0, %hf0, H5⟩, ⟨%d1, %f1, -, H1⟩, ⟨%ds0, %fs0, -, HS0⟩, Hq0, Hh0, HW, Hk⟩
    obtain rfl := harg1.eq_unread hf0
    sl_exec (disch := sl_exact (row_ok5 harg1 x0 hT _ _))
    sl_unfold_words
    rw [Cert.Rows.rowsB_indep arg4 _ _ _ _ _ _ _ _ fs0 arg4.view.junk]
    sl_step
    iapply Hk
    isplitl [H5]
    · iexists _; isplitr; · ipureintro; exact harg1.read_unread _
      iexact H5
    isplitl [H1]; · iexists _; iexact H1
    isplitl [HS0]
    · iexists _, _; isplitr; swap; · iexact HS0
      ipureintro; rfl
    isplitl [Hq0]; · iexact Hq0
    isplitl [Hh0]; · iexact Hh0
    iexists _; iexact HW

end Cert.KernelIdeal.Hand

end
-- ==== Proof.KernelIdeal.Region5Dat.lean ====
import proofs.«407256_j33208687133423_1_alg».proof.Proof.KernelIdeal.Region5

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
  (V : (c : Dev nD) → (b : Ref sig .tc) → Buf (Elt F) ((c : Thread nD τ).loc b)) (a : (pcfg5 (F := F)).Adm)

abbrev tbl5 (c : Dev nD) : Vec F S100000 .i32 := V c main_arg6

variable (hT : ∀ (c : Dev nD) (k : S100000.Idx), (tbl5 V c k : BitVec 32).toNat < 60000)

abbrev VO5 : View sig .tc .vmem S8x64 .f32 := (Memref.whole cc5_stg0_0 : Memref sig .tc .vmem S8x64 .f32).view

def out5 (c : Dev nD) (i : grid5.Coords) (arg1 : Memref sig .tc .smem S100000 .i32) (harg1 : arg1.IsWhole)
    (arg3 : Memref sig .tc .vmem S8x64 .f32) (harg3 : arg3.IsWhole) (arg4 : Memref sig .tc .vmem S8x64 .f32) (harg4 : arg4.IsWhole)
    (x0 : Vec F S100000 .i32) (hx : ∀ k, (x0 k : BitVec 32).toNat < 60000) (fh : HbBuf5 (F := F) c hbM5) : Vec F S8x64 .f32 :=
  VO5.read (Elt F) (VO5.writes (Elt F) VO5.junk (kernelRun5 c i arg1 harg1 arg3 harg3 arg4 harg4 x0 hx fh).1)

abbrev ms5 (t : Fin (cfg5 a).N) : Memref sig .tc .vmem S8x64 .f32 := spec5_0.stage ((cfg5 a).slots t 0)
abbrev hs5 (t : Fin (cfg5 a).N) : (ms5 a t).IsWhole := hstage5_0 (((cfg5 a).slots t 0).cast nbuf5_0)

def outsAt5 (c : Dev nD) (t : Fin (cfg5 a).N) : Vec F S8x64 .f32 :=
  out5 c ((cfg5 a).grid.coords t) tbM5 (Memref.isWhole_whole _) (ms5 a t) (hs5 a t) scM5 (Memref.isWhole_whole _) (tbl5 V c) (hT c) (V c main_v40)

abbrev osem5 : Fin 1 → SemLoc sig := fun _ => SemLoc.dma 23
theorem ownSemFacts5 : Pipeline.OwnSemFacts spec5 osem5 := by decide
def H5 : Finset (Ref sig .tc) := {main_v40, main_arg6}
theorem H5_sub : H5 ⊆ Pipeline.restRefs sig spec5 := by decide

def dat5 (c : Dev nD) : Dat τ (Elt F) Unit ℕ (Pipeline.UD sig nD τ) ℕ (cfg5 a) c where
  A w := V c (Pipeline.arrRef spec5 w)
  after w t := match w with
    | ⟨0, _⟩ => outsAt5 V a hT c t
  Φ _ := Pipeline.ΦD osem5 spec5 H5 V c
  q _ := fullShare
  owed _ := 0

theorem after5_out (c : Dev nD) (t : Fin (cfg5 a).N) : (dat5 V a hT c).after 0 t = outsAt5 V a hT c t := rfl

theorem hbmPts5_eq (c : Dev nD) :
    bigSep H5 (fun b => ((c : Thread nD τ).loc b) ↦{fullShare} V c b)
      = iprop(hbPt5 c hbM5 (V c main_v40) ∗ hbPt5 c tbM5 (V c main_arg6)) :=
  BI.bigSep_eq_bigSepL_of_eq [main_v40, main_arg6] (by decide) (by decide) _

theorem PhiD5_eq (c : Dev nD) :
    Pipeline.ΦD osem5 spec5 H5 V c
      = iprop(((∃ d, owns (c : Thread nD τ) scM5 fullShare d) ∗ Pipeline.scopedRestBut spec5 c [cc5_scratch0])
          ∗ (∃ r, prngReg c r) ∗ semVal ((c : Thread nD τ), SemLoc.dma 23) 0
          ∗ hbPt5 c hbM5 (V c main_v40) ∗ owns (c : Thread nD τ) tbM5 fullShare (tbl5 V c)) := by
  rw [Pipeline.ΦD_eq, scopedRest5_split, Pipeline.ownSems0_eq_of_list c osem5 [0] (by decide) (by decide), hbmPts5_eq]
  simp only [scM5, tbM5, hbPt5, owns_whole]; rfl

-- Every row the table names is in range, so the body's run leaves the output block at the pieces it wrote, whatever the block held.
theorem body_obligation5 (c : Dev nD) : BodyObligation (dat5 (F := F) V a hT c) (defs₀ (F := F)) Variants.none () Set.univ := fun t => by
  rw [bigSep_W5, bigSep_W5]
  change iprop(Pipeline.ΦD osem5 spec5 H5 V c ∗ Pipeline.owesWithin _ 0 _ ∗ ∃ d, owns _ _ _ _) ⊢ wp _ _ _ _ fun _ => iprop(Pipeline.ΦD osem5 spec5 H5 V c ∗ Pipeline.owesWithin _ 0 _ ∗ owns _ _ _ (outsAt5 V a hT c t))
  rw [PhiD5_eq]
  unfold Pipeline.owesWithin outsAt5 out5
  iintro ⟨⟨⟨HS0, HR⟩, Hg, Hq0, Hh0, Ht⟩, ⟨%W, -, HW⟩, ⟨%d, H5⟩⟩
  iapply ((kernelRun5 c ((cfg5 a).grid.coords t) tbM5 (Memref.isWhole_whole _) (ms5 a t) (hs5 a t) scM5 (Memref.isWhole_whole _) (tbl5 V c) (hT c) (V c main_v40)).2 W _)
  iframe
  isplitl [H5]; · iexists _; iexact H5
  iintro ⟨Ht, ⟨%e, H1⟩, HS0, Hq0, Hh0, ⟨%W', HW'⟩⟩
  iframe
  isplitl [HW']
  · iexists W'; isplitr; · ipureintro; exact fun _ _ => Or.inl trivial
    iexact HW'
  unfold owns; iexists _; isplitr
  swap; · iexact H1
  ipureintro; exact View.read_writes_of_cover _ _ _ _ _ (View.cover_of_tiledL _ S8x64.size (by sl_kernel_rfl))

end Cert.KernelIdeal.Hand

end
-- ==== Proof.KernelIdeal.Region6.lean ====
import proofs.«407256_j33208687133423_1_alg».proof.Proof.Gen.KernelIdeal.Launch
import proofs.«407256_j33208687133423_1_alg».proof.Proof.Gen.KernelIdeal.Skeleton
import proofs.«407256_j33208687133423_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

theorem before6_0_of {c : Dev nD} (dat : Dat τ (Elt F) Unit ℕ (Pipeline.UD sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

abbrev r6_0 : Rect S2000x64 := Rect.unit (s := S2000x64) ![0, 0] S2000x64.size inb_S2000x64_S2000x64_0_0

def out6 (x0 : Vec F S2000x64 .f32) : Vec F S2000x64 .f32 :=
  View.canon [⟨r6_0, k6_pay1 (View.ld x0 r6_0)⟩]

theorem cover6 (p0 : Vec F S2000x64 .f32) (y : S2000x64.Idx) :
    ∃ pc ∈ ([⟨r6_0, p0⟩] : List (View.Piece (Elt F) S2000x64 .f32)), y ∈ pc.1.set :=
  View.cover_of_tiled [⟨r6_0, p0⟩] S2000x64.size (by rfl) y

set_option maxHeartbeats 1000000 in

theorem sound_kernel6 (c : Dev nD) (E : Set ℕ) (i : grid6.Coords) (arg1 : Memref sig .tc .vmem S2000x64 .f32) (harg1 : arg1.IsWhole) (arg2 : Memref sig .tc .vmem S2000x64 .f32) (harg2 : arg2.IsWhole)
    (x0 : Vec F S2000x64 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out6 x0)) -∗ K ⟨⟩))
      ⊢ wp frame (wpE (defs₀ (F := F)) Variants.none c none) E (cc6__log_softmax_kernel i arg1 harg1 arg2 harg2) K := by
  simp only [cc6__log_softmax_kernel_eq_skeleton]; unfold cc6__log_softmax_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover6 _)

def dat6 (c : Dev nD) : Dat τ (Elt F) Unit ℕ (Pipeline.UD sig nD τ) ℕ cfg6 c where
  A w := V c (Pipeline.arrRef spec6 w)
  after w t := match w with
    | ⟨0, _⟩ => iblk6 V c 0 t
    | ⟨1, _⟩ => out6 (iblk6 V c 0 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_out (c : Dev nD) (t : Fin cfg6.N) : (dat6 V c).after 1 t = out6 (iblk6 V c 0 t) := by dsimp only [dat6]

theorem before6_0 (c : Dev nD) (t : Fin cfg6.N) (d) : (dat6 V c).before 0 t d = iblk6 V c 0 t :=
  before6_0_of V (dat6 V c) (A_eq6 V c 0) (after6_0 V c) t d

def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d)))

def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t))

theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0]
  rw [show (dat6 V c).Φ t.succ = (dat6 V c).Φ t.castSucc from rfl,
    show (dat6 V c).owesAt () t.succ = (dat6 V c).owesAt () t.castSucc from rfl,
    after6_0, after6_out]
  iintro ⟨HΦ, Ho, ⟨%d0, H0⟩, ⟨%d1, H1⟩⟩
  iapply (sound_kernel6 c Set.univ (grid6.coords t) _ _ _ _ (iblk6 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation6 (c : Dev nD) : BodyObligation (dat6 (F := F) V c) (defs₀ (F := F)) Variants.none () Set.univ := fun t => by
  rw [bigSep_W6, bigSep_W6]
  exact sound_body6 V c t

end Cert.KernelIdeal.Hand

end
-- ==== Proof.KernelIdeal.Run.Fold.lean ====
import proofs.«407256_j33208687133423_1_alg».proof.Proof.KernelIdeal.Region0Dat
import proofs.«407256_j33208687133423_1_alg».proof.Proof.KernelIdeal.Region1
import proofs.«407256_j33208687133423_1_alg».proof.Proof.KernelIdeal.Region2Dat
import proofs.«407256_j33208687133423_1_alg».proof.Proof.KernelIdeal.Region3Dat
import proofs.«407256_j33208687133423_1_alg».proof.Proof.KernelIdeal.Region4
import proofs.«407256_j33208687133423_1_alg».proof.Proof.KernelIdeal.Region5Dat
import proofs.«407256_j33208687133423_1_alg».proof.Proof.KernelIdeal.Region6
import proofs.«407256_j33208687133423_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

abbrev adm0 : (pcfg0 (F := F)).Adm := ⟨fun j => m (((0 : Dev nD) : Thread nD τ).loc (pre0.ref j)), trivial⟩

abbrev adm2 : (pcfg2 (F := F)).Adm := ⟨fun j => m (((0 : Dev nD) : Thread nD τ).loc (pre2.ref j)), trivial⟩

abbrev adm3 : (pcfg3 (F := F)).Adm := ⟨fun j => m (((0 : Dev nD) : Thread nD τ).loc (pre3.ref j)), trivial⟩

abbrev adm5 : (pcfg5 (F := F)).Adm := ⟨fun j => m (((0 : Dev nD) : Thread nD τ).loc (pre5.ref j)), trivial⟩

abbrev adm : (p : Fin 7) → (pcfgs (F := F) p).Adm
  | ⟨0, _⟩ => adm0 m
  | ⟨1, _⟩ => cfg1.toPCfg_adm
  | ⟨2, _⟩ => adm2 m
  | ⟨3, _⟩ => adm3 m
  | ⟨4, _⟩ => cfg4.toPCfg_adm
  | ⟨5, _⟩ => adm5 m
  | ⟨6, _⟩ => cfg6.toPCfg_adm

abbrev W0 : Dev nD → Valuation τ sig (Elt F) := fun c b => (s₀ m ρ).mem ((c : Dev nD), b)

/-- The program's eleven argument buffers. -/
abbrev args : List (Ref sig .tc) :=
  [main_arg0, main_arg1, main_arg2, main_arg3, main_arg4, main_arg5, main_arg6, main_arg7, main_arg8, main_arg9, main_arg10]

/-- The contents `W` hold every argument buffer as launched. -/
def Kept (W : Dev nD → Valuation τ sig (Elt F)) : Prop :=
  ∀ (c : Dev nD) (b : Ref sig .tc), b ∈ args → W c (Proc.devRef .tc b) = m ((c : Thread nD τ).loc b)
variable {m} in

theorem Kept.after {W : Dev nD → Valuation τ sig (Elt F)} (h : Kept m W) (ops : List (HloOp τ sig (Elt F))) {L : List (Ref sig .tc)}
    (hL : ops.Forall fun op => op.writes ⊆ (L.map (Proc.devRef (τ := τ) .tc)).toFinset) (hd : ∀ b ∈ args, b ∉ L) :
    Kept m fun c => StableHlo.after ops (W c) :=
  fun c b hb => (StableHlo.after_of_writes_sub ops _ hL (hd b hb)).trans (h c b hb)
theorem kept0 : Kept m (W0 m ρ) := fun _ _ _ => rfl

/-- Every word of each of the four tables names a row of the matrix it indexes. -/
abbrev Ranges : Prop :=
  (∀ k : S60000.Idx, ((m (((0 : Dev nD) : Thread nD τ).loc main_arg3) : S60000.Idx → BitVec 32) k).toNat < 100000)
    ∧ (∀ k : S100000.Idx, ((m (((0 : Dev nD) : Thread nD τ).loc main_arg4) : S100000.Idx → BitVec 32) k).toNat < 60000)
    ∧ (∀ k : S60000.Idx, ((m (((0 : Dev nD) : Thread nD τ).loc main_arg5) : S60000.Idx → BitVec 32) k).toNat < 100000)
    ∧ (∀ k : S100000.Idx, ((m (((0 : Dev nD) : Thread nD τ).loc main_arg6) : S100000.Idx → BitVec 32) k).toNat < 60000)
variable (hR : Ranges m)

abbrev W1 : Dev nD → Valuation τ sig (Elt F) := fun c => StableHlo.after hostOps0 (W0 m ρ c)
theorem kept1 : Kept m (W1 m ρ) := (kept0 m ρ).after hostOps0 hostOps0_writes (by decide)

abbrev V1 : (c : Dev nD) → (b : Ref sig .tc) → Buf (Elt F) ((c : Thread nD τ).loc b) := fun c b => W1 m ρ c b
include hR in

theorem tabOk0 (c : Dev nD) (k : S60000.Idx) : (tbl0 (V1 m ρ) c k : BitVec 32).toNat < 100000 := by
  have e : (tbl0 (V1 m ρ) c k : BitVec 32) = (m (((0 : Dev nD) : Thread nD τ).loc main_arg3) : S60000.Idx → BitVec 32) k := by
    obtain rfl : c = 0 := Subsingleton.elim _ _
    exact congrFun (kept1 m ρ 0 main_arg3 (by decide)) k
  rw [e]; exact hR.1 k

def W2 (c : Dev nD) : Valuation τ sig (Elt F) :=
  Pipeline.withArrays spec0 c (W1 m ρ c) fun w => (dat0 (V1 m ρ) (adm0 m) (tabOk0 m ρ hR) c).arrAt w (cfg0 (adm0 m)).N
theorem W2_arr (c : Dev nD) (w : Fin (cfg0 (adm0 m)).W) :
    W2 m ρ hR c (Proc.devRef .tc (Pipeline.arrRef spec0 w)) = (dat0 (V1 m ρ) (adm0 m) (tabOk0 m ρ hR) c).arrAt w (cfg0 (adm0 m)).N := by
  unfold W2; exact Pipeline.withArrays_arr spec0 winFacts0.arr_inj c _ _ w
theorem W2_of_ne (c : Dev nD) (b : Ref sig .tc) (hb : ∀ w, Pipeline.arrRef spec0 w ≠ b) :
    W2 m ρ hR c (Proc.devRef .tc b) = W1 m ρ c (Proc.devRef .tc b) := by
  unfold W2; exact Pipeline.withArrays_of_ne spec0 c _ _ b hb

abbrev X0 : (c : Dev nD) → (b : Ref sig .tc) → Buf (Elt F) ((c : Thread nD τ).loc b) := fun c b => W2 m ρ hR c b

theorem hF0 (c : Dev nD) (w : Fin (cfg0 (adm0 m)).W) : (dat0 (V1 m ρ) (adm0 m) (tabOk0 m ρ hR) c).arrAt w (cfg0 (adm0 m)).N = X0 m ρ hR c (Pipeline.arrRef spec0 w) :=
  (W2_arr m ρ hR c w).symm
theorem hrest0 (c : Dev nD) : ∀ b, b ∉ Finset.univ.image (Pipeline.arrRef spec0) → X0 m ρ hR c b = V1 m ρ c b :=
  fun b hb => W2_of_ne m ρ hR c b fun w e => hb (Finset.mem_image.mpr ⟨w, Finset.mem_univ _, e⟩)
theorem kept2 : Kept m (W2 m ρ hR) := fun c b hb =>
  (W2_of_ne m ρ hR c b ((by decide : ∀ b ∈ args, ∀ w, Pipeline.arrRef spec0 w ≠ b) b hb)).trans (kept1 m ρ c b hb)

abbrev W3 : Dev nD → Valuation τ sig (Elt F) := fun c => StableHlo.after hostOps1 (W2 m ρ hR c)
theorem kept3 : Kept m (W3 m ρ hR) := (kept2 m ρ hR).after hostOps1 hostOps1_writes (by decide)

abbrev V3 : (c : Dev nD) → (b : Ref sig .tc) → Buf (Elt F) ((c : Thread nD τ).loc b) := fun c b => W3 m ρ hR c b

def W4 (c : Dev nD) : Valuation τ sig (Elt F) :=
  Pipeline.withArrays spec1 c (W3 m ρ hR c) fun w => (dat1 (V3 m ρ hR) c).arrAt w cfg1.N
theorem W4_arr (c : Dev nD) (w : Fin cfg1.W) :
    W4 m ρ hR c (Proc.devRef .tc (Pipeline.arrRef spec1 w)) = (dat1 (V3 m ρ hR) c).arrAt w cfg1.N := by
  unfold W4; exact Pipeline.withArrays_arr spec1 winFacts1.arr_inj c _ _ w
theorem W4_of_ne (c : Dev nD) (b : Ref sig .tc) (hb : ∀ w, Pipeline.arrRef spec1 w ≠ b) :
    W4 m ρ hR c (Proc.devRef .tc b) = W3 m ρ hR c (Proc.devRef .tc b) := by
  unfold W4; exact Pipeline.withArrays_of_ne spec1 c _ _ b hb

abbrev X1 : (c : Dev nD) → (b : Ref sig .tc) → Buf (Elt F) ((c : Thread nD τ).loc b) := fun c b => W4 m ρ hR c b

theorem hF1 (c : Dev nD) (w : Fin cfg1.W) : (dat1 (V3 m ρ hR) c).arrAt w cfg1.N = X1 m ρ hR c (Pipeline.arrRef spec1 w) :=
  (W4_arr m ρ hR c w).symm
theorem hrest1 (c : Dev nD) : ∀ b, b ∉ Finset.univ.image (Pipeline.arrRef spec1) → X1 m ρ hR c b = V3 m ρ hR c b :=
  fun b hb => W4_of_ne m ρ hR c b fun w e => hb (Finset.mem_image.mpr ⟨w, Finset.mem_univ _, e⟩)

/-- The first weight matrix is read, never written. -/
theorem kept4 : Kept m (W4 m ρ hR) := fun c b hb => by
  by_cases h : b = main_arg7
  · subst h; exact ((W4_arr m ρ hR c 1).trans (((dat1 (V3 m ρ hR) c).arrAt_in 1 rfl _).trans (A_eq1 (V3 m ρ hR) c 1))).trans (kept3 m ρ hR c _ hb)
  · exact (W4_of_ne m ρ hR c b ((by decide : ∀ b ∈ args, b ≠ main_arg7 → ∀ w, Pipeline.arrRef spec1 w ≠ b) b hb h)).trans (kept3 m ρ hR c b hb)

abbrev V4 : (c : Dev nD) → (b : Ref sig .tc) → Buf (Elt F) ((c : Thread nD τ).loc b) := fun c b => W4 m ρ hR c b
include hR in

theorem tabOk2 (c : Dev nD) (k : S100000.Idx) : (tbl2 (V4 m ρ hR) c k : BitVec 32).toNat < 60000 := by
  have e : (tbl2 (V4 m ρ hR) c k : BitVec 32) = (m (((0 : Dev nD) : Thread nD τ).loc main_arg4) : S100000.Idx → BitVec 32) k := by
    obtain rfl : c = 0 := Subsingleton.elim _ _
    exact congrFun (kept4 m ρ hR 0 main_arg4 (by decide)) k
  rw [e]; exact hR.2.1 k

def W5 (c : Dev nD) : Valuation τ sig (Elt F) :=
  Pipeline.withArrays spec2 c (W4 m ρ hR c) fun w => (dat2 (V4 m ρ hR) (adm2 m) (tabOk2 m ρ hR) c).arrAt w (cfg2 (adm2 m)).N
theorem W5_arr (c : Dev nD) (w : Fin (cfg2 (adm2 m)).W) :
    W5 m ρ hR c (Proc.devRef .tc (Pipeline.arrRef spec2 w)) = (dat2 (V4 m ρ hR) (adm2 m) (tabOk2 m ρ hR) c).arrAt w (cfg2 (adm2 m)).N := by
  unfold W5; exact Pipeline.withArrays_arr spec2 winFacts2.arr_inj c _ _ w
theorem W5_of_ne (c : Dev nD) (b : Ref sig .tc) (hb : ∀ w, Pipeline.arrRef spec2 w ≠ b) :
    W5 m ρ hR c (Proc.devRef .tc b) = W4 m ρ hR c (Proc.devRef .tc b) := by
  unfold W5; exact Pipeline.withArrays_of_ne spec2 c _ _ b hb

abbrev X2 : (c : Dev nD) → (b : Ref sig .tc) → Buf (Elt F) ((c : Thread nD τ).loc b) := fun c b => W5 m ρ hR c b

theorem hF2 (c : Dev nD) (w : Fin (cfg2 (adm2 m)).W) : (dat2 (V4 m ρ hR) (adm2 m) (tabOk2 m ρ hR) c).arrAt w (cfg2 (adm2 m)).N = X2 m ρ hR c (Pipeline.arrRef spec2 w) :=
  (W5_arr m ρ hR c w).symm
theorem hrest2 (c : Dev nD) : ∀ b, b ∉ Finset.univ.image (Pipeline.arrRef spec2) → X2 m ρ hR c b = V4 m ρ hR c b :=
  fun b hb => W5_of_ne m ρ hR c b fun w e => hb (Finset.mem_image.mpr ⟨w, Finset.mem_univ _, e⟩)
theorem kept5 : Kept m (W5 m ρ hR) := fun c b hb =>
  (W5_of_ne m ρ hR c b ((by decide : ∀ b ∈ args, ∀ w, Pipeline.arrRef spec2 w ≠ b) b hb)).trans (kept4 m ρ hR c b hb)

abbrev W6 : Dev nD → Valuation τ sig (Elt F) := fun c => StableHlo.after hostOps3 (W5 m ρ hR c)
theorem kept6 : Kept m (W6 m ρ hR) := (kept5 m ρ hR).after hostOps3 hostOps3_writes (by decide)

abbrev V6 : (c : Dev nD) → (b : Ref sig .tc) → Buf (Elt F) ((c : Thread nD τ).loc b) := fun c b => W6 m ρ hR c b
include hR in

theorem tabOk3 (c : Dev nD) (k : S60000.Idx) : (tbl3 (V6 m ρ hR) c k : BitVec 32).toNat < 100000 := by
  have e : (tbl3 (V6 m ρ hR) c k : BitVec 32) = (m (((0 : Dev nD) : Thread nD τ).loc main_arg5) : S60000.Idx → BitVec 32) k := by
    obtain rfl : c = 0 := Subsingleton.elim _ _
    exact congrFun (kept6 m ρ hR 0 main_arg5 (by decide)) k
  rw [e]; exact hR.2.2.1 k

def W7 (c : Dev nD) : Valuation τ sig (Elt F) :=
  Pipeline.withArrays spec3 c (W6 m ρ hR c) fun w => (dat3 (V6 m ρ hR) (adm3 m) (tabOk3 m ρ hR) c).arrAt w (cfg3 (adm3 m)).N
theorem W7_arr (c : Dev nD) (w : Fin (cfg3 (adm3 m)).W) :
    W7 m ρ hR c (Proc.devRef .tc (Pipeline.arrRef spec3 w)) = (dat3 (V6 m ρ hR) (adm3 m) (tabOk3 m ρ hR) c).arrAt w (cfg3 (adm3 m)).N := by
  unfold W7; exact Pipeline.withArrays_arr spec3 winFacts3.arr_inj c _ _ w
theorem W7_of_ne (c : Dev nD) (b : Ref sig .tc) (hb : ∀ w, Pipeline.arrRef spec3 w ≠ b) :
    W7 m ρ hR c (Proc.devRef .tc b) = W6 m ρ hR c (Proc.devRef .tc b) := by
  unfold W7; exact Pipeline.withArrays_of_ne spec3 c _ _ b hb

abbrev X3 : (c : Dev nD) → (b : Ref sig .tc) → Buf (Elt F) ((c : Thread nD τ).loc b) := fun c b => W7 m ρ hR c b

theorem hF3 (c : Dev nD) (w : Fin (cfg3 (adm3 m)).W) : (dat3 (V6 m ρ hR) (adm3 m) (tabOk3 m ρ hR) c).arrAt w (cfg3 (adm3 m)).N = X3 m ρ hR c (Pipeline.arrRef spec3 w) :=
  (W7_arr m ρ hR c w).symm
theorem hrest3 (c : Dev nD) : ∀ b, b ∉ Finset.univ.image (Pipeline.arrRef spec3) → X3 m ρ hR c b = V6 m ρ hR c b :=
  fun b hb => W7_of_ne m ρ hR c b fun w e => hb (Finset.mem_image.mpr ⟨w, Finset.mem_univ _, e⟩)
theorem kept7 : Kept m (W7 m ρ hR) := fun c b hb =>
  (W7_of_ne m ρ hR c b ((by decide : ∀ b ∈ args, ∀ w, Pipeline.arrRef spec3 w ≠ b) b hb)).trans (kept6 m ρ hR c b hb)

abbrev W8 : Dev nD → Valuation τ sig (Elt F) := fun c => StableHlo.after hostOps4 (W7 m ρ hR c)
theorem kept8 : Kept m (W8 m ρ hR) := (kept7 m ρ hR).after hostOps4 hostOps4_writes (by decide)

abbrev V8 : (c : Dev nD) → (b : Ref sig .tc) → Buf (Elt F) ((c : Thread nD τ).loc b) := fun c b => W8 m ρ hR c b

def W9 (c : Dev nD) : Valuation τ sig (Elt F) :=
  Pipeline.withArrays spec4 c (W8 m ρ hR c) fun w => (dat4 (V8 m ρ hR) c).arrAt w cfg4.N
theorem W9_arr (c : Dev nD) (w : Fin cfg4.W) :
    W9 m ρ hR c (Proc.devRef .tc (Pipeline.arrRef spec4 w)) = (dat4 (V8 m ρ hR) c).arrAt w cfg4.N := by
  unfold W9; exact Pipeline.withArrays_arr spec4 winFacts4.arr_inj c _ _ w
theorem W9_of_ne (c : Dev nD) (b : Ref sig .tc) (hb : ∀ w, Pipeline.arrRef spec4 w ≠ b) :
    W9 m ρ hR c (Proc.devRef .tc b) = W8 m ρ hR c (Proc.devRef .tc b) := by
  unfold W9; exact Pipeline.withArrays_of_ne spec4 c _ _ b hb

abbrev X4 : (c : Dev nD) → (b : Ref sig .tc) → Buf (Elt F) ((c : Thread nD τ).loc b) := fun c b => W9 m ρ hR c b

theorem hF4 (c : Dev nD) (w : Fin cfg4.W) : (dat4 (V8 m ρ hR) c).arrAt w cfg4.N = X4 m ρ hR c (Pipeline.arrRef spec4 w) :=
  (W9_arr m ρ hR c w).symm
theorem hrest4 (c : Dev nD) : ∀ b, b ∉ Finset.univ.image (Pipeline.arrRef spec4) → X4 m ρ hR c b = V8 m ρ hR c b :=
  fun b hb => W9_of_ne m ρ hR c b fun w e => hb (Finset.mem_image.mpr ⟨w, Finset.mem_univ _, e⟩)

/-- The second weight matrix is read, never written. -/
theorem kept9 : Kept m (W9 m ρ hR) := fun c b hb => by
  by_cases h : b = main_arg9
  · subst h; exact ((W9_arr m ρ hR c 1).trans (((dat4 (V8 m ρ hR) c).arrAt_in 1 rfl _).trans (A_eq4 (V8 m ρ hR) c 1))).trans (kept8 m ρ hR c _ hb)
  · exact (W9_of_ne m ρ hR c b ((by decide : ∀ b ∈ args, b ≠ main_arg9 → ∀ w, Pipeline.arrRef spec4 w ≠ b) b hb h)).trans (kept8 m ρ hR c b hb)

abbrev V9 : (c : Dev nD) → (b : Ref sig .tc) → Buf (Elt F) ((c : Thread nD τ).loc b) := fun c b => W9 m ρ hR c b
include hR in

theorem tabOk5 (c : Dev nD) (k : S100000.Idx) : (tbl5 (V9 m ρ hR) c k : BitVec 32).toNat < 60000 := by
  have e : (tbl5 (V9 m ρ hR) c k : BitVec 32) = (m (((0 : Dev nD) : Thread nD τ).loc main_arg6) : S100000.Idx → BitVec 32) k := by
    obtain rfl : c = 0 := Subsingleton.elim _ _
    exact congrFun (kept9 m ρ hR 0 main_arg6 (by decide)) k
  rw [e]; exact hR.2.2.2 k

def W10 (c : Dev nD) : Valuation τ sig (Elt F) :=
  Pipeline.withArrays spec5 c (W9 m ρ hR c) fun w => (dat5 (V9 m ρ hR) (adm5 m) (tabOk5 m ρ hR) c).arrAt w (cfg5 (adm5 m)).N
theorem W10_arr (c : Dev nD) (w : Fin (cfg5 (adm5 m)).W) :
    W10 m ρ hR c (Proc.devRef .tc (Pipeline.arrRef spec5 w)) = (dat5 (V9 m ρ hR) (adm5 m) (tabOk5 m ρ hR) c).arrAt w (cfg5 (adm5 m)).N := by
  unfold W10; exact Pipeline.withArrays_arr spec5 winFacts5.arr_inj c _ _ w
theorem W10_of_ne (c : Dev nD) (b : Ref sig .tc) (hb : ∀ w, Pipeline.arrRef spec5 w ≠ b) :
    W10 m ρ hR c (Proc.devRef .tc b) = W9 m ρ hR c (Proc.devRef .tc b) := by
  unfold W10; exact Pipeline.withArrays_of_ne spec5 c _ _ b hb

abbrev X5 : (c : Dev nD) → (b : Ref sig .tc) → Buf (Elt F) ((c : Thread nD τ).loc b) := fun c b => W10 m ρ hR c b

theorem hF5 (c : Dev nD) (w : Fin (cfg5 (adm5 m)).W) : (dat5 (V9 m ρ hR) (adm5 m) (tabOk5 m ρ hR) c).arrAt w (cfg5 (adm5 m)).N = X5 m ρ hR c (Pipeline.arrRef spec5 w) :=
  (W10_arr m ρ hR c w).symm
theorem hrest5 (c : Dev nD) : ∀ b, b ∉ Finset.univ.image (Pipeline.arrRef spec5) → X5 m ρ hR c b = V9 m ρ hR c b :=
  fun b hb => W10_of_ne m ρ hR c b fun w e => hb (Finset.mem_image.mpr ⟨w, Finset.mem_univ _, e⟩)
theorem kept10 : Kept m (W10 m ρ hR) := fun c b hb =>
  (W10_of_ne m ρ hR c b ((by decide : ∀ b ∈ args, ∀ w, Pipeline.arrRef spec5 w ≠ b) b hb)).trans (kept9 m ρ hR c b hb)

abbrev V10 : (c : Dev nD) → (b : Ref sig .tc) → Buf (Elt F) ((c : Thread nD τ).loc b) := fun c b => W10 m ρ hR c b

def W11 (c : Dev nD) : Valuation τ sig (Elt F) :=
  Pipeline.withArrays spec6 c (W10 m ρ hR c) fun w => (dat6 (V10 m ρ hR) c).arrAt w cfg6.N
theorem W11_arr (c : Dev nD) (w : Fin cfg6.W) :
    W11 m ρ hR c (Proc.devRef .tc (Pipeline.arrRef spec6 w)) = (dat6 (V10 m ρ hR) c).arrAt w cfg6.N := by
  unfold W11; exact Pipeline.withArrays_arr spec6 winFacts6.arr_inj c _ _ w
theorem W11_of_ne (c : Dev nD) (b : Ref sig .tc) (hb : ∀ w, Pipeline.arrRef spec6 w ≠ b) :
    W11 m ρ hR c (Proc.devRef .tc b) = W10 m ρ hR c (Proc.devRef .tc b) := by
  unfold W11; exact Pipeline.withArrays_of_ne spec6 c _ _ b hb

abbrev X6 : (c : Dev nD) → (b : Ref sig .tc) → Buf (Elt F) ((c : Thread nD τ).loc b) := fun c b => W11 m ρ hR c b

theorem hF6 (c : Dev nD) (w : Fin cfg6.W) : (dat6 (V10 m ρ hR) c).arrAt w cfg6.N = X6 m ρ hR c (Pipeline.arrRef spec6 w) :=
  (W11_arr m ρ hR c w).symm
theorem hrest6 (c : Dev nD) : ∀ b, b ∉ Finset.univ.image (Pipeline.arrRef spec6) → X6 m ρ hR c b = V10 m ρ hR c b :=
  fun b hb => W11_of_ne m ρ hR c b fun w e => hb (Finset.mem_image.mpr ⟨w, Finset.mem_univ _, e⟩)
theorem kept11 : Kept m (W11 m ρ hR) := fun c b hb =>
  (W11_of_ne m ρ hR c b ((by decide : ∀ b ∈ args, ∀ w, Pipeline.arrRef spec6 w ≠ b) b hb)).trans (kept10 m ρ hR c b hb)

theorem V1_src (c : Dev nD) : V1 m ρ c main_v16 = StableHlo.after hostOps0 (W0 m ρ c) (Proc.devRef .tc main_v16) := rfl

theorem V3_x (c : Dev nD) : V3 m ρ hR c main_v17 = (dat0 (V1 m ρ) (adm0 m) (tabOk0 m ρ hR) c).arrAt 0 (cfg0 (adm0 m)).N :=
  (StableHlo.after_of_writes_sub hostOps1 _ hostOps1_writes (by decide)).trans (W2_arr m ρ hR c 0)
theorem V3_w (c : Dev nD) : V3 m ρ hR c main_arg7 = m ((c : Thread nD τ).loc main_arg7) := kept3 m ρ hR c main_arg7 (by decide)
theorem V3_b (c : Dev nD) : V3 m ρ hR c main_v18 = StableHlo.after hostOps1 (W2 m ρ hR c) (Proc.devRef .tc main_v18) := rfl

theorem V4_src (c : Dev nD) : V4 m ρ hR c main_v19 = (dat1 (V3 m ρ hR) c).arrAt 3 cfg1.N := W4_arr m ρ hR c 3

theorem W5_out (c : Dev nD) : W5 m ρ hR c (Proc.devRef .tc main_v20) = (dat2 (V4 m ρ hR) (adm2 m) (tabOk2 m ρ hR) c).arrAt 0 (cfg2 (adm2 m)).N := W5_arr m ρ hR c 0

theorem V6_src (c : Dev nD) : V6 m ρ hR c main_v37 = StableHlo.after hostOps3 (W5 m ρ hR c) (Proc.devRef .tc main_v37) := rfl

theorem V8_x (c : Dev nD) : V8 m ρ hR c main_v38 = (dat3 (V6 m ρ hR) (adm3 m) (tabOk3 m ρ hR) c).arrAt 0 (cfg3 (adm3 m)).N :=
  (StableHlo.after_of_writes_sub hostOps4 _ hostOps4_writes (by decide)).trans (W7_arr m ρ hR c 0)
theorem V8_w (c : Dev nD) : V8 m ρ hR c main_arg9 = m ((c : Thread nD τ).loc main_arg9) := kept8 m ρ hR c main_arg9 (by decide)
theorem V8_b (c : Dev nD) : V8 m ρ hR c main_v39 = StableHlo.after hostOps4 (W7 m ρ hR c) (Proc.devRef .tc main_v39) := rfl

theorem V9_src (c : Dev nD) : V9 m ρ hR c main_v40 = (dat4 (V8 m ρ hR) c).arrAt 3 cfg4.N := W9_arr m ρ hR c 3

theorem V10_x (c : Dev nD) : V10 m ρ hR c main_v41 = (dat5 (V9 m ρ hR) (adm5 m) (tabOk5 m ρ hR) c).arrAt 0 (cfg5 (adm5 m)).N := W10_arr m ρ hR c 0

theorem W11_out (c : Dev nD) : W11 m ρ hR c (Proc.devRef .tc main_v42) = (dat6 (V10 m ρ hR) c).arrAt 1 cfg6.N := W11_arr m ρ hR c 1

end Cert.KernelIdeal.Hand

end
-- ==== Proof.KernelIdeal.Run.Regions.lean ====
import proofs.«407256_j33208687133423_1_alg».proof.Proof.KernelIdeal.Run.Fold

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat)

variable {F : FTy → Type} [FloatOps F]

local notation "𝕄" => MT nD τ sig Unit (Elt F) ℕ (Pipeline.UD sig nD τ) ℕ

section
variable {M : Type} [URA M] {A B H S T P Z Pr O O' Os Lv Sc Ub Ub' Q : sProp M}

-- Entering or leaving a region only moves resources between the thread state, the invariant and what bypasses the region.
theorem gEntry (hU : Ub' = Ub) (hs : Ub' ⊢ iprop(A ∗ B)) (hB : B = iprop(H ∗ Z)) (hH : H = iprop(S ∗ T)) (hP : P = T) (hO : O ⊢ O') :
    iprop((Ub ∗ Pr ∗ O) ∗ Os ∗ Lv) ⊢ iprop(A ∗ P ∗ O' ∗ (Pr ∗ Os ∗ S) ∗ Z) := by
  subst hU hB hH hP
  iintro ⟨⟨Hub, Hp, HO⟩, Hos, -⟩
  icases hs $$ Hub with ⟨Ha, ⟨HS, HT⟩, HR⟩
  ihave HO := hO $$ HO
  iframe

theorem gIn (hH : H = iprop(S ∗ T)) (hP : P = T) : iprop((Pr ∗ Os ∗ S) ∗ P ∗ Sc) ⊢ iprop(Sc ∗ Pr ∗ Os ∗ H) := by
  subst hH hP; iintro ⟨⟨Hp, Ho, HS⟩, HT, Hr⟩; iframe

theorem gOut : iprop(Sc ∗ Pr ∗ Os ∗ H) ⊢ iprop((Pr ∗ H) ∗ Os ∗ Sc) := by
  iintro ⟨Hr, Hp, Ho, HH⟩; iframe

theorem gExit (hU : Ub' = Ub) (hj : iprop(A ∗ B) ⊢ Ub') (hB : B = iprop(H ∗ Z)) (hO : O' ⊢ O) :
    iprop(A ∗ O' ∗ (Pr ∗ H) ∗ Z) ⊢ iprop(Ub ∗ Pr ∗ O) := by
  subst hU hB
  iintro ⟨Ha, HO, ⟨HY, HH⟩, HR⟩
  ihave HO := hO $$ HO
  isplitl [Ha HH HR]
  · iapply hj; iframe
  iframe

theorem lEntry (hU : Ub' = Ub) (hs : Ub' ⊢ iprop(A ∗ B)) (hP : P = iprop(emp)) (hO : O ⊢ O') :
    iprop((Ub ∗ Pr ∗ O) ∗ Os ∗ Lv) ⊢ iprop(A ∗ P ∗ O' ∗ Pr ∗ B) := by
  subst hU hP
  iintro ⟨⟨Hub, Hp, HO⟩, -, -⟩
  icases hs $$ Hub with ⟨Ha, HR⟩
  ihave HO := hO $$ HO
  iframe

theorem lIn : iprop(Pr ∗ P ∗ Sc) ⊢ iprop(Sc ∗ Pr) := by
  iintro ⟨Hp, -, Hr⟩; iframe

theorem lOut (hOs : Os = iprop(emp)) : iprop(Sc ∗ Pr) ⊢ iprop(Pr ∗ Os ∗ Sc) := by
  subst hOs; iintro ⟨Hr, Hp⟩; iframe

theorem lExit (hU : Ub' = Ub) (hj : iprop(A ∗ B) ⊢ Ub') (hO : O' ⊢ O) (hQ : iprop(Ub ∗ Pr ∗ O) ⊢ Q) :
    iprop(A ∗ O' ∗ Pr ∗ B) ⊢ Q := by
  subst hU
  iintro ⟨Ha, HO, HY, HR⟩
  ihave HO := hO $$ HO
  iapply hQ
  isplitl [Ha HR]
  · iapply hj; iframe
  iframe

end

theorem owesIn {c : Dev nD} {B : Set (SemLoc sig × Unit)} (hB : ∀ x, x ∈ B) :
    iprop(∃ W, owes c.tc (0 : CellTallies nD τ sig Unit) W) ⊢ (Pipeline.owesWithin c 0 B : sProp 𝕄) := by
  iintro ⟨%W, H⟩; iexists W; isplitr; · ipureintro; exact fun x _ => hB x
  iexact H

theorem owesOut {c : Dev nD} {B : Set (SemLoc sig × Unit)} :
    (Pipeline.owesWithin c 0 B : sProp 𝕄) ⊢ iprop(∃ W, owes c.tc (0 : CellTallies nD τ sig Unit) W) := by
  iintro ⟨%W, -, H⟩; iexists W; iexact H

variable (m : (ℓ : Loc nD τ sig) → Buf (Elt F) ℓ) (ρ : Dev nD → PrngReg)

variable (hR : Ranges m)

def pdats : (p : Fin 7) → (c : Dev nD) → Dat τ (Elt F) Unit ℕ (Pipeline.UD sig nD τ) ℕ (Pipeline.pin (pcfgs (F := F)) (adm m) p) c
  | ⟨0, _⟩ => fun c => dat0 (V1 m ρ) (adm0 m) (tabOk0 m ρ hR) c
  | ⟨1, _⟩ => fun c => dat1 (V3 m ρ hR) c
  | ⟨2, _⟩ => fun c => dat2 (V4 m ρ hR) (adm2 m) (tabOk2 m ρ hR) c
  | ⟨3, _⟩ => fun c => dat3 (V6 m ρ hR) (adm3 m) (tabOk3 m ρ hR) c
  | ⟨4, _⟩ => fun c => dat4 (V8 m ρ hR) c
  | ⟨5, _⟩ => fun c => dat5 (V9 m ρ hR) (adm5 m) (tabOk5 m ρ hR) c
  | ⟨6, _⟩ => fun c => dat6 (V10 m ρ hR) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes c.tc (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held c.tc (Pipeline.ucRefs τ sig) (W11 m ρ hR c) ∗ ∃ r, prngReg c r)

abbrev pt (V : (c : Dev nD) → (b : Ref sig .tc) → Buf (Elt F) ((c : Thread nD τ).loc b)) (c : Dev nD) (b : Ref sig .tc) : sProp 𝕄 :=
  (c.tc.loc b) ↦{fullShare} V c b

-- A table of row numbers is an argument buffer, and every boundary keeps those as launched.
theorem tabHeld {W : Dev nD → Valuation τ sig (Elt F)} (hW : Kept m W) (pre : Pipeline.Prefetch sig) (h : ∀ k, pre.ref k ∈ args) (c : Dev nD) :
    (Pipeline.prefHeld (Ix := Unit) (Name := ℕ) (U := Pipeline.UD sig nD τ) (Lvl := ℕ) pre c (fun _ => fullShare) (fun k => m ((0 : Dev nD).tc.loc (pre.ref k))) : sProp 𝕄)
      = bigSep Finset.univ fun k => (c.tc.loc (pre.ref k)) ↦{fullShare} W c (pre.ref k) := by
  obtain rfl : c = 0 := Subsingleton.elim _ _
  exact bigSep_congr fun k _ => by rw [hW 0 _ (h k)]

def reg0 : Pipeline.RegionSeg pcfgs (adm m) (pdats m ρ hR) () defs₀ 𝒱₀ L lv 0 where
  win := winFacts0.to₀
  block_pos := block_pos0
  stage_whole := stage_whole0
  K := Fin 1
  osem := osem0
  ho := ownSemFacts0
  hbody c := (body_obligation0 (V1 m ρ) (adm0 m) (tabOk0 m ρ hR) c).loose
  hwaits := Pipeline.hwaits_of_owed_zero _ _ _ _ L lv 0 fun _ _ => rfl
  pre c := iprop(StableHlo.held c.tc (Pipeline.ucRefs τ sig) (W1 m ρ c) ∗ R c)
  post c := iprop(StableHlo.held c.tc (Pipeline.ucRefs τ sig) (W2 m ρ hR c) ∗ R c)
  X c := iprop((∃ r, prngReg c r) ∗ Pipeline.ownSems0 osem0 c ∗ pt (V1 m ρ) c main_v16)
  Y c := iprop((∃ r, prngReg c r) ∗ bigSep H0 (pt (V1 m ρ) c))
  Z c := bigSep (Pipeline.restRefs sig spec0 \ H0) (pt (V1 m ρ) c)
  hentry c := (gEntry (Pipeline.unscopedBufs_held c _) (Pipeline.arrays_of_unscopedBufs (p := 0) _ _ (pdats m ρ hR) winFacts0 arr_whole0 c
    (Dat.share_full _ fun _ => rfl) (V1 m ρ c) fun _ => rfl) (Pipeline.unscopedRest_sdiff spec0 H0 H0_sub c _) (hbmPts0_eq (V1 m ρ) c)
    ((tabHeld m (kept1 m ρ) pre0 (by decide) c).trans (bigSep_W0 _)) (owesIn fun _ => Or.inl trivial)).trans fupd_intro
  hin c := gIn (hbmPts0_eq (V1 m ρ) c) ((tabHeld m (kept1 m ρ) pre0 (by decide) c).trans (bigSep_W0 _))
  hout c := gOut
  hexit c := (gExit (Pipeline.unscopedBufs_held c _) (Pipeline.unscopedBufs_of_arrays (p := 0) _ _ winFacts0 arr_whole0 c (pdats m ρ hR)
    (Dat.share_full _ fun _ => rfl) _ _ _ (hF0 m ρ hR c) (hrest0 m ρ hR c)) (Pipeline.unscopedRest_sdiff spec0 H0 H0_sub c _) owesOut).trans fupd_intro

def reg1 : Pipeline.RegionSeg pcfgs (adm m) (pdats m ρ hR) () defs₀ 𝒱₀ L lv 1 where
  win := winFacts1.to₀
  block_pos := block_pos1
  stage_whole := stage_whole1
  K := PEmpty
  osem k := k.elim
  ho := Pipeline.OwnSemFacts.none _
  hbody c := (body_obligation1 (V3 m ρ hR) c).loose
  hwaits := Pipeline.hwaits_of_owed_zero _ _ _ _ L lv 1 fun _ _ => rfl
  pre c := iprop(StableHlo.held c.tc (Pipeline.ucRefs τ sig) (W3 m ρ hR c) ∗ R c)
  post c := iprop(StableHlo.held c.tc (Pipeline.ucRefs τ sig) (W4 m ρ hR c) ∗ R c)
  X c := iprop(∃ r, prngReg c r)
  Y c := iprop(∃ r, prngReg c r)
  Z c := Pipeline.unscopedRest spec1 c (V3 m ρ hR c)
  hentry c := (lEntry (Pipeline.unscopedBufs_held c _) (Pipeline.arrays_of_unscopedBufs (p := 1) _ _ (pdats m ρ hR) winFacts1 arr_whole1 c
    (Dat.share_full _ fun _ => rfl) (V3 m ρ hR c) fun _ => rfl) BI.bigSep_empty (owesIn fun _ => Or.inl trivial)).trans fupd_intro
  hin c := lIn
  hout c := lOut (Pipeline.ownSems0_none ..)
  hexit c := (lExit (Pipeline.unscopedBufs_held c _) (Pipeline.unscopedBufs_of_arrays (p := 1) _ _ winFacts1 arr_whole1 c (pdats m ρ hR)
    (Dat.share_full _ fun _ => rfl) _ _ _ (hF1 m ρ hR c) (hrest1 m ρ hR c)) owesOut .rfl).trans fupd_intro

def reg2 : Pipeline.RegionSeg pcfgs (adm m) (pdats m ρ hR) () defs₀ 𝒱₀ L lv 2 where
  win := winFacts2.to₀
  block_pos := block_pos2
  stage_whole := stage_whole2
  K := Fin 1
  osem := osem2
  ho := ownSemFacts2
  hbody c := (body_obligation2 (V4 m ρ hR) (adm2 m) (tabOk2 m ρ hR) c).loose
  hwaits := Pipeline.hwaits_of_owed_zero _ _ _ _ L lv 2 fun _ _ => rfl
  pre c := iprop(StableHlo.held c.tc (Pipeline.ucRefs τ sig) (W4 m ρ hR c) ∗ R c)
  post c := iprop(StableHlo.held c.tc (Pipeline.ucRefs τ sig) (W5 m ρ hR c) ∗ R c)
  X c := iprop((∃ r, prngReg c r) ∗ Pipeline.ownSems0 osem2 c ∗ pt (V4 m ρ hR) c main_v19)
  Y c := iprop((∃ r, prngReg c r) ∗ bigSep H2 (pt (V4 m ρ hR) c))
  Z c := bigSep (Pipeline.restRefs sig spec2 \ H2) (pt (V4 m ρ hR) c)
  hentry c := (gEntry (Pipeline.unscopedBufs_held c _) (Pipeline.arrays_of_unscopedBufs (p := 2) _ _ (pdats m ρ hR) winFacts2 arr_whole2 c
    (Dat.share_full _ fun _ => rfl) (V4 m ρ hR c) fun _ => rfl) (Pipeline.unscopedRest_sdiff spec2 H2 H2_sub c _) (hbmPts2_eq (V4 m ρ hR) c)
    ((tabHeld m (kept4 m ρ hR) pre2 (by decide) c).trans (bigSep_W0 _)) (owesIn fun _ => Or.inl trivial)).trans fupd_intro
  hin c := gIn (hbmPts2_eq (V4 m ρ hR) c) ((tabHeld m (kept4 m ρ hR) pre2 (by decide) c).trans (bigSep_W0 _))
  hout c := gOut
  hexit c := (gExit (Pipeline.unscopedBufs_held c _) (Pipeline.unscopedBufs_of_arrays (p := 2) _ _ winFacts2 arr_whole2 c (pdats m ρ hR)
    (Dat.share_full _ fun _ => rfl) _ _ _ (hF2 m ρ hR c) (hrest2 m ρ hR c)) (Pipeline.unscopedRest_sdiff spec2 H2 H2_sub c _) owesOut).trans fupd_intro

def reg3 : Pipeline.RegionSeg pcfgs (adm m) (pdats m ρ hR) () defs₀ 𝒱₀ L lv 3 where
  win := winFacts3.to₀
  block_pos := block_pos3
  stage_whole := stage_whole3
  K := Fin 1
  osem := osem3
  ho := ownSemFacts3
  hbody c := (body_obligation3 (V6 m ρ hR) (adm3 m) (tabOk3 m ρ hR) c).loose
  hwaits := Pipeline.hwaits_of_owed_zero _ _ _ _ L lv 3 fun _ _ => rfl
  pre c := iprop(StableHlo.held c.tc (Pipeline.ucRefs τ sig) (W6 m ρ hR c) ∗ R c)
  post c := iprop(StableHlo.held c.tc (Pipeline.ucRefs τ sig) (W7 m ρ hR c) ∗ R c)
  X c := iprop((∃ r, prngReg c r) ∗ Pipeline.ownSems0 osem3 c ∗ pt (V6 m ρ hR) c main_v37)
  Y c := iprop((∃ r, prngReg c r) ∗ bigSep H3 (pt (V6 m ρ hR) c))
  Z c := bigSep (Pipeline.restRefs sig spec3 \ H3) (pt (V6 m ρ hR) c)
  hentry c := (gEntry (Pipeline.unscopedBufs_held c _) (Pipeline.arrays_of_unscopedBufs (p := 3) _ _ (pdats m ρ hR) winFacts3 arr_whole3 c
    (Dat.share_full _ fun _ => rfl) (V6 m ρ hR c) fun _ => rfl) (Pipeline.unscopedRest_sdiff spec3 H3 H3_sub c _) (hbmPts3_eq (V6 m ρ hR) c)
    ((tabHeld m (kept6 m ρ hR) pre3 (by decide) c).trans (bigSep_W0 _)) (owesIn fun _ => Or.inl trivial)).trans fupd_intro
  hin c := gIn (hbmPts3_eq (V6 m ρ hR) c) ((tabHeld m (kept6 m ρ hR) pre3 (by decide) c).trans (bigSep_W0 _))
  hout c := gOut
  hexit c := (gExit (Pipeline.unscopedBufs_held c _) (Pipeline.unscopedBufs_of_arrays (p := 3) _ _ winFacts3 arr_whole3 c (pdats m ρ hR)
    (Dat.share_full _ fun _ => rfl) _ _ _ (hF3 m ρ hR c) (hrest3 m ρ hR c)) (Pipeline.unscopedRest_sdiff spec3 H3 H3_sub c _) owesOut).trans fupd_intro

def reg4 : Pipeline.RegionSeg pcfgs (adm m) (pdats m ρ hR) () defs₀ 𝒱₀ L lv 4 where
  win := winFacts4.to₀
  block_pos := block_pos4
  stage_whole := stage_whole4
  K := PEmpty
  osem k := k.elim
  ho := Pipeline.OwnSemFacts.none _
  hbody c := (body_obligation4 (V8 m ρ hR) c).loose
  hwaits := Pipeline.hwaits_of_owed_zero _ _ _ _ L lv 4 fun _ _ => rfl
  pre c := iprop(StableHlo.held c.tc (Pipeline.ucRefs τ sig) (W8 m ρ hR c) ∗ R c)
  post c := iprop(StableHlo.held c.tc (Pipeline.ucRefs τ sig) (W9 m ρ hR c) ∗ R c)
  X c := iprop(∃ r, prngReg c r)
  Y c := iprop(∃ r, prngReg c r)
  Z c := Pipeline.unscopedRest spec4 c (V8 m ρ hR c)
  hentry c := (lEntry (Pipeline.unscopedBufs_held c _) (Pipeline.arrays_of_unscopedBufs (p := 4) _ _ (pdats m ρ hR) winFacts4 arr_whole4 c
    (Dat.share_full _ fun _ => rfl) (V8 m ρ hR c) fun _ => rfl) BI.bigSep_empty (owesIn fun _ => Or.inl trivial)).trans fupd_intro
  hin c := lIn
  hout c := lOut (Pipeline.ownSems0_none ..)
  hexit c := (lExit (Pipeline.unscopedBufs_held c _) (Pipeline.unscopedBufs_of_arrays (p := 4) _ _ winFacts4 arr_whole4 c (pdats m ρ hR)
    (Dat.share_full _ fun _ => rfl) _ _ _ (hF4 m ρ hR c) (hrest4 m ρ hR c)) owesOut .rfl).trans fupd_intro

def reg5 : Pipeline.RegionSeg pcfgs (adm m) (pdats m ρ hR) () defs₀ 𝒱₀ L lv 5 where
  win := winFacts5.to₀
  block_pos := block_pos5
  stage_whole := stage_whole5
  K := Fin 1
  osem := osem5
  ho := ownSemFacts5
  hbody c := (body_obligation5 (V9 m ρ hR) (adm5 m) (tabOk5 m ρ hR) c).loose
  hwaits := Pipeline.hwaits_of_owed_zero _ _ _ _ L lv 5 fun _ _ => rfl
  pre c := iprop(StableHlo.held c.tc (Pipeline.ucRefs τ sig) (W9 m ρ hR c) ∗ R c)
  post c := iprop(StableHlo.held c.tc (Pipeline.ucRefs τ sig) (W10 m ρ hR c) ∗ R c)
  X c := iprop((∃ r, prngReg c r) ∗ Pipeline.ownSems0 osem5 c ∗ pt (V9 m ρ hR) c main_v40)
  Y c := iprop((∃ r, prngReg c r) ∗ bigSep H5 (pt (V9 m ρ hR) c))
  Z c := bigSep (Pipeline.restRefs sig spec5 \ H5) (pt (V9 m ρ hR) c)
  hentry c := (gEntry (Pipeline.unscopedBufs_held c _) (Pipeline.arrays_of_unscopedBufs (p := 5) _ _ (pdats m ρ hR) winFacts5 arr_whole5 c
    (Dat.share_full _ fun _ => rfl) (V9 m ρ hR c) fun _ => rfl) (Pipeline.unscopedRest_sdiff spec5 H5 H5_sub c _) (hbmPts5_eq (V9 m ρ hR) c)
    ((tabHeld m (kept9 m ρ hR) pre5 (by decide) c).trans (bigSep_W0 _)) (owesIn fun _ => Or.inl trivial)).trans fupd_intro
  hin c := gIn (hbmPts5_eq (V9 m ρ hR) c) ((tabHeld m (kept9 m ρ hR) pre5 (by decide) c).trans (bigSep_W0 _))
  hout c := gOut
  hexit c := (gExit (Pipeline.unscopedBufs_held c _) (Pipeline.unscopedBufs_of_arrays (p := 5) _ _ winFacts5 arr_whole5 c (pdats m ρ hR)
    (Dat.share_full _ fun _ => rfl) _ _ _ (hF5 m ρ hR c) (hrest5 m ρ hR c)) (Pipeline.unscopedRest_sdiff spec5 H5 H5_sub c _) owesOut).trans fupd_intro

def reg6 : Pipeline.RegionSeg pcfgs (adm m) (pdats m ρ hR) () defs₀ 𝒱₀ L lv 6 where
  win := winFacts6.to₀
  block_pos := block_pos6
  stage_whole := stage_whole6
  K := PEmpty
  osem k := k.elim
  ho := Pipeline.OwnSemFacts.none _
  hbody c := (body_obligation6 (V10 m ρ hR) c).loose
  hwaits := Pipeline.hwaits_of_owed_zero _ _ _ _ L lv 6 fun _ _ => rfl
  pre c := iprop(StableHlo.held c.tc (Pipeline.ucRefs τ sig) (W10 m ρ hR c) ∗ R c)
  post c := iprop(Tₙ m ρ hR c ∗ ∃ W, owes c.tc (0 : CellTallies nD τ sig Unit) W)
  X c := iprop(∃ r, prngReg c r)
  Y c := iprop(∃ r, prngReg c r)
  Z c := Pipeline.unscopedRest spec6 c (V10 m ρ hR c)
  hentry c := (lEntry (Pipeline.unscopedBufs_held c _) (Pipeline.arrays_of_unscopedBufs (p := 6) _ _ (pdats m ρ hR) winFacts6 arr_whole6 c
    (Dat.share_full _ fun _ => rfl) (V10 m ρ hR c) fun _ => rfl) BI.bigSep_empty (owesIn fun _ => Or.inl trivial)).trans fupd_intro
  hin c := lIn
  hout c := lOut (Pipeline.ownSems0_none ..)
  hexit c := (lExit (Pipeline.unscopedBufs_held c _) (Pipeline.unscopedBufs_of_arrays (p := 6) _ _ winFacts6 arr_whole6 c (pdats m ρ hR)
    (Dat.share_full _ fun _ => rfl) _ _ _ (hF6 m ρ hR c) (hrest6 m ρ hR c)) owesOut sep_assoc.2).trans fupd_intro

end Cert.KernelIdeal.Hand

end
-- ==== Proof.KernelIdeal.Run.lean ====
import proofs.«407256_j33208687133423_1_alg».proof.Proof.KernelIdeal.Run.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

variable (hR : Ranges m)

abbrev segs : List (Pipeline.Seg (pcfgs (F := F)) (adm m) (pdats m ρ hR) () defs₀ 𝒱₀ L lv) :=
  [ .host (hseg hostOps0 hostOps0_sub hostOps0_fresh (W0 m ρ)),
    .region (reg0 m ρ hR),
    .host (hseg hostOps1 hostOps1_sub hostOps1_fresh (W2 m ρ hR)),
    .region (reg1 m ρ hR),
    .region (reg2 m ρ hR),
    .host (hseg hostOps3 hostOps3_sub hostOps3_fresh (W5 m ρ hR)),
    .region (reg3 m ρ hR),
    .host (hseg hostOps4 hostOps4_sub hostOps4_fresh (W7 m ρ hR)),
    .region (reg4 m ρ hR),
    .region (reg5 m ρ hR),
    .region (reg6 m ρ hR) ]

theorem main_run (c : Dev nD) : main (F := F) c = Pipeline.Seg.run (segs m ρ hR) := (main_chain c).trans (by chain_rfl)

set_option backward.isDefEq.respectTransparency.types false in

/-- From a memory whose four tables are in range, every weakly fair execution of @main ends, nothing faulting, with every
    buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W11 m ρ hR c b) :=
  Pipeline.θ_run_regions_kit (pcfgs (F := F)) (adm m) (pdats m ρ hR) () (cellOf_inj (adm m)) embL defs₀ 𝒱₀ L lv m ρ main (segs m ρ hR)
    (fun c Q => by rw [main_run m ρ hR c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells (Pipeline.pin (pcfgs (F := F)) (adm m)) (cellOf_inj (adm m))) (Pipeline.launchToks (Pipeline.pin (pcfgs (F := F)) (adm m)) (cellOf_inj (adm m))), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ hR)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ hR c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ hR c) s')
      isplitl [Hh] <;> iassumption)
    (hQ := fun s h => h)

/-- The result array ends at the last boundary's contents and every argument array as launched. -/
theorem run_value : θ_run defs (onTc (τ := τ) (main (F := F))) ⟨m, fun _ => 0, ρ⟩ (fun r => ∀ c : Dev nD,
      r.2.mem ((c.tc : Thread nD τ).loc main_v42) = W11 m ρ hR c (Proc.devRef .tc main_v42)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨h c _ (mem_uc main_v42 (by decide)),
      (h c _ (mem_uc main_arg0 (by decide))).trans (kept11 m ρ hR c _ (by decide)),
      (h c _ (mem_uc main_arg1 (by decide))).trans (kept11 m ρ hR c _ (by decide)),
      (h c _ (mem_uc main_arg2 (by decide))).trans (kept11 m ρ hR c _ (by decide)),
      (h c _ (mem_uc main_arg3 (by decide))).trans (kept11 m ρ hR c _ (by decide)),
      (h c _ (mem_uc main_arg4 (by decide))).trans (kept11 m ρ hR c _ (by decide)),
      (h c _ (mem_uc main_arg5 (by decide))).trans (kept11 m ρ hR c _ (by decide)),
      (h c _ (mem_uc main_arg6 (by decide))).trans (kept11 m ρ hR c _ (by decide)),
      (h c _ (mem_uc main_arg7 (by decide))).trans (kept11 m ρ hR c _ (by decide)),
      (h c _ (mem_uc main_arg8 (by decide))).trans (kept11 m ρ hR c _ (by decide)),
      (h c _ (mem_uc main_arg9 (by decide))).trans (kept11 m ρ hR c _ (by decide)),
      (h c _ (mem_uc main_arg10 (by decide))).trans (kept11 m ρ hR c _ (by decide))⟩) (run_all m ρ hR)

include hR in

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => (h c).2) (run_value m ρ hR)

end Cert.KernelIdeal.Hand

end
-- ==== Proof.KernelIdeal.HostStretches.lean ====
import proofs.«407256_j33208687133423_1_alg».proof.Proof.Gen.KernelIdeal.Launch
import Idealize.ShloMosaic.Lib.StableHlo.Run

set_option maxRecDepth 16384

noncomputable section

namespace Cert.KernelIdeal.Hand

open Cert.KernelIdeal Cert.KernelIdeal.Gen Idealize.ShloMosaic Idealize.ShloMosaic.StableHlo

variable {F : FTy → Type} [FloatOps F]

def propagate (x : (⟨S100000x128, .f32⟩ : BufTy).Contents (Elt F)) (ei : (⟨S2x1600000, .i32⟩ : BufTy).Contents (Elt F))
    (ew : (⟨S1600000, .f32⟩ : BufTy).Contents (Elt F)) : (⟨S100000x128, .f32⟩ : BufTy).Contents (Elt F) :=

  let src0 : (⟨S1x1600000, .i32⟩ : BufTy).Contents (Elt F) := extractStridedSlice S1x1600000 ![0, 0] ei slices_S2x1600000_S1x1600000_0_0
  let src : (⟨S1600000, .i32⟩ : BufTy).Contents (Elt F) := shapeCast S1600000 src0 shapeCasts_S1x1600000_S1600000
  let tgt0 : (⟨S1x1600000, .i32⟩ : BufTy).Contents (Elt F) := extractStridedSlice S1x1600000 ![1, 0] ei slices_S2x1600000_S1x1600000_1_0
  let tgt : (⟨S1600000, .i32⟩ : BufTy).Contents (Elt F) := shapeCast S1600000 tgt0 shapeCasts_S1x1600000_S1600000

  let zero : (⟨S1600000, .i32⟩ : BufTy).Contents (Elt F) := broadcastInDim S1600000 ![] bcast_S_S1600000 (constantI S_ 32 0#32)
  let neg : (⟨S1600000, .i1⟩ : BufTy).Contents (Elt F) := cmpi .slt src zero
  let rows : (⟨S1600000, .i32⟩ : BufTy).Contents (Elt F) := broadcastInDim S1600000 ![] bcast_S_S1600000 (constantI S_ 32 100000#32)
  let wrapped : (⟨S1600000, .i32⟩ : BufTy).Contents (Elt F) := select neg (addi src rows) src

  let srcCol : (⟨S1600000x1, .i32⟩ : BufTy).Contents (Elt F) := broadcastInDim S1600000x1 ![0] bcast_S1600000_S1600000x1_0 wrapped
  let gathered : (⟨S1600000x128, .f32⟩ : BufTy).Contents (Elt F) := Host.gather gather_S100000x128_S1600000x1_S1600000x128_1_0_n_n_0_1_1128 x srcCol

  let wCol : (⟨S1600000x1, .f32⟩ : BufTy).Contents (Elt F) := broadcastInDim S1600000x1 ![0] bcast_S1600000_S1600000x1_0 ew
  let wRows : (⟨S1600000x128, .f32⟩ : BufTy).Contents (Elt F) := broadcastInDim S1600000x128 ![0, 1] bcast_S1600000x1_S1600000x128_0_1 wCol
  let msgs : (⟨S1600000x128, .f32⟩ : BufTy).Contents (Elt F) := mulf gathered wRows

  let zeros : (⟨S100000x128, .f32⟩ : BufTy).Contents (Elt F) := broadcastInDim S100000x128 ![] bcast_S_S100000x128 (constant S_ .f32 0x00000000#32)
  let tgtCol : (⟨S1600000x1, .i32⟩ : BufTy).Contents (Elt F) := broadcastInDim S1600000x1 ![0] bcast_S1600000_S1600000x1_0 tgt
  Host.scatterAdd scatter_S100000x128_S1600000x1_S1600000x128_1_0_0_1 zeros tgtCol msgs

theorem after_hostOps1 (W : Valuation τ sig (Elt F)) :
    StableHlo.after hostOps1 W (Proc.devRef .tc main_v18)
      = shapeCast S1x128 (W (Proc.devRef .tc main_arg8)) shapeCasts_S128_S1x128 := by
  show StableHlo.after hostOps1 W _ = _
  after_results
  rfl

theorem after_hostOps4 (W : Valuation τ sig (Elt F)) :
    StableHlo.after hostOps4 W (Proc.devRef .tc main_v39)
      = shapeCast S1x64 (W (Proc.devRef .tc main_arg10)) shapeCasts_S64_S1x64 := by
  show StableHlo.after hostOps4 W _ = _
  after_results
  rfl

theorem after_hostOps0 (W : Valuation τ sig (Elt F)) :
    StableHlo.after hostOps0 W (Proc.devRef .tc main_v16)
      = propagate (W (Proc.devRef .tc main_arg0)) (W (Proc.devRef .tc main_arg1)) (W (Proc.devRef .tc main_arg2)) := by
  show StableHlo.after hostOps0 W _ = _
  after_results_simp
  rfl

theorem after_hostOps3 (W : Valuation τ sig (Elt F)) :
    StableHlo.after hostOps3 W (Proc.devRef .tc main_v37)
      = propagate (W (Proc.devRef .tc main_v20)) (W (Proc.devRef .tc main_arg1)) (W (Proc.devRef .tc main_arg2)) := by
  show StableHlo.after hostOps3 W _ = _
  after_results_simp
  rfl

end Cert.KernelIdeal.Hand

end
-- ==== Proof.Spec.lean ====
import Idealize.ShloMosaic.PureOps.Ideal
import Idealize.ShloMosaic.Lib.ValueIdx

noncomputable section

open scoped BigOperators

namespace Cert.Spec

open Idealize.ShloMosaic Idealize.ShloMosaic.ValueIdx

def rows {n d k : Nat} (src : FVec Ideal (⟨2, ![n, d]⟩ : Shape) .f32) (idx : IVec (⟨1, ![k]⟩ : Shape) 32) :
    FVec Ideal (⟨2, ![k, d]⟩ : Shape) .f32 :=
  fun j => if h : (idx (ix1 (j 0))).toNat < n then src (ix2 ⟨(idx (ix1 (j 0))).toNat, h⟩ (j 1)) else 0

def affine {m k n : Nat} (x : FVec Ideal (⟨2, ![m, k]⟩ : Shape) .f32) (w : FVec Ideal (⟨2, ![k, n]⟩ : Shape) .f32)
    (b : FVec Ideal (⟨2, ![1, n]⟩ : Shape) .f32) : FVec Ideal (⟨2, ![m, n]⟩ : Shape) .f32 :=
  fun j => (∑ c : Fin k, x (ix2 (j 0) c) * w (ix2 c (j 1))) + b (ix2 (0 : Fin 1) (j 1))

def biasRow {n : Nat} (b : FVec Ideal (⟨1, ![n]⟩ : Shape) .f32) : FVec Ideal (⟨2, ![1, n]⟩ : Shape) .f32 :=
  fun j => b (ix1 (j 1))

def relu {m n : Nat} (x : FVec Ideal (⟨2, ![m, n]⟩ : Shape) .f32) : FVec Ideal (⟨2, ![m, n]⟩ : Shape) .f32 :=
  fun j => max (x j) 0

def rowMax {m n : Nat} (x : FVec Ideal (⟨2, ![m, n]⟩ : Shape) .f32) (r : Fin m) : EReal :=
  (Finset.univ : Finset (Fin n)).fold max (⊥ : EReal) (fun c => x (ix2 r c))

def logSoftmax {m n : Nat} (x : FVec Ideal (⟨2, ![m, n]⟩ : Shape) .f32) : FVec Ideal (⟨2, ![m, n]⟩ : Shape) .f32 :=
  fun j => (x j - rowMax x (j 0)) - Ideal.log (∑ c : Fin n, Ideal.exp (x (ix2 (j 0) c) - rowMax x (j 0)))

end Cert.Spec

end
-- ==== Proof.RefValue.lean ====
import proofs.«407256_j33208687133423_1_alg».proof.Proof.RefRead
import proofs.«407256_j33208687133423_1_alg».proof.Proof.Spec
import Idealize.ShloMosaic.Lib.StableHlo.Predicate
import Idealize.ShloMosaic.PureOps.Reduce
import Idealize.ShloMosaic.PureOps.Ideal.Laws

noncomputable section

open scoped BigOperators

namespace Cert.RefValue

open Cert.ReferenceIdeal Cert.ReferenceIdeal.Gen Cert.ReferenceIdeal.ReadP
open Idealize.ShloMosaic Idealize.ShloMosaic.ValueIdx Idealize.ShloMosaic.StableHlo

abbrev rowDims (n d k : Nat)
    (wf : GatherDims.WF ⟨2, ![n, d]⟩ ⟨2, ![k, 1]⟩ ⟨2, ![k, d]⟩ [1] [0] [] [0] [] 1 ![1, d]) :
    GatherDims ⟨2, ![n, d]⟩ ⟨2, ![k, 1]⟩ ⟨2, ![k, d]⟩ where
  offsetDims := [1]
  collapsedSliceDims := [0]
  operandBatchingDims := []
  startIndicesBatchingDims := []
  startIndexMap := [0]
  indexVectorDim := 1
  sliceSizes := ![1, d]
  wf := wf

theorem gather_rows_apply {α : Type} {n d k w : Nat} (hn : 0 < n)
    (wf : GatherDims.WF ⟨2, ![n, d]⟩ ⟨2, ![k, 1]⟩ ⟨2, ![k, d]⟩ [1] [0] [] [0] [] 1 ![1, d])
    (x : (⟨2, ![n, d]⟩ : Shape).Idx → α) (ci : IVec ⟨2, ![k, 1]⟩ w) (y : (⟨2, ![k, d]⟩ : Shape).Idx) :
    Host.gather (rowDims n d k wf) x ci y
      = x (ix2 (⟨min (ci (ix2 (y 0) (0 : Fin 1))).toInt.toNat (n - 1), by omega⟩ : Fin n) (y 1)) := by
  unfold Host.gather
  congr 1
  funext a
  refine Fin.ext ?_
  match a with
  | ⟨0, _⟩ =>
    show (rowDims n d k wf).start y ci 0 + (rowDims n d k wf).batchCoord y 0 + (rowDims n d k wf).offCoord y 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims n d k wf).startIndexMap from List.mem_singleton.mpr rfl)]
    have hsi : (rowDims n d k wf).siIdx y ⟨List.idxOf (0 : Fin 2) (rowDims n d k wf).startIndexMap,
        List.idxOf_lt_length_iff.2 (List.mem_singleton.mpr rfl)⟩ = ix2 (y 0) (0 : Fin 1) := by
      funext b; refine Fin.ext ?_
      match b with
      | ⟨0, _⟩ => rfl
      | ⟨1, _⟩ => rfl
    rw [hsi]
    rfl
  | ⟨1, _⟩ =>
    show (rowDims n d k wf).start y ci 1 + (rowDims n d k wf).batchCoord y 1 + (rowDims n d k wf).offCoord y 1 = _
    have h1 : (1 : Fin 2) ∉ (rowDims n d k wf).startIndexMap :=
      show (1 : Fin 2) ∉ [(0 : Fin 2)] by decide
    have hk : (1 : Fin 2) ∈ (rowDims n d k wf).sKept :=
      (GatherDims.mem_sKept _ _).2 ⟨show (1 : Fin 2) ∉ [(0 : Fin 2)] by decide, List.not_mem_nil⟩
    rw [GatherDims.batchCoord_eq_zero _ _ _ List.not_mem_nil]
    unfold GatherDims.start GatherDims.offCoord
    rw [dif_neg h1, dif_pos hk]
    show 0 + 0 + (y ([(1 : Fin 2)][_]'_)).val = _
    simp only [List.getElem_singleton, Nat.zero_add]
    rfl

theorem wrap_of_nonneg (w c : BitVec 32) (hw : w.toNat < 2 ^ 31) :
    Scalar.select (IntOp.cmpi .slt w 0#32) (IntOp.addi w c) w = w := by
  have h0 : ¬ IntOp.cmpi .slt w 0#32 = 1#1 := by
    rw [Predicate.slt_iff_toNat hw (by decide)]
    simp
  rw [eq_zero_of_ne_one h0, select_zero]

theorem gather_rows_eq {n d k : Nat} (hn : n ≤ 2 ^ 31)
    (wf : GatherDims.WF ⟨2, ![n, d]⟩ ⟨2, ![k, 1]⟩ ⟨2, ![k, d]⟩ [1] [0] [] [0] [] 1 ![1, d])
    (src : FVec Ideal ⟨2, ![n, d]⟩ .f32) (ci : IVec ⟨2, ![k, 1]⟩ 32) (idx : IVec ⟨1, ![k]⟩ 32)
    (hci : ∀ r : Fin k, ci (ix2 r (0 : Fin 1)) = idx (ix1 r))
    (hidx : ∀ r : Fin k, (idx (ix1 r)).toNat < n) :
    Host.gather (rowDims n d k wf) src ci = Cert.Spec.rows src idx := by
  funext y
  have hr : (idx (ix1 (y 0))).toNat < n := hidx (y 0)
  have hn0 : 0 < n := by omega
  refine (gather_rows_apply hn0 wf src ci y).trans ?_
  show _ = if h : (idx (ix1 (y 0))).toNat < n then src (ix2 ⟨(idx (ix1 (y 0))).toNat, h⟩ (y 1)) else 0
  rw [dif_pos hr]
  have hv : min (ci (ix2 (y 0) (0 : Fin 1))).toInt.toNat (n - 1) = (idx (ix1 (y 0))).toNat := by
    rw [hci (y 0), Predicate.toInt_eq_toNat_of_lt (by omega), Int.toNat_natCast]
    omega
  exact congrArg src (congrArg (fun a => ix2 a (y 1)) (Fin.ext hv))

theorem ofBits_negInf : Ideal.ofBits .f32 0xFF800000#32 = (⊥ : EReal) := by
  simp [Ideal.ofBits, Ideal.ieee]

theorem lift_row {m n : Nat} (h : (⟨2, ![m, n]⟩ : Shape).Reduces [1] (⟨1, ![m]⟩ : Shape)) (r : Fin m)
    (c : Fin ((⟨2, ![m, n]⟩ : Shape).size 1)) : h.lift (ix1 r) c = ix2 r (⟨c.val, c.isLt⟩ : Fin n) := by
  funext a
  refine Fin.ext ?_
  match a with
  | ⟨0, _⟩ => rfl
  | ⟨1, _⟩ => rfl

theorem reduce_max_row {m n : Nat} (x : FVec Ideal ⟨2, ![m, n]⟩ .f32)
    (h' : (⟨2, ![m, n]⟩ : Shape).ReducesTo [1] (⟨1, ![m]⟩ : Shape))
    (h : (⟨2, ![m, n]⟩ : Shape).Reduces [1] (⟨1, ![m]⟩ : Shape))
    (hu : 0 < (⟨0, ![]⟩ : Shape).numel) (r : Fin m) :
    Host.reduce FloatOps.maximumf x (constant (F := Ideal) (⟨0, ![]⟩ : Shape) .f32 0xFF800000#32) h' hu (ix1 r)
      = Cert.Spec.rowMax x r := by
  rw [Host.reduce_eq_fold_single FloatOps.maximumf x _ h' h hu]
  have hf : (x ∘ h.lift (ix1 r)) = fun c : Fin n => x (ix2 r c) :=
    funext fun c => congrArg x (lift_row h r c)
  have hi : (constant (F := Ideal) (⟨0, ![]⟩ : Shape) .f32 0xFF800000#32) (Shape.Idx.first hu) = (⊥ : EReal) :=
    ofBits_negInf
  rw [hf, hi]
  rfl

def propagate (x : FVec Ideal S100000x128 .f32) (ei : IVec S2x1600000 32) (ew : FVec Ideal S1600000 .f32) :
    FVec Ideal S100000x128 .f32 :=
  Cert.ReferenceIdeal.ReadP.val_main_v16 (F := Ideal) x ei ew

variable (x0 : FVec Ideal S100000x128 .f32) (x1 : IVec S2x1600000 32) (x2 : FVec Ideal S1600000 .f32)
  (x3 : IVec S60000 32) (x4 : IVec S100000 32) (x5 : IVec S60000 32) (x6 : IVec S100000 32)
  (x7 : FVec Ideal S128x128 .f32) (x8 : FVec Ideal S128 .f32) (x9 : FVec Ideal S128x64 .f32) (x10 : FVec Ideal S64 .f32)

theorem col3 (h3 : ∀ k, (x3 k).toNat < 100000) (r : Fin 60000) :
    val_main_v22 (F := Ideal) x3 (ix2 r (0 : Fin 1)) = x3 (ix1 r) := by
  have e : idx_main_v22 (ix2 r (0 : Fin 1)) = ix1 r := funext fun a => match a with | ⟨0, _⟩ => rfl
  rw [val_main_v22_apply, val_main_v21_apply, val_main_v18_apply, val_main_v20_apply, val_main_v17_apply,
    val_main_c_1_apply, e]
  exact wrap_of_nonneg _ _ (by have := h3 (ix1 r); omega)

theorem col4 (h4 : ∀ k, (x4 k).toNat < 60000) (r : Fin 100000) :
    val_main_v34 (F := Ideal) x4 (ix2 r (0 : Fin 1)) = x4 (ix1 r) := by
  have e : idx_main_v34 (ix2 r (0 : Fin 1)) = ix1 r := funext fun a => match a with | ⟨0, _⟩ => rfl
  rw [val_main_v34_apply, val_main_v33_apply, val_main_v30_apply, val_main_v32_apply, val_main_v29_apply,
    val_main_c_3_apply, e]
  exact wrap_of_nonneg _ _ (by have := h4 (ix1 r); omega)

theorem col5 (h5 : ∀ k, (x5 k).toNat < 100000) (r : Fin 60000) :
    val_main_v58 (F := Ideal) x5 (ix2 r (0 : Fin 1)) = x5 (ix1 r) := by
  have e : idx_main_v58 (ix2 r (0 : Fin 1)) = ix1 r := funext fun a => match a with | ⟨0, _⟩ => rfl
  rw [val_main_v58_apply, val_main_v57_apply, val_main_v54_apply, val_main_v56_apply, val_main_v53_apply,
    val_main_c_8_apply, e]
  exact wrap_of_nonneg _ _ (by have := h5 (ix1 r); omega)

theorem col6 (h6 : ∀ k, (x6 k).toNat < 60000) (r : Fin 100000) :
    val_main_v69 (F := Ideal) x6 (ix2 r (0 : Fin 1)) = x6 (ix1 r) := by
  have e : idx_main_v69 (ix2 r (0 : Fin 1)) = ix1 r := funext fun a => match a with | ⟨0, _⟩ => rfl
  rw [val_main_v69_apply, val_main_v68_apply, val_main_v65_apply, val_main_v67_apply, val_main_v64_apply,
    val_main_c_10_apply, e]
  exact wrap_of_nonneg _ _ (by have := h6 (ix1 r); omega)

theorem v23_eq (h3 : ∀ k, (x3 k).toNat < 100000) :
    val_main_v23 (F := Ideal) x0 x1 x2 x3 = Cert.Spec.rows (propagate x0 x1 x2) x3 :=
  gather_rows_eq (by norm_num) _ (val_main_v16 (F := Ideal) x0 x1 x2) (val_main_v22 (F := Ideal) x3) x3
    (col3 x3 h3) (fun r => h3 (ix1 r))

theorem v27_eq :
    val_main_v27 (F := Ideal) x0 x1 x2 x3 x7 x8
      = Cert.Spec.affine (val_main_v23 (F := Ideal) x0 x1 x2 x3) x7 (Cert.Spec.biasRow x8) := by
  funext i
  have el : ∀ k : Fin 128, lidx_main_v24 i k = ix2 (i 0) k :=
    fun k => funext fun a => match a with | ⟨0, _⟩ => rfl | ⟨1, _⟩ => rfl
  have er : ∀ k : Fin 128, ridx_main_v24 i k = ix2 k (i 1) :=
    fun k => funext fun a => match a with | ⟨0, _⟩ => rfl | ⟨1, _⟩ => rfl
  have eb : idx_main_v25 (idx_main_v26 i) = ix1 (i 1) := funext fun a => match a with | ⟨0, _⟩ => rfl
  rw [val_main_v27_apply, val_main_v24_apply, val_main_v26_apply, val_main_v25_apply, eb]
  simp only [el, er]
  rfl

theorem v28_eq :
    val_main_v28 (F := Ideal) x0 x1 x2 x3 x7 x8 = Cert.Spec.relu (val_main_v27 (F := Ideal) x0 x1 x2 x3 x7 x8) := by
  funext i
  rw [val_main_v28_apply, val_main_call0_v0_apply, val_main_call0_cst_apply]
  show max _ (Ideal.ofBits .f32 0x00000000#32) = max _ 0
  rw [Ideal.ofBits_zero_f32]

theorem v35_eq (h4 : ∀ k, (x4 k).toNat < 60000) :
    val_main_v35 (F := Ideal) x0 x1 x2 x3 x4 x7 x8
      = Cert.Spec.rows (val_main_v28 (F := Ideal) x0 x1 x2 x3 x7 x8) x4 :=
  gather_rows_eq (by norm_num) _ (val_main_v28 (F := Ideal) x0 x1 x2 x3 x7 x8) (val_main_v34 (F := Ideal) x4) x4
    (col4 x4 h4) (fun r => h4 (ix1 r))

theorem v52_eq :
    val_main_v52 (F := Ideal) x0 x1 x2 x3 x4 x7 x8
      = propagate (val_main_v35 (F := Ideal) x0 x1 x2 x3 x4 x7 x8) x1 x2 := rfl

theorem v59_eq (h5 : ∀ k, (x5 k).toNat < 100000) :
    val_main_v59 (F := Ideal) x0 x1 x2 x3 x4 x5 x7 x8
      = Cert.Spec.rows (val_main_v52 (F := Ideal) x0 x1 x2 x3 x4 x7 x8) x5 :=
  gather_rows_eq (by norm_num) _ (val_main_v52 (F := Ideal) x0 x1 x2 x3 x4 x7 x8) (val_main_v58 (F := Ideal) x5) x5
    (col5 x5 h5) (fun r => h5 (ix1 r))

theorem v63_eq :
    val_main_v63 (F := Ideal) x0 x1 x2 x3 x4 x5 x7 x8 x9 x10
      = Cert.Spec.affine (val_main_v59 (F := Ideal) x0 x1 x2 x3 x4 x5 x7 x8) x9 (Cert.Spec.biasRow x10) := by
  funext i
  have el : ∀ k : Fin 128, lidx_main_v60 i k = ix2 (i 0) k :=
    fun k => funext fun a => match a with | ⟨0, _⟩ => rfl | ⟨1, _⟩ => rfl
  have er : ∀ k : Fin 128, ridx_main_v60 i k = ix2 k (i 1) :=
    fun k => funext fun a => match a with | ⟨0, _⟩ => rfl | ⟨1, _⟩ => rfl
  have eb : idx_main_v61 (idx_main_v62 i) = ix1 (i 1) := funext fun a => match a with | ⟨0, _⟩ => rfl
  rw [val_main_v63_apply, val_main_v60_apply, val_main_v62_apply, val_main_v61_apply, eb]
  simp only [el, er]
  rfl

theorem v70_eq (h6 : ∀ k, (x6 k).toNat < 60000) :
    val_main_v70 (F := Ideal) x0 x1 x2 x3 x4 x5 x6 x7 x8 x9 x10
      = Cert.Spec.rows (val_main_v63 (F := Ideal) x0 x1 x2 x3 x4 x5 x7 x8 x9 x10) x6 :=
  gather_rows_eq (by norm_num) _ (val_main_v63 (F := Ideal) x0 x1 x2 x3 x4 x5 x7 x8 x9 x10)
    (val_main_v69 (F := Ideal) x6) x6 (col6 x6 h6) (fun r => h6 (ix1 r))

theorem rowmax_eq (r : Fin 100000) :
    val_main_call1_v2 (F := Ideal) x0 x1 x2 x3 x4 x5 x6 x7 x8 x9 x10 (ix1 r)
      = Cert.Spec.rowMax (val_main_v70 (F := Ideal) x0 x1 x2 x3 x4 x5 x6 x7 x8 x9 x10) r := by
  have h0 : val_main_call1_v0 (F := Ideal) x0 x1 x2 x3 x4 x5 x6 x7 x8 x9 x10 (ix1 r)
      = Cert.Spec.rowMax (val_main_v70 (F := Ideal) x0 x1 x2 x3 x4 x5 x6 x7 x8 x9 x10) r :=
    reduce_max_row (val_main_v70 (F := Ideal) x0 x1 x2 x3 x4 x5 x6 x7 x8 x9 x10) _ (by decide) _ r
  rw [val_main_call1_v2_apply, val_main_call1_v1_apply, val_main_call1_cst_0_apply, h0]
  show max (Ideal.ofBits .f32 0xFF800000#32) _ = _
  rw [ofBits_negInf]
  exact max_eq_right bot_le

theorem shifted_eq (j : S100000x64.Idx) :
    val_main_call1_v5 (F := Ideal) x0 x1 x2 x3 x4 x5 x6 x7 x8 x9 x10 j
      = val_main_v70 (F := Ideal) x0 x1 x2 x3 x4 x5 x6 x7 x8 x9 x10 j
        - Cert.Spec.rowMax (val_main_v70 (F := Ideal) x0 x1 x2 x3 x4 x5 x6 x7 x8 x9 x10) (j 0) := by
  have e : idx_main_call1_v3 (idx_main_call1_v4 j) = ix1 (n := 100000) (j 0) :=
    funext fun a => match a with | ⟨0, _⟩ => rfl
  have hm := rowmax_eq x0 x1 x2 x3 x4 x5 x6 x7 x8 x9 x10 (j 0)
  rw [val_main_call1_v5_apply, val_main_call1_v4_apply, val_main_call1_v3_apply, e, hm]
  rfl

theorem v71_eq :
    val_main_v71 (F := Ideal) x0 x1 x2 x3 x4 x5 x6 x7 x8 x9 x10
      = Cert.Spec.logSoftmax (val_main_v70 (F := Ideal) x0 x1 x2 x3 x4 x5 x6 x7 x8 x9 x10) := by
  funext i

  have hs : ∀ k : Fin 64,
      val_main_call1_v6 (F := Ideal) x0 x1 x2 x3 x4 x5 x6 x7 x8 x9 x10
          (idx_main_call1_v7 (idx_main_call1_v8 (idx_main_call1_v10 i)) k)
        = Ideal.exp (val_main_v70 (F := Ideal) x0 x1 x2 x3 x4 x5 x6 x7 x8 x9 x10 (ix2 (n0 := 100000) (i 0) k)
            - Cert.Spec.rowMax (val_main_v70 (F := Ideal) x0 x1 x2 x3 x4 x5 x6 x7 x8 x9 x10) (i 0)) := by
    intro k
    have e7 : idx_main_call1_v7 (idx_main_call1_v8 (idx_main_call1_v10 i)) k = ix2 (n0 := 100000) (i 0) k :=
      funext fun a => match a with | ⟨0, _⟩ => rfl | ⟨1, _⟩ => rfl
    have hk : val_main_call1_v5 (F := Ideal) x0 x1 x2 x3 x4 x5 x6 x7 x8 x9 x10 (ix2 (n0 := 100000) (i 0) k)
        = val_main_v70 (F := Ideal) x0 x1 x2 x3 x4 x5 x6 x7 x8 x9 x10 (ix2 (n0 := 100000) (i 0) k)
          - Cert.Spec.rowMax (val_main_v70 (F := Ideal) x0 x1 x2 x3 x4 x5 x6 x7 x8 x9 x10) (i 0) :=
      shifted_eq x0 x1 x2 x3 x4 x5 x6 x7 x8 x9 x10 (ix2 (n0 := 100000) (i 0) k)
    rw [e7, val_main_call1_v6_apply, hk, Ideal.hostUnary_exp_def]
  have hi := shifted_eq x0 x1 x2 x3 x4 x5 x6 x7 x8 x9 x10 i
  rw [val_main_v71_apply, hi, val_main_call1_v10_apply, val_main_call1_v9_apply, val_main_call1_v8_apply,
    val_main_call1_v7_apply, val_main_call1_cst_1_apply, Finset.sum_congr rfl fun k _ => hs k,
    Ideal.ofBits_def, Ideal.ofBits_zero_f32, zero_add, Ideal.hostUnary_log_def, Ideal.subf_def]
  generalize val_main_v70 (F := Ideal) x0 x1 x2 x3 x4 x5 x6 x7 x8 x9 x10 = X
  rfl

theorem result_eq
    (h3 : ∀ k, (x3 k).toNat < 100000) (h4 : ∀ k, (x4 k).toNat < 60000)
    (h5 : ∀ k, (x5 k).toNat < 100000) (h6 : ∀ k, (x6 k).toNat < 60000) :
    Cert.ReferenceIdeal.ReadP.val_main_v71 (F := Ideal) x0 x1 x2 x3 x4 x5 x6 x7 x8 x9 x10
      = Cert.Spec.logSoftmax (Cert.Spec.rows (Cert.Spec.affine (Cert.Spec.rows (propagate (Cert.Spec.rows
          (Cert.Spec.relu (Cert.Spec.affine (Cert.Spec.rows (propagate x0 x1 x2) x3) x7 (Cert.Spec.biasRow x8))) x4)
          x1 x2) x5) x9 (Cert.Spec.biasRow x10)) x6) := by
  rw [v71_eq, v70_eq x0 x1 x2 x3 x4 x5 x6 x7 x8 x9 x10 h6, v63_eq, v59_eq x0 x1 x2 x3 x4 x5 x7 x8 h5, v52_eq,
    v35_eq x0 x1 x2 x3 x4 x7 x8 h4, v28_eq, v27_eq, v23_eq x0 x1 x2 x3 h3]

end Cert.RefValue

end
-- ==== Proof.Value.HostStretches.lean ====
import proofs.«407256_j33208687133423_1_alg».proof.Proof.KernelIdeal.HostStretches
import proofs.«407256_j33208687133423_1_alg».proof.Proof.Spec
import proofs.«407256_j33208687133423_1_alg».proof.Proof.RefValue
import Idealize.ShloMosaic.Lib.ValueLayout

noncomputable section

namespace Cert.Value

open Idealize.ShloMosaic Idealize.ShloMosaic.ValueIdx

theorem biasRow_cast {n : Nat} (b : FVec Ideal (⟨1, ![n]⟩ : Shape) .f32) (h : (⟨1, ![n]⟩ : Shape).ShapeCasts ⟨2, ![1, n]⟩) :
    shapeCast (⟨2, ![1, n]⟩ : Shape) b h = Cert.Spec.biasRow b := by
  funext j
  rw [eq_ix2 j]
  exact shapeCast_a_1a_apply b h _ _

theorem biasRow128 (b : FVec Ideal Cert.KernelIdeal.S128 .f32) :
    shapeCast Cert.KernelIdeal.S1x128 b Cert.KernelIdeal.Gen.shapeCasts_S128_S1x128 = Cert.Spec.biasRow b :=
  biasRow_cast b _

theorem biasRow64 (b : FVec Ideal Cert.KernelIdeal.S64 .f32) :
    shapeCast Cert.KernelIdeal.S1x64 b Cert.KernelIdeal.Gen.shapeCasts_S64_S1x64 = Cert.Spec.biasRow b :=
  biasRow_cast b _

theorem propagate_eq_generic {F : FTy → Type} [FloatOps F]
    (x : (⟨Cert.ReferenceIdeal.S100000x128, .f32⟩ : BufTy).Contents (Elt F))
    (ei : (⟨Cert.ReferenceIdeal.S2x1600000, .i32⟩ : BufTy).Contents (Elt F))
    (ew : (⟨Cert.ReferenceIdeal.S1600000, .f32⟩ : BufTy).Contents (Elt F)) :
    Cert.KernelIdeal.Hand.propagate (F := F) x ei ew = Cert.ReferenceIdeal.ReadP.val_main_v16 (F := F) x ei ew := rfl

theorem propagate_eq (x : FVec Ideal Cert.ReferenceIdeal.S100000x128 .f32) (ei : IVec Cert.ReferenceIdeal.S2x1600000 32)
    (ew : FVec Ideal Cert.ReferenceIdeal.S1600000 .f32) :
    Cert.KernelIdeal.Hand.propagate (F := Ideal) x ei ew = Cert.RefValue.propagate x ei ew :=
  propagate_eq_generic (F := Ideal) x ei ew

end Cert.Value

end
-- ==== Proof.Value.Region0.lean ====
import proofs.«407256_j33208687133423_1_alg».proof.Proof.KernelIdeal.Region0Dat
import proofs.«407256_j33208687133423_1_alg».proof.Proof.Spec

set_option maxRecDepth 16384

noncomputable section

namespace Cert.Value.R0

open Idealize.ShloMosaic Idealize.ShloMosaic.TcCoe Idealize.ShloMosaic.ValueIdx
open Cert.KernelIdeal Cert.KernelIdeal.Gen Cert.KernelIdeal.Hand Cert.Rows

variable {F : FTy → Type} [FloatOps F]

theorem hz : (![0, 0] : Fin 2 → Nat) = fun _ => 0 := funext fun a => by fin_cases a <;> rfl

section Block
variable (c : Dev nD) (i : grid0.Coords) (x0 : Vec F S60000 .i32) (hx : ∀ k, (x0 k : BitVec 32).toNat < 100000)
  (fh : HbBuf0 (F := F) c hbM0) {arg1 : Memref sig .tc .smem S60000 .i32} (harg1 : arg1.IsWhole)

-- row j of the result is the source's row that the table's word j names
def rows0 (j : S60000x128.Idx) : Elt F .f32 :=
  (fh : S100000x128.Idx → Elt F .f32) (ix2 ⟨(x0 (ix1 (j 0)) : BitVec 32).toNat, hx _⟩ (j 1))

theorem lt0 (r : ℕ) (hr : r < 8) : 8 * (i 0).val + r < 60000 := by
  have h0 : (i 0).val < 7500 := (i 0).isLt
  omega

-- the block at grid point i is rows 8 i … 8 i + 7 of the result
def G0 (y : S8x128.Idx) : Elt F .f32 := rows0 c x0 hx fh (ix2 ⟨_, lt0 i _ (y 0).isLt⟩ (y 1))

-- the two one-row reshapes undo one another, so entry q of the copied row lands on entry q of row ρ
theorem piece0_eq (ρ : ℕ) (hρ : ρ < 8) (k : S60000.Idx) (hk : (k (0 : Fin 1)).val = 8 * (i 0).val + ρ) (w : BitVec 32) (hw : w = x0 k)
    (inbS : ∀ a, (![w.toNat, 0] : Fin 2 → Nat) a + S1x128.size a ≤ S100000x128.size a)
    (hq : S128.numel = (Rect.unit (s := S100000x128) ![w.toNat, 0] S1x128.size inbS).shape.numel)
    (hq' : S128.numel = (rowA ρ hρ).shape.numel) (x : (rowA ρ hρ).shape.Idx) :
    (fh : S100000x128.Idx → Elt F .f32) ((Rect.unit (s := S100000x128) ![w.toNat, 0] S1x128.size inbS).emb (Shape.reshapeEquiv hq ((Shape.reshapeEquiv hq').symm x)))
      = G0 c i x0 hx fh ((rowA ρ hρ).emb x) := by
  subst hw
  have hx0 : (x 0).val = 0 := Nat.lt_one_iff.1 (x 0).isLt
  have e : Shape.reshapeEquiv hq ((Shape.reshapeEquiv hq').symm x) = x := Equiv.apply_symm_apply _ x
  rw [e]
  have hk' : ix1 (⟨8 * (i 0).val + (ρ + 1 * (x 0).val), by have := lt0 i ρ hρ; omega⟩ : Fin 60000) = k :=
    funext fun | ⟨0, _⟩ => Fin.ext (by show 8 * (i 0).val + (ρ + 1 * (x 0).val) = (k (0 : Fin 1)).val; omega)
  refine congrArg fh (Shape.idx_ext₂ ?_ rfl)
  show (x0 k : BitVec 32).toNat + 1 * (x 0).val = (x0 (ix1 ⟨8 * (i 0).val + (ρ + 1 * (x 0).val), _⟩) : BitVec 32).toNat
  rw [hk']; omega

theorem out0_eq {arg3 arg4 : Memref sig .tc .vmem S8x128 .f32} (harg3 : arg3.IsWhole) (harg4 : arg4.IsWhole) :
    out0 c i arg1 harg1 arg3 harg3 arg4 harg4 x0 hx fh = G0 c i x0 hx fh := by
  rw [out0, View.read_writes_junk_eq_canon, kernelRun0]
  dsimp only
  rw [View.canon_unit_zero hz]
  simp only [wrA, wrRowA, Memref.view_squeeze, Memref.view_slice, View.write_reshape_univ]
  refine ((View.readAt_writes_junk_eq_canon arg4.view (rowsA _ _ _ _ _ _ _ _) _).trans (View.ld_unit_zero hz _ _)).trans
    (funext fun y => View.canon_apply_of_pieces (G0 c i x0 hx fh) _ ?_ y (rowsA_cover _ _ _ _ _ _ _ _ y))
  intro p hp
  simp only [List.mem_cons, List.not_mem_nil, or_false] at hp
  rcases hp with rfl | rfl | rfl | rfl | rfl | rfl | rfl | rfl <;>
    exact fun x => piece0_eq c i x0 hx fh _ _ _ (by first | exact congrFun (k0_off15_eq i) 0 | exact congrFun (k0_off13_eq i) 0 | exact congrFun (k0_off11_eq i) 0 | exact congrFun (k0_off9_eq i) 0 | exact congrFun (k0_off7_eq i) 0 | exact congrFun (k0_off5_eq i) 0 | exact congrFun (k0_off3_eq i) 0 | exact congrFun (k0_off1_eq i) 0) _ (harg1.readAt_unread x0 _ _) _ _ _ x

end Block

section Array
variable (V : (c : Dev nD) → (b : Ref sig .tc) → Buf (Elt F) ((c : Thread nD τ).loc b)) (a : (pcfg0 (F := F)).Adm)
  (hT : ∀ (c : Dev nD) (k : S60000.Idx), (tbl0 V c k : BitVec 32).toNat < 100000) (t : Fin (cfg0 a).N)

theorem N0 : (cfg0 a).N = 7500 := N_0

theorem tlt0 : t.val < 7500 := lt_of_lt_of_eq t.isLt (N0 a)

theorem coords0_val : (((cfg0 a).grid.coords t) 0).val = t.val := by
  show t.val / 1 % 7500 = t.val
  rw [Nat.div_one, Nat.mod_eq_of_lt (tlt0 a t)]

theorem index0 : ((cfg0 a).win 0).index t (0 : Fin 2) = t.val := by
  show (BitVec.ofNat 32 (((cfg0 a).grid.coords t) 0).val).toNat = t.val
  rw [coords0_val a t, BitVec.toNat_ofNat, Nat.mod_eq_of_lt (by have := tlt0 a t; omega)]

theorem flush0 : ((cfg0 a).win 0).flush t = true :=
  (Pipeline.Window.flush_out _ rfl t).2 <| (Nat.lt_or_ge (t.val + 1) (cfg0 a).N).symm.imp (Nat.le_antisymm t.isLt) fun h =>
    ⟨h, fun he => absurd ((index0 a ⟨_, h⟩).symm.trans ((congrFun he (0 : Fin 2)).trans (index0 a t))) (Nat.succ_ne_self _)⟩

-- entry (r, q) of point t's block is entry (8 t + r, q) of the array
theorem emb0_val (y : S8x128.Idx) : ((((cfg0 a).win 0).blk t).view.emb y (0 : Fin 2)).val = 8 * t.val + (y 0).val
    ∧ ((((cfg0 a).win 0).blk t).view.emb y (1 : Fin 2)).val = (y 1).val :=
  ⟨show ((cfg0 a).win 0).index t (0 : Fin 2) * 8 + 1 * (y 0).val = _ by rw [index0 a t]; omega, show 0 * 128 + 1 * (y 1).val = _ by omega⟩

theorem flushed0_eq (c : Dev nD) :
    (dat0 V a hT c).flushed 0 t = (((cfg0 a).win 0).blk t).view.read (Elt F) (rows0 c (tbl0 V c) (hT c) (V c main_v16)) := by
  rw [Pipeline.Dat.flushed, after0_out, outsAt0, out0_eq]
  refine funext fun (y : S8x128.Idx) => ?_
  obtain ⟨h0, h1⟩ := emb0_val a t y
  exact congrArg (rows0 c (tbl0 V c) (hT c) (V c main_v16)) (Shape.idx_ext₂ ((congrArg (8 * · + (y 0).val) (coords0_val a t)).trans h0.symm) h1.symm)

-- row j lies in block j / 8 at row j mod 8
theorem covered0 (j : S60000x128.Idx) : ∃ t : Fin (cfg0 a).N, ((cfg0 a).win 0).flush t = true ∧ j ∈ (((cfg0 a).win 0).blk t).view.set := by
  have hj0 : (j 0).val < 60000 := (j 0).isLt
  let t : Fin (cfg0 a).N := ⟨(j 0).val / 8, by rw [N0 a]; omega⟩
  obtain ⟨h0, h1⟩ := emb0_val a t (ix2 ⟨(j 0).val % 8, Nat.mod_lt _ (by omega)⟩ (j 1))
  refine ⟨t, flush0 a t, ?_⟩
  rw [← (Shape.idx_ext₂ (h0.trans (Nat.div_add_mod _ 8)) h1 : (((cfg0 a).win 0).blk t).view.emb _ = j)]
  exact View.emb_mem_set _ _

end Array

theorem region0_arrAt (V : (c : Dev nD) → (b : Ref sig .tc) → Buf (Elt Ideal) ((c : Thread nD τ).loc b)) (a : (pcfg0 (F := Ideal)).Adm)
    (hT : ∀ c k, (tbl0 V c k : BitVec 32).toNat < 100000) (c : Dev nD) :
    (dat0 (F := Ideal) V a hT c).arrAt 0 (cfg0 a).N = Cert.Spec.rows (n := 100000) (d := 128) (k := 60000) (V c main_v16) (V c main_arg3) :=
  ((dat0 V a hT c).arrAt_eq_of_cover 0 _ (fun t _ => flushed0_eq V a hT t c) (covered0 a)).trans
    (funext fun j => by unfold Cert.Spec.rows rows0; rw [dif_pos (hT c _)])

end Cert.Value.R0

end
-- ==== Proof.Value.Region1.lean ====
import proofs.«407256_j33208687133423_1_alg».proof.Proof.KernelIdeal.Region1
import proofs.«407256_j33208687133423_1_alg».proof.Proof.Spec
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

open scoped BigOperators

namespace Cert.Value.R1

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Hand

theorem lhs1_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl

theorem lhs1_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q

theorem rhs1_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q

theorem rhs1_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

theorem matmul1_apply {φ₁ φ₂ : FTy} (a : FVec Ideal S2000x128 φ₁) (b : FVec Ideal S128x128 φ₂) (p : Fin 2000) (q : Fin 128) :
    FloatOps.matmul dot_S2000x128_S128x128_S2000x128_1_0_0_1_n_n none a b (constant (F := Ideal) S2000x128 .f32 0x00000000#32) (ix2 p q)
      = ∑ k : Fin 128, a (ix2 p k) * b (ix2 k q) := by
  rw [Ideal.matmul_constant_zero_apply, ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q) ((contrEquiv1 dot_S2000x128_S128x128_S2000x128_1_0_0_1_n_n 128 rfl rfl).symm k) = ix2 p k := funext fun d => Fin.ext (by
    match d with
    | ⟨0, _⟩ => exact lhs1_0 _ _
    | ⟨1, _⟩ => exact (lhs1_1 _ _).trans hk)
  have er : dot_S2000x128_S128x128_S2000x128_1_0_0_1_n_n.rhsIdx (ix2 p q) ((contrEquiv1 dot_S2000x128_S128x128_S2000x128_1_0_0_1_n_n 128 rfl rfl).symm k) = ix2 k q := funext fun d => Fin.ext (by
    match d with
    | ⟨0, _⟩ => exact (rhs1_0 _ _).trans hk
    | ⟨1, _⟩ => exact rhs1_1 _ _)
  rw [el, er]

theorem biasRows_apply (b : FVec Ideal S1x128 .f32) (p : Fin 2000) (q : Fin 128) :
    broadcastTo S2000x128 b broadcasts_S1x128_S2000x128 (ix2 p q) = b (ix2 (0 : Fin 1) q) :=
  broadcastTo_apply b broadcasts_S1x128_S2000x128 (ix2 p q) (ix2 (0 : Fin 1) q) (fun d => by
    match d with
    | ⟨0, _⟩ => rfl
    | ⟨1, _⟩ => rfl)

theorem pay1_apply (x0 : Vec Ideal S2000x128 .f32) (x1 : Vec Ideal S128x128 .f32) (x2 : Vec Ideal S1x128 .f32) (p : Fin 2000) (q : Fin 128) :
    k1_pay1 (F := Ideal) x0 x1 x2 (ix2 p q) = max ((∑ k : Fin 128, x0 (ix2 p k) * x1 (ix2 k q)) + x2 (ix2 (0 : Fin 1) q)) 0 := by
  unfold k1_pay1
  simp only [shapeCast_self]
  refine (maximumf_apply _ _ _).trans ?_
  rw [broadcast_apply, addf_apply]
  refine congrArg₂ max (congrArg₂ (· + ·) ?_ (biasRows_apply x2 p q)) Ideal.ofBits_zero_f32
  exact matmul1_apply _ _ p q

theorem pay1_eq_spec (x0 : Vec Ideal S2000x128 .f32) (x1 : Vec Ideal S128x128 .f32) (x2 : Vec Ideal S1x128 .f32)
    (X : FVec Ideal (⟨2, ![60000, 128]⟩ : Shape) .f32) (Wm : FVec Ideal (⟨2, ![128, 128]⟩ : Shape) .f32) (B : FVec Ideal (⟨2, ![1, 128]⟩ : Shape) .f32)
    (r : Fin 60000) (p : Fin 2000) (q : Fin 128)
    (h0 : ∀ k : Fin 128, x0 (ix2 p k) = X (ix2 r k)) (h1 : ∀ k : Fin 128, x1 (ix2 k q) = Wm (ix2 k q)) (h2 : x2 (ix2 (0 : Fin 1) q) = B (ix2 (0 : Fin 1) q)) :
    k1_pay1 (F := Ideal) x0 x1 x2 (ix2 p q) = Cert.Spec.relu (Cert.Spec.affine X Wm B) (ix2 r q) := by
  rw [pay1_apply, h2]
  show _ = max ((∑ k : Fin 128, X (ix2 r k) * Wm (ix2 k q)) + B (ix2 (0 : Fin 1) q)) 0
  refine congrArg₂ max (congrArg₂ (· + ·) (Finset.sum_congr rfl fun k _ => ?_) rfl) rfl
  rw [h0 k, h1 k]

section Array

variable (V : (c : Dev nD) → (b : Ref sig .tc) → Buf (Elt Ideal) ((c : Thread nD τ).loc b))

theorem hz : (![0, 0] : Fin 2 → Nat) = fun _ => 0 := funext fun a => by fin_cases a <;> rfl

theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

abbrev G1 (c : Dev nD) : FVec Ideal (⟨2, ![60000, 128]⟩ : Shape) .f32 :=
  Cert.Spec.relu (Cert.Spec.affine (m := 60000) (k := 128) (n := 128) (V c main_v17) (V c main_arg7) (V c main_v18))

theorem iblk1_x_apply (c : Dev nD) (t : Fin cfg1.N) (p : Fin 2000) (k : Fin 128) (r : Fin 60000) (hr : r.val = 2000 * t.val + p.val) :
    (iblk1 V c 0 t : Vec Ideal S2000x128 .f32) (ix2 p k) = (V c main_v17 : S60000x128.Idx → EReal) (ix2 r k) := by
  obtain ⟨e0, e1, -⟩ := idx_facts1 t
  unfold iblk1
  rw [View.read_apply]
  show (V c main_v17 : S60000x128.Idx → EReal) _ = _
  congr 1
  funext a
  apply Fin.ext
  match a with
  | ⟨0, _⟩ => show win1_0.index t (0 : Fin 2) * 2000 + 1 * p.val = r.val; rw [e0, hr]; omega
  | ⟨1, _⟩ => show win1_0.index t (1 : Fin 2) * 128 + 1 * k.val = k.val; rw [e1]; omega

theorem iblk1_w_apply (c : Dev nD) (t : Fin cfg1.N) (k : Fin 128) (q : Fin 128) :
    (iblk1 V c 1 t : Vec Ideal S128x128 .f32) (ix2 k q) = (V c main_arg7 : S128x128.Idx → EReal) (ix2 k q) := by
  obtain ⟨-, -, e2, e3, -⟩ := idx_facts1 t
  unfold iblk1
  rw [View.read_apply]
  show (V c main_arg7 : S128x128.Idx → EReal) _ = _
  congr 1
  funext a
  apply Fin.ext
  match a with
  | ⟨0, _⟩ => show win1_1.index t (0 : Fin 2) * 128 + 1 * k.val = k.val; rw [e2]; omega
  | ⟨1, _⟩ => show win1_1.index t (1 : Fin 2) * 128 + 1 * q.val = q.val; rw [e3]; omega

theorem iblk1_b_apply (c : Dev nD) (t : Fin cfg1.N) (q : Fin 128) :
    (iblk1 V c 2 t : Vec Ideal S1x128 .f32) (ix2 (0 : Fin 1) q) = (V c main_v18 : S1x128.Idx → EReal) (ix2 (0 : Fin 1) q) := by
  obtain ⟨-, -, -, -, e4, e5, -⟩ := idx_facts1 t
  unfold iblk1
  rw [View.read_apply]
  show (V c main_v18 : S1x128.Idx → EReal) _ = _
  congr 1
  funext a
  apply Fin.ext
  match a with
  | ⟨0, _⟩ => show win1_2.index t (0 : Fin 2) * 1 + 1 * 0 = 0; rw [e4]
  | ⟨1, _⟩ => show win1_2.index t (1 : Fin 2) * 128 + 1 * q.val = q.val; rw [e5]; omega

theorem flushed1_eq (c : Dev nD) (t : Fin cfg1.N) :
    (dat1 (F := Ideal) V c).flushed 3 t = ((cfg1.win 3).blk t).view.read (Elt Ideal) (G1 V c) := by
  show (cfg1.win 3).cut (grid1.coords t) ((dat1 (F := Ideal) V c).after 3 t) = _
  rw [after1_out]
  unfold out1
  rw [View.canon_unit_zero hz]
  simp only [View.ld_unit_zero (S := S2000x128) hz, View.ld_unit_zero (S := S128x128) hz, View.ld_unit_zero (S := S1x128) hz]
  obtain ⟨-, -, -, -, -, -, e6, e7⟩ := idx_facts1 t
  have htN : t.val < 30 := lt_of_lt_of_eq t.isLt (show cfg1.N = 30 from N_1)
  funext j
  obtain ⟨p, q, rfl⟩ : ∃ (p : Fin 2000) (q : Fin 128), j = ix2 p q := ⟨j 0, j 1, eq_ix2 j⟩
  rw [View.read_apply]
  have hemb : ((cfg1.win 3).blk t).view.emb (ix2 p q) = (ix2 (⟨2000 * t.val + p.val, by have := p.isLt; omega⟩ : Fin 60000) q : S60000x128.Idx) := by
    funext a
    apply Fin.ext
    match a with
    | ⟨0, _⟩ => show win1_3.index t (0 : Fin 2) * 2000 + 1 * p.val = 2000 * t.val + p.val; rw [e6]; omega
    | ⟨1, _⟩ => show win1_3.index t (1 : Fin 2) * 128 + 1 * q.val = q.val; rw [e7]; omega
  rw [hemb]
  exact pay1_eq_spec _ _ _ _ _ _ _ p q (fun k => iblk1_x_apply V c t p k _ rfl) (fun k => iblk1_w_apply V c t k q) (iblk1_b_apply V c t q)

theorem mem_blk1 (t : Fin cfg1.N) (i : S60000x128.Idx) :
    i ∈ ((cfg1.win 3).blk t).view.set ↔ ∀ a : Fin 2, win1_3.index t a * S2000x128.size a ≤ (i a).val ∧ (i a).val < win1_3.index t a * S2000x128.size a + S2000x128.size a := by
  show i ∈ ((View.whole main_v19).slice (win1_3.rect t)).set ↔ _
  rw [View.set_slice_whole, Rect.mem_set_unit]
  exact Iff.rfl

theorem cover1 (i : S60000x128.Idx) : ∃ t : Fin cfg1.N, (cfg1.win 3).flush t = true ∧ i ∈ ((cfg1.win 3).blk t).view.set := by
  have hi0 : (i 0).val < 60000 := (i 0).isLt
  have hi1 : (i 1).val < 128 := (i 1).isLt
  have hN : cfg1.N = 30 := N_1
  let t : Fin cfg1.N := ⟨(i 0).val / 2000, by rw [hN]; omega⟩
  obtain ⟨-, -, -, -, -, -, e6, e7⟩ := idx_facts1 t
  have ht : t.val = (i 0).val / 2000 := rfl
  refine ⟨t, flush1_3 t, ?_⟩
  rw [mem_blk1]
  intro a
  match a with
  | ⟨0, _⟩ => show win1_3.index t (0 : Fin 2) * 2000 ≤ (i 0).val ∧ (i 0).val < win1_3.index t (0 : Fin 2) * 2000 + 2000; rw [e6, ht]; omega
  | ⟨1, _⟩ => show win1_3.index t (1 : Fin 2) * 128 ≤ (i 1).val ∧ (i 1).val < win1_3.index t (1 : Fin 2) * 128 + 128; rw [e7]; omega

theorem region1_arrAt (c : Dev nD) :
    (dat1 (F := Ideal) V c).arrAt 3 cfg1.N
      = Cert.Spec.relu (Cert.Spec.affine (m := 60000) (k := 128) (n := 128) (V c main_v17) (V c main_arg7) (V c main_v18)) :=
  (dat1 (F := Ideal) V c).arrAt_eq_of_cover 3 (G1 V c) (fun t _ => flushed1_eq V c t) (cover1)

end Array

end Cert.Value.R1

end
-- ==== Proof.Value.Region2.lean ====
import proofs.«407256_j33208687133423_1_alg».proof.Proof.KernelIdeal.Region2Dat
import proofs.«407256_j33208687133423_1_alg».proof.Proof.Spec

set_option maxRecDepth 16384

noncomputable section

namespace Cert.Value.R2

open Idealize.ShloMosaic Idealize.ShloMosaic.TcCoe Idealize.ShloMosaic.ValueIdx
open Cert.KernelIdeal Cert.KernelIdeal.Gen Cert.KernelIdeal.Hand Cert.Rows

variable {F : FTy → Type} [FloatOps F]

theorem hz : (![0, 0] : Fin 2 → Nat) = fun _ => 0 := funext fun a => by fin_cases a <;> rfl

section Block
variable (c : Dev nD) (i : grid2.Coords) (x0 : Vec F S100000 .i32) (hx : ∀ k, (x0 k : BitVec 32).toNat < 60000)
  (fh : HbBuf2 (F := F) c hbM2) {arg1 : Memref sig .tc .smem S100000 .i32} (harg1 : arg1.IsWhole)

-- row j of the result is the source's row that the table's word j names
def rows0 (j : S100000x128.Idx) : Elt F .f32 :=
  (fh : S60000x128.Idx → Elt F .f32) (ix2 ⟨(x0 (ix1 (j 0)) : BitVec 32).toNat, hx _⟩ (j 1))

theorem lt0 (r : ℕ) (hr : r < 8) : 8 * (i 0).val + r < 100000 := by
  have h0 : (i 0).val < 12500 := (i 0).isLt
  omega

-- the block at grid point i is rows 8 i … 8 i + 7 of the result
def G0 (y : S8x128.Idx) : Elt F .f32 := rows0 c x0 hx fh (ix2 ⟨_, lt0 i _ (y 0).isLt⟩ (y 1))

-- the two one-row reshapes undo one another, so entry q of the copied row lands on entry q of row ρ
theorem piece0_eq (ρ : ℕ) (hρ : ρ < 8) (k : S100000.Idx) (hk : (k (0 : Fin 1)).val = 8 * (i 0).val + ρ) (w : BitVec 32) (hw : w = x0 k)
    (inbS : ∀ a, (![w.toNat, 0] : Fin 2 → Nat) a + S1x128.size a ≤ S60000x128.size a)
    (hq : S128.numel = (Rect.unit (s := S60000x128) ![w.toNat, 0] S1x128.size inbS).shape.numel)
    (hq' : S128.numel = (rowA ρ hρ).shape.numel) (x : (rowA ρ hρ).shape.Idx) :
    (fh : S60000x128.Idx → Elt F .f32) ((Rect.unit (s := S60000x128) ![w.toNat, 0] S1x128.size inbS).emb (Shape.reshapeEquiv hq ((Shape.reshapeEquiv hq').symm x)))
      = G0 c i x0 hx fh ((rowA ρ hρ).emb x) := by
  subst hw
  have hx0 : (x 0).val = 0 := Nat.lt_one_iff.1 (x 0).isLt
  have e : Shape.reshapeEquiv hq ((Shape.reshapeEquiv hq').symm x) = x := Equiv.apply_symm_apply _ x
  rw [e]
  have hk' : ix1 (⟨8 * (i 0).val + (ρ + 1 * (x 0).val), by have := lt0 i ρ hρ; omega⟩ : Fin 100000) = k :=
    funext fun | ⟨0, _⟩ => Fin.ext (by show 8 * (i 0).val + (ρ + 1 * (x 0).val) = (k (0 : Fin 1)).val; omega)
  refine congrArg fh (Shape.idx_ext₂ ?_ rfl)
  show (x0 k : BitVec 32).toNat + 1 * (x 0).val = (x0 (ix1 ⟨8 * (i 0).val + (ρ + 1 * (x 0).val), _⟩) : BitVec 32).toNat
  rw [hk']; omega

theorem out2_eq {arg3 arg4 : Memref sig .tc .vmem S8x128 .f32} (harg3 : arg3.IsWhole) (harg4 : arg4.IsWhole) :
    out2 c i arg1 harg1 arg3 harg3 arg4 harg4 x0 hx fh = G0 c i x0 hx fh := by
  rw [out2, View.read_writes_junk_eq_canon, kernelRun2]
  dsimp only
  rw [View.canon_unit_zero hz]
  simp only [wrA, wrRowA, Memref.view_squeeze, Memref.view_slice, View.write_reshape_univ]
  refine ((View.readAt_writes_junk_eq_canon arg4.view (rowsA _ _ _ _ _ _ _ _) _).trans (View.ld_unit_zero hz _ _)).trans
    (funext fun y => View.canon_apply_of_pieces (G0 c i x0 hx fh) _ ?_ y (rowsA_cover _ _ _ _ _ _ _ _ y))
  intro p hp
  simp only [List.mem_cons, List.not_mem_nil, or_false] at hp
  rcases hp with rfl | rfl | rfl | rfl | rfl | rfl | rfl | rfl <;>
    exact fun x => piece0_eq c i x0 hx fh _ _ _ (by first | exact congrFun (k2_off15_eq i) 0 | exact congrFun (k2_off13_eq i) 0 | exact congrFun (k2_off11_eq i) 0 | exact congrFun (k2_off9_eq i) 0 | exact congrFun (k2_off7_eq i) 0 | exact congrFun (k2_off5_eq i) 0 | exact congrFun (k2_off3_eq i) 0 | exact congrFun (k2_off1_eq i) 0) _ (harg1.readAt_unread x0 _ _) _ _ _ x

end Block

section Array
variable (V : (c : Dev nD) → (b : Ref sig .tc) → Buf (Elt F) ((c : Thread nD τ).loc b)) (a : (pcfg2 (F := F)).Adm)
  (hT : ∀ (c : Dev nD) (k : S100000.Idx), (tbl2 V c k : BitVec 32).toNat < 60000) (t : Fin (cfg2 a).N)

theorem N0 : (cfg2 a).N = 12500 := N_2

theorem tlt0 : t.val < 12500 := lt_of_lt_of_eq t.isLt (N0 a)

theorem coords0_val : (((cfg2 a).grid.coords t) 0).val = t.val := by
  show t.val / 1 % 12500 = t.val
  rw [Nat.div_one, Nat.mod_eq_of_lt (tlt0 a t)]

theorem index0 : ((cfg2 a).win 0).index t (0 : Fin 2) = t.val := by
  show (BitVec.ofNat 32 (((cfg2 a).grid.coords t) 0).val).toNat = t.val
  rw [coords0_val a t, BitVec.toNat_ofNat, Nat.mod_eq_of_lt (by have := tlt0 a t; omega)]

theorem flush0 : ((cfg2 a).win 0).flush t = true :=
  (Pipeline.Window.flush_out _ rfl t).2 <| (Nat.lt_or_ge (t.val + 1) (cfg2 a).N).symm.imp (Nat.le_antisymm t.isLt) fun h =>
    ⟨h, fun he => absurd ((index0 a ⟨_, h⟩).symm.trans ((congrFun he (0 : Fin 2)).trans (index0 a t))) (Nat.succ_ne_self _)⟩

-- entry (r, q) of point t's block is entry (8 t + r, q) of the array
theorem emb0_val (y : S8x128.Idx) : ((((cfg2 a).win 0).blk t).view.emb y (0 : Fin 2)).val = 8 * t.val + (y 0).val
    ∧ ((((cfg2 a).win 0).blk t).view.emb y (1 : Fin 2)).val = (y 1).val :=
  ⟨show ((cfg2 a).win 0).index t (0 : Fin 2) * 8 + 1 * (y 0).val = _ by rw [index0 a t]; omega, show 0 * 128 + 1 * (y 1).val = _ by omega⟩

theorem flushed0_eq (c : Dev nD) :
    (dat2 V a hT c).flushed 0 t = (((cfg2 a).win 0).blk t).view.read (Elt F) (rows0 c (tbl2 V c) (hT c) (V c main_v19)) := by
  rw [Pipeline.Dat.flushed, after2_out, outsAt2, out2_eq]
  refine funext fun (y : S8x128.Idx) => ?_
  obtain ⟨h0, h1⟩ := emb0_val a t y
  exact congrArg (rows0 c (tbl2 V c) (hT c) (V c main_v19)) (Shape.idx_ext₂ ((congrArg (8 * · + (y 0).val) (coords0_val a t)).trans h0.symm) h1.symm)

-- row j lies in block j / 8 at row j mod 8
theorem covered0 (j : S100000x128.Idx) : ∃ t : Fin (cfg2 a).N, ((cfg2 a).win 0).flush t = true ∧ j ∈ (((cfg2 a).win 0).blk t).view.set := by
  have hj0 : (j 0).val < 100000 := (j 0).isLt
  let t : Fin (cfg2 a).N := ⟨(j 0).val / 8, by rw [N0 a]; omega⟩
  obtain ⟨h0, h1⟩ := emb0_val a t (ix2 ⟨(j 0).val % 8, Nat.mod_lt _ (by omega)⟩ (j 1))
  refine ⟨t, flush0 a t, ?_⟩
  rw [← (Shape.idx_ext₂ (h0.trans (Nat.div_add_mod _ 8)) h1 : (((cfg2 a).win 0).blk t).view.emb _ = j)]
  exact View.emb_mem_set _ _

end Array

theorem region2_arrAt (V : (c : Dev nD) → (b : Ref sig .tc) → Buf (Elt Ideal) ((c : Thread nD τ).loc b)) (a : (pcfg2 (F := Ideal)).Adm)
    (hT : ∀ c k, (tbl2 V c k : BitVec 32).toNat < 60000) (c : Dev nD) :
    (dat2 (F := Ideal) V a hT c).arrAt 0 (cfg2 a).N = Cert.Spec.rows (n := 60000) (d := 128) (k := 100000) (V c main_v19) (V c main_arg4) :=
  ((dat2 V a hT c).arrAt_eq_of_cover 0 _ (fun t _ => flushed0_eq V a hT t c) (covered0 a)).trans
    (funext fun j => by unfold Cert.Spec.rows rows0; rw [dif_pos (hT c _)])

end Cert.Value.R2

end
-- ==== Proof.Value.Region3.lean ====
import proofs.«407256_j33208687133423_1_alg».proof.Proof.KernelIdeal.Region3Dat
import proofs.«407256_j33208687133423_1_alg».proof.Proof.Spec

set_option maxRecDepth 16384

noncomputable section

namespace Cert.Value.R3

open Idealize.ShloMosaic Idealize.ShloMosaic.TcCoe Idealize.ShloMosaic.ValueIdx
open Cert.KernelIdeal Cert.KernelIdeal.Gen Cert.KernelIdeal.Hand Cert.Rows

variable {F : FTy → Type} [FloatOps F]

theorem hz : (![0, 0] : Fin 2 → Nat) = fun _ => 0 := funext fun a => by fin_cases a <;> rfl

section Block
variable (c : Dev nD) (i : grid3.Coords) (x0 : Vec F S60000 .i32) (hx : ∀ k, (x0 k : BitVec 32).toNat < 100000)
  (fh : HbBuf3 (F := F) c hbM3) {arg1 : Memref sig .tc .smem S60000 .i32} (harg1 : arg1.IsWhole)

-- row j of the result is the source's row that the table's word j names
def rows0 (j : S60000x128.Idx) : Elt F .f32 :=
  (fh : S100000x128.Idx → Elt F .f32) (ix2 ⟨(x0 (ix1 (j 0)) : BitVec 32).toNat, hx _⟩ (j 1))

theorem lt0 (r : ℕ) (hr : r < 8) : 8 * (i 0).val + r < 60000 := by
  have h0 : (i 0).val < 7500 := (i 0).isLt
  omega

-- the block at grid point i is rows 8 i … 8 i + 7 of the result
def G0 (y : S8x128.Idx) : Elt F .f32 := rows0 c x0 hx fh (ix2 ⟨_, lt0 i _ (y 0).isLt⟩ (y 1))

-- the two one-row reshapes undo one another, so entry q of the copied row lands on entry q of row ρ
theorem piece0_eq (ρ : ℕ) (hρ : ρ < 8) (k : S60000.Idx) (hk : (k (0 : Fin 1)).val = 8 * (i 0).val + ρ) (w : BitVec 32) (hw : w = x0 k)
    (inbS : ∀ a, (![w.toNat, 0] : Fin 2 → Nat) a + S1x128.size a ≤ S100000x128.size a)
    (hq : S128.numel = (Rect.unit (s := S100000x128) ![w.toNat, 0] S1x128.size inbS).shape.numel)
    (hq' : S128.numel = (rowA ρ hρ).shape.numel) (x : (rowA ρ hρ).shape.Idx) :
    (fh : S100000x128.Idx → Elt F .f32) ((Rect.unit (s := S100000x128) ![w.toNat, 0] S1x128.size inbS).emb (Shape.reshapeEquiv hq ((Shape.reshapeEquiv hq').symm x)))
      = G0 c i x0 hx fh ((rowA ρ hρ).emb x) := by
  subst hw
  have hx0 : (x 0).val = 0 := Nat.lt_one_iff.1 (x 0).isLt
  have e : Shape.reshapeEquiv hq ((Shape.reshapeEquiv hq').symm x) = x := Equiv.apply_symm_apply _ x
  rw [e]
  have hk' : ix1 (⟨8 * (i 0).val + (ρ + 1 * (x 0).val), by have := lt0 i ρ hρ; omega⟩ : Fin 60000) = k :=
    funext fun | ⟨0, _⟩ => Fin.ext (by show 8 * (i 0).val + (ρ + 1 * (x 0).val) = (k (0 : Fin 1)).val; omega)
  refine congrArg fh (Shape.idx_ext₂ ?_ rfl)
  show (x0 k : BitVec 32).toNat + 1 * (x 0).val = (x0 (ix1 ⟨8 * (i 0).val + (ρ + 1 * (x 0).val), _⟩) : BitVec 32).toNat
  rw [hk']; omega

theorem out3_eq {arg3 arg4 : Memref sig .tc .vmem S8x128 .f32} (harg3 : arg3.IsWhole) (harg4 : arg4.IsWhole) :
    out3 c i arg1 harg1 arg3 harg3 arg4 harg4 x0 hx fh = G0 c i x0 hx fh := by
  rw [out3, View.read_writes_junk_eq_canon, kernelRun3]
  dsimp only
  rw [View.canon_unit_zero hz]
  simp only [wrA, wrRowA, Memref.view_squeeze, Memref.view_slice, View.write_reshape_univ]
  refine ((View.readAt_writes_junk_eq_canon arg4.view (rowsA _ _ _ _ _ _ _ _) _).trans (View.ld_unit_zero hz _ _)).trans
    (funext fun y => View.canon_apply_of_pieces (G0 c i x0 hx fh) _ ?_ y (rowsA_cover _ _ _ _ _ _ _ _ y))
  intro p hp
  simp only [List.mem_cons, List.not_mem_nil, or_false] at hp
  rcases hp with rfl | rfl | rfl | rfl | rfl | rfl | rfl | rfl <;>
    exact fun x => piece0_eq c i x0 hx fh _ _ _ (by first | exact congrFun (k3_off15_eq i) 0 | exact congrFun (k3_off13_eq i) 0 | exact congrFun (k3_off11_eq i) 0 | exact congrFun (k3_off9_eq i) 0 | exact congrFun (k3_off7_eq i) 0 | exact congrFun (k3_off5_eq i) 0 | exact congrFun (k3_off3_eq i) 0 | exact congrFun (k3_off1_eq i) 0) _ (harg1.readAt_unread x0 _ _) _ _ _ x

end Block

section Array
variable (V : (c : Dev nD) → (b : Ref sig .tc) → Buf (Elt F) ((c : Thread nD τ).loc b)) (a : (pcfg3 (F := F)).Adm)
  (hT : ∀ (c : Dev nD) (k : S60000.Idx), (tbl3 V c k : BitVec 32).toNat < 100000) (t : Fin (cfg3 a).N)

theorem N0 : (cfg3 a).N = 7500 := N_3

theorem tlt0 : t.val < 7500 := lt_of_lt_of_eq t.isLt (N0 a)

theorem coords0_val : (((cfg3 a).grid.coords t) 0).val = t.val := by
  show t.val / 1 % 7500 = t.val
  rw [Nat.div_one, Nat.mod_eq_of_lt (tlt0 a t)]

theorem index0 : ((cfg3 a).win 0).index t (0 : Fin 2) = t.val := by
  show (BitVec.ofNat 32 (((cfg3 a).grid.coords t) 0).val).toNat = t.val
  rw [coords0_val a t, BitVec.toNat_ofNat, Nat.mod_eq_of_lt (by have := tlt0 a t; omega)]

theorem flush0 : ((cfg3 a).win 0).flush t = true :=
  (Pipeline.Window.flush_out _ rfl t).2 <| (Nat.lt_or_ge (t.val + 1) (cfg3 a).N).symm.imp (Nat.le_antisymm t.isLt) fun h =>
    ⟨h, fun he => absurd ((index0 a ⟨_, h⟩).symm.trans ((congrFun he (0 : Fin 2)).trans (index0 a t))) (Nat.succ_ne_self _)⟩

-- entry (r, q) of point t's block is entry (8 t + r, q) of the array
theorem emb0_val (y : S8x128.Idx) : ((((cfg3 a).win 0).blk t).view.emb y (0 : Fin 2)).val = 8 * t.val + (y 0).val
    ∧ ((((cfg3 a).win 0).blk t).view.emb y (1 : Fin 2)).val = (y 1).val :=
  ⟨show ((cfg3 a).win 0).index t (0 : Fin 2) * 8 + 1 * (y 0).val = _ by rw [index0 a t]; omega, show 0 * 128 + 1 * (y 1).val = _ by omega⟩

theorem flushed0_eq (c : Dev nD) :
    (dat3 V a hT c).flushed 0 t = (((cfg3 a).win 0).blk t).view.read (Elt F) (rows0 c (tbl3 V c) (hT c) (V c main_v37)) := by
  rw [Pipeline.Dat.flushed, after3_out, outsAt3, out3_eq]
  refine funext fun (y : S8x128.Idx) => ?_
  obtain ⟨h0, h1⟩ := emb0_val a t y
  exact congrArg (rows0 c (tbl3 V c) (hT c) (V c main_v37)) (Shape.idx_ext₂ ((congrArg (8 * · + (y 0).val) (coords0_val a t)).trans h0.symm) h1.symm)

-- row j lies in block j / 8 at row j mod 8
theorem covered0 (j : S60000x128.Idx) : ∃ t : Fin (cfg3 a).N, ((cfg3 a).win 0).flush t = true ∧ j ∈ (((cfg3 a).win 0).blk t).view.set := by
  have hj0 : (j 0).val < 60000 := (j 0).isLt
  let t : Fin (cfg3 a).N := ⟨(j 0).val / 8, by rw [N0 a]; omega⟩
  obtain ⟨h0, h1⟩ := emb0_val a t (ix2 ⟨(j 0).val % 8, Nat.mod_lt _ (by omega)⟩ (j 1))
  refine ⟨t, flush0 a t, ?_⟩
  rw [← (Shape.idx_ext₂ (h0.trans (Nat.div_add_mod _ 8)) h1 : (((cfg3 a).win 0).blk t).view.emb _ = j)]
  exact View.emb_mem_set _ _

end Array

theorem region3_arrAt (V : (c : Dev nD) → (b : Ref sig .tc) → Buf (Elt Ideal) ((c : Thread nD τ).loc b)) (a : (pcfg3 (F := Ideal)).Adm)
    (hT : ∀ c k, (tbl3 V c k : BitVec 32).toNat < 100000) (c : Dev nD) :
    (dat3 (F := Ideal) V a hT c).arrAt 0 (cfg3 a).N = Cert.Spec.rows (n := 100000) (d := 128) (k := 60000) (V c main_v37) (V c main_arg5) :=
  ((dat3 V a hT c).arrAt_eq_of_cover 0 _ (fun t _ => flushed0_eq V a hT t c) (covered0 a)).trans
    (funext fun j => by unfold Cert.Spec.rows rows0; rw [dif_pos (hT c _)])

end Cert.Value.R3

end
-- ==== Proof.Value.Region4.lean ====
import proofs.«407256_j33208687133423_1_alg».proof.Proof.KernelIdeal.Region4
import proofs.«407256_j33208687133423_1_alg».proof.Proof.Spec
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

open scoped BigOperators

namespace Cert.Value.R4

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Hand

theorem hz4 : (![0, 0] : Fin 2 → Nat) = fun _ => 0 := funext fun a => by fin_cases a <;> rfl

theorem lhs4_0 (i : S2000x64.Idx) (q : dot_S2000x128_S128x64_S2000x64_1_0_0_1_n_n.contr.Idx) :
    (dot_S2000x128_S128x64_S2000x64_1_0_0_1_n_n.lhsIdx i q 0).val = (i 0).val := by
  unfold DotDims.lhsIdx
  rw [dif_neg (show ¬(0 : Fin S2000x128.rank) ∈ dot_S2000x128_S128x64_S2000x64_1_0_0_1_n_n.lhsBatch by decide), dif_pos (show (0 : Fin S2000x128.rank) ∈ dot_S2000x128_S128x64_S2000x64_1_0_0_1_n_n.lhsNonContracting by decide)]
  rfl
theorem lhs4_1 (i : S2000x64.Idx) (q : dot_S2000x128_S128x64_S2000x64_1_0_0_1_n_n.contr.Idx) :
    (dot_S2000x128_S128x64_S2000x64_1_0_0_1_n_n.lhsIdx i q 1).val = (q ⟨0, by decide⟩).val :=
  dot_S2000x128_S128x64_S2000x64_1_0_0_1_n_n.lhsIdx_val_of_single rfl i q
theorem rhs4_0 (i : S2000x64.Idx) (q : dot_S2000x128_S128x64_S2000x64_1_0_0_1_n_n.contr.Idx) :
    (dot_S2000x128_S128x64_S2000x64_1_0_0_1_n_n.rhsIdx i q 0).val = (q ⟨0, by decide⟩).val :=
  dot_S2000x128_S128x64_S2000x64_1_0_0_1_n_n.rhsIdx_val_of_single rfl i q
theorem rhs4_1 (i : S2000x64.Idx) (q : dot_S2000x128_S128x64_S2000x64_1_0_0_1_n_n.contr.Idx) :
    (dot_S2000x128_S128x64_S2000x64_1_0_0_1_n_n.rhsIdx i q 1).val = (i 1).val := by
  unfold DotDims.rhsIdx
  rw [dif_neg (show ¬(1 : Fin S128x64.rank) ∈ dot_S2000x128_S128x64_S2000x64_1_0_0_1_n_n.rhsBatch by decide), dif_pos (show (1 : Fin S128x64.rank) ∈ dot_S2000x128_S128x64_S2000x64_1_0_0_1_n_n.rhsNonContracting by decide)]
  rfl

theorem matmul4_apply (x : FVec Ideal S2000x128 .bf16) (w : FVec Ideal S128x64 .bf16) (p : Fin 2000) (q : Fin 64) :
    matmul dot_S2000x128_S128x64_S2000x64_1_0_0_1_n_n none x w (constant (F := Ideal) S2000x64 .f32 0x00000000#32) (ix2 p q)
      = ∑ k : Fin 128, x (ix2 p k) * w (ix2 k q) := by
  refine (Ideal.matmul_constant_zero_apply dot_S2000x128_S128x64_S2000x64_1_0_0_1_n_n none x w (ix2 p q)).trans ?_
  rw [← Equiv.sum_comp (contrEquiv1 dot_S2000x128_S128x64_S2000x64_1_0_0_1_n_n 128 rfl rfl).symm]
  refine Finset.sum_congr rfl fun k _ => ?_
  have hk := contrEquiv1_symm_val dot_S2000x128_S128x64_S2000x64_1_0_0_1_n_n 128 rfl rfl k
  have el : dot_S2000x128_S128x64_S2000x64_1_0_0_1_n_n.lhsIdx (ix2 p q) ((contrEquiv1 dot_S2000x128_S128x64_S2000x64_1_0_0_1_n_n 128 rfl rfl).symm k) = ix2 p k := funext fun a => Fin.ext (by
    match a with
    | ⟨0, _⟩ => exact lhs4_0 _ _
    | ⟨1, _⟩ => exact (lhs4_1 _ _).trans hk)
  have er : dot_S2000x128_S128x64_S2000x64_1_0_0_1_n_n.rhsIdx (ix2 p q) ((contrEquiv1 dot_S2000x128_S128x64_S2000x64_1_0_0_1_n_n 128 rfl rfl).symm k) = ix2 k q := funext fun a => Fin.ext (by
    match a with
    | ⟨0, _⟩ => exact (rhs4_0 _ _).trans hk
    | ⟨1, _⟩ => exact rhs4_1 _ _)
  rw [el, er]

theorem bias4_apply (b : FVec Ideal S1x64 .f32) (p : Fin 2000) (q : Fin 64) :
    broadcastTo S2000x64 b broadcasts_S1x64_S2000x64 (ix2 p q) = b (ix2 (0 : Fin 1) q) :=
  broadcastTo_apply b broadcasts_S1x64_S2000x64 (ix2 p q) (ix2 (0 : Fin 1) q) fun a => by
    match a with
    | ⟨0, _⟩ => rfl
    | ⟨1, _⟩ => rfl

theorem pay4_apply (x : Vec Ideal S2000x128 .f32) (w : Vec Ideal S128x64 .f32) (b : Vec Ideal S1x64 .f32) (p : Fin 2000) (q : Fin 64) :
    k4_pay1 (F := Ideal) x w b (ix2 p q) = (∑ k : Fin 128, x (ix2 p k) * w (ix2 k q)) + b (ix2 (0 : Fin 1) q) := by
  unfold k4_pay1
  rw [addf_apply, matmul4_apply, bias4_apply, shapeCast_self, shapeCast_self]
  rfl

section Blocks

variable (V : (c : Dev nD) → (b : Ref sig .tc) → Buf (Elt Ideal) ((c : Thread nD τ).loc b))

theorem idx4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

theorem rows4_apply (c : Dev nD) (t : Fin cfg4.N) (p : Fin 2000) (k : Fin 128) (r : Fin 60000) (hr : r.val = 2000 * t.val + p.val) :
    (iblk4 V c 0 t : Vec Ideal S2000x128 .f32) (ix2 p k) = (V c main_v38 : S60000x128.Idx → Elt Ideal .f32) (ix2 r k) := by
  obtain ⟨e0, e1, -⟩ := idx4 t
  unfold iblk4
  rw [View.read_apply]
  show V c main_v38 _ = V c main_v38 _
  congr 1
  funext a
  apply Fin.ext
  match a with
  | ⟨0, _⟩ => show win4_0.index t (0 : Fin 2) * 2000 + 1 * p.val = r.val; rw [e0, hr]; omega
  | ⟨1, _⟩ => show win4_0.index t (1 : Fin 2) * 128 + 1 * k.val = k.val; rw [e1]; omega

theorem weights4_apply (c : Dev nD) (t : Fin cfg4.N) (k : Fin 128) (q : Fin 64) :
    (iblk4 V c 1 t : Vec Ideal S128x64 .f32) (ix2 k q) = (V c main_arg9 : S128x64.Idx → Elt Ideal .f32) (ix2 k q) := by
  obtain ⟨-, -, e0, e1, -⟩ := idx4 t
  unfold iblk4
  rw [View.read_apply]
  show V c main_arg9 _ = V c main_arg9 _
  congr 1
  funext a
  apply Fin.ext
  match a with
  | ⟨0, _⟩ => show win4_1.index t (0 : Fin 2) * 128 + 1 * k.val = k.val; rw [e0]; omega
  | ⟨1, _⟩ => show win4_1.index t (1 : Fin 2) * 64 + 1 * q.val = q.val; rw [e1]; omega

theorem bias4_blk_apply (c : Dev nD) (t : Fin cfg4.N) (z : Fin 1) (q : Fin 64) :
    (iblk4 V c 2 t : Vec Ideal S1x64 .f32) (ix2 z q) = (V c main_v39 : S1x64.Idx → Elt Ideal .f32) (ix2 z q) := by
  obtain ⟨-, -, -, -, e0, e1, -⟩ := idx4 t
  unfold iblk4
  rw [View.read_apply]
  show V c main_v39 _ = V c main_v39 _
  congr 1
  funext a
  apply Fin.ext
  match a with
  | ⟨0, _⟩ => show win4_2.index t (0 : Fin 2) * 1 + 1 * z.val = z.val; rw [e0]; omega
  | ⟨1, _⟩ => show win4_2.index t (1 : Fin 2) * 64 + 1 * q.val = q.val; rw [e1]; omega

theorem affine4_at (X : FVec Ideal S60000x128 .f32) (W : FVec Ideal S128x64 .f32) (B : FVec Ideal S1x64 .f32) (r : Fin 60000) (q : Fin 64) :
    Cert.Spec.affine (m := 60000) (k := 128) (n := 64) X W B (ix2 r q) = (∑ k : Fin 128, X (ix2 r k) * W (ix2 k q)) + B (ix2 (0 : Fin 1) q) := rfl

abbrev G4 (c : Dev nD) : S60000x64.Idx → Elt Ideal .f32 :=
  Cert.Spec.affine (m := 60000) (k := 128) (n := 64) (V c main_v38) (V c main_arg9) (V c main_v39)

theorem flushed4_eq (c : Dev nD) (t : Fin cfg4.N) :
    (dat4 (F := Ideal) V c).flushed 3 t = ((cfg4.win 3).blk t).view.read (Elt Ideal) (G4 V c) := by
  show (cfg4.win 3).cut (grid4.coords t) ((dat4 (F := Ideal) V c).after 3 t) = _
  rw [after4_out]
  unfold out4
  rw [View.canon_unit_zero hz4]
  simp only [View.ld_unit_zero (S := S2000x128) hz4, View.ld_unit_zero (S := S128x64) hz4, View.ld_unit_zero (S := S1x64) hz4]
  obtain ⟨-, -, -, -, -, -, e0, e1⟩ := idx4 t
  funext j
  obtain ⟨p, q, rfl⟩ : ∃ (p : Fin 2000) (q : Fin 64), j = ix2 p q := ⟨j 0, j 1, eq_ix2 j⟩
  have hp := p.isLt
  have ht : t.val < 30 := t.isLt
  have hemb : ((cfg4.win 3).blk t).view.emb (ix2 p q) = (ix2 (⟨2000 * t.val + p.val, by omega⟩ : Fin 60000) q : S60000x64.Idx) := by
    funext a
    apply Fin.ext
    match a with
    | ⟨0, _⟩ => show win4_3.index t (0 : Fin 2) * 2000 + 1 * p.val = 2000 * t.val + p.val; rw [e0]; omega
    | ⟨1, _⟩ => show win4_3.index t (1 : Fin 2) * 64 + 1 * q.val = q.val; rw [e1]; omega
  show k4_pay1 (F := Ideal) (iblk4 V c 0 t) (iblk4 V c 1 t) (iblk4 V c 2 t) (ix2 p q) = G4 V c (((cfg4.win 3).blk t).view.emb (ix2 p q))
  rw [hemb]
  refine ((pay4_apply _ _ _ p q).trans ?_).trans (affine4_at _ _ _ _ q).symm
  refine congrArg₂ (· + ·) (Finset.sum_congr rfl fun k _ => ?_) ?_
  · exact congrArg₂ (· * ·) (rows4_apply V c t p k _ rfl) (weights4_apply V c t k q)
  · exact bias4_blk_apply V c t 0 q

theorem mem_blk4 (t : Fin cfg4.N) (i : S60000x64.Idx) :
    i ∈ ((cfg4.win 3).blk t).view.set ↔ ∀ a : Fin 2, win4_3.index t a * S2000x64.size a ≤ (i a).val ∧ (i a).val < win4_3.index t a * S2000x64.size a + S2000x64.size a := by
  show i ∈ ((View.whole main_v40).slice (win4_3.rect t)).set ↔ _
  rw [View.set_slice_whole, Rect.mem_set_unit]
  exact Iff.rfl

theorem cover4_arr (i : S60000x64.Idx) : ∃ t : Fin cfg4.N, (cfg4.win 3).flush t = true ∧ i ∈ ((cfg4.win 3).blk t).view.set := by
  have hi0 : (i 0).val < 60000 := (i 0).isLt
  have hi1 : (i 1).val < 64 := (i 1).isLt
  let t : Fin cfg4.N := ⟨(i 0).val / 2000, by show (i 0).val / 2000 < 30; omega⟩
  obtain ⟨-, -, -, -, -, -, e0, e1⟩ := idx4 t
  refine ⟨t, flush4_3 t, ?_⟩
  rw [mem_blk4]
  intro a
  match a with
  | ⟨0, _⟩ => show win4_3.index t (0 : Fin 2) * 2000 ≤ (i 0).val ∧ (i 0).val < win4_3.index t (0 : Fin 2) * 2000 + 2000; rw [e0]; show (i 0).val / 2000 * 2000 ≤ (i 0).val ∧ (i 0).val < (i 0).val / 2000 * 2000 + 2000; omega
  | ⟨1, _⟩ => show win4_3.index t (1 : Fin 2) * 64 ≤ (i 1).val ∧ (i 1).val < win4_3.index t (1 : Fin 2) * 64 + 64; rw [e1]; omega

theorem region4_arrAt (c : Dev nD) :
    (dat4 (F := Ideal) V c).arrAt 3 cfg4.N = Cert.Spec.affine (m := 60000) (k := 128) (n := 64) (V c main_v38) (V c main_arg9) (V c main_v39) :=
  (dat4 (F := Ideal) V c).arrAt_eq_of_cover 3 (G4 V c) (fun t _ => flushed4_eq V c t) cover4_arr

end Blocks

end Cert.Value.R4
end
-- ==== Proof.Value.Region5.lean ====
import proofs.«407256_j33208687133423_1_alg».proof.Proof.KernelIdeal.Region5Dat
import proofs.«407256_j33208687133423_1_alg».proof.Proof.Spec

set_option maxRecDepth 16384

noncomputable section

namespace Cert.Value.R5

open Idealize.ShloMosaic Idealize.ShloMosaic.TcCoe Idealize.ShloMosaic.ValueIdx
open Cert.KernelIdeal Cert.KernelIdeal.Gen Cert.KernelIdeal.Hand Cert.Rows

variable {F : FTy → Type} [FloatOps F]

theorem hz : (![0, 0] : Fin 2 → Nat) = fun _ => 0 := funext fun a => by fin_cases a <;> rfl

section Block
variable (c : Dev nD) (i : grid5.Coords) (x0 : Vec F S100000 .i32) (hx : ∀ k, (x0 k : BitVec 32).toNat < 60000)
  (fh : HbBuf5 (F := F) c hbM5) {arg1 : Memref sig .tc .smem S100000 .i32} (harg1 : arg1.IsWhole)

-- row j of the result is the source's row that the table's word j names
def rows0 (j : S100000x64.Idx) : Elt F .f32 :=
  (fh : S60000x64.Idx → Elt F .f32) (ix2 ⟨(x0 (ix1 (j 0)) : BitVec 32).toNat, hx _⟩ (j 1))

theorem lt0 (r : ℕ) (hr : r < 8) : 8 * (i 0).val + r < 100000 := by
  have h0 : (i 0).val < 12500 := (i 0).isLt
  omega

-- the block at grid point i is rows 8 i … 8 i + 7 of the result
def G0 (y : S8x64.Idx) : Elt F .f32 := rows0 c x0 hx fh (ix2 ⟨_, lt0 i _ (y 0).isLt⟩ (y 1))

-- the two one-row reshapes undo one another, so entry q of the copied row lands on entry q of row ρ
theorem piece0_eq (ρ : ℕ) (hρ : ρ < 8) (k : S100000.Idx) (hk : (k (0 : Fin 1)).val = 8 * (i 0).val + ρ) (w : BitVec 32) (hw : w = x0 k)
    (inbS : ∀ a, (![w.toNat, 0] : Fin 2 → Nat) a + S1x64.size a ≤ S60000x64.size a)
    (hq : S64.numel = (Rect.unit (s := S60000x64) ![w.toNat, 0] S1x64.size inbS).shape.numel)
    (hq' : S64.numel = (rowB ρ hρ).shape.numel) (x : (rowB ρ hρ).shape.Idx) :
    (fh : S60000x64.Idx → Elt F .f32) ((Rect.unit (s := S60000x64) ![w.toNat, 0] S1x64.size inbS).emb (Shape.reshapeEquiv hq ((Shape.reshapeEquiv hq').symm x)))
      = G0 c i x0 hx fh ((rowB ρ hρ).emb x) := by
  subst hw
  have hx0 : (x 0).val = 0 := Nat.lt_one_iff.1 (x 0).isLt
  have e : Shape.reshapeEquiv hq ((Shape.reshapeEquiv hq').symm x) = x := Equiv.apply_symm_apply _ x
  rw [e]
  have hk' : ix1 (⟨8 * (i 0).val + (ρ + 1 * (x 0).val), by have := lt0 i ρ hρ; omega⟩ : Fin 100000) = k :=
    funext fun | ⟨0, _⟩ => Fin.ext (by show 8 * (i 0).val + (ρ + 1 * (x 0).val) = (k (0 : Fin 1)).val; omega)
  refine congrArg fh (Shape.idx_ext₂ ?_ rfl)
  show (x0 k : BitVec 32).toNat + 1 * (x 0).val = (x0 (ix1 ⟨8 * (i 0).val + (ρ + 1 * (x 0).val), _⟩) : BitVec 32).toNat
  rw [hk']; omega

theorem out5_eq {arg3 arg4 : Memref sig .tc .vmem S8x64 .f32} (harg3 : arg3.IsWhole) (harg4 : arg4.IsWhole) :
    out5 c i arg1 harg1 arg3 harg3 arg4 harg4 x0 hx fh = G0 c i x0 hx fh := by
  rw [out5, View.read_writes_junk_eq_canon, kernelRun5]
  dsimp only
  rw [View.canon_unit_zero hz]
  simp only [wrB, wrRowB, Memref.view_squeeze, Memref.view_slice, View.write_reshape_univ]
  refine ((View.readAt_writes_junk_eq_canon arg4.view (rowsB _ _ _ _ _ _ _ _) _).trans (View.ld_unit_zero hz _ _)).trans
    (funext fun y => View.canon_apply_of_pieces (G0 c i x0 hx fh) _ ?_ y (rowsB_cover _ _ _ _ _ _ _ _ y))
  intro p hp
  simp only [List.mem_cons, List.not_mem_nil, or_false] at hp
  rcases hp with rfl | rfl | rfl | rfl | rfl | rfl | rfl | rfl <;>
    exact fun x => piece0_eq c i x0 hx fh _ _ _ (by first | exact congrFun (k5_off15_eq i) 0 | exact congrFun (k5_off13_eq i) 0 | exact congrFun (k5_off11_eq i) 0 | exact congrFun (k5_off9_eq i) 0 | exact congrFun (k5_off7_eq i) 0 | exact congrFun (k5_off5_eq i) 0 | exact congrFun (k5_off3_eq i) 0 | exact congrFun (k5_off1_eq i) 0) _ (harg1.readAt_unread x0 _ _) _ _ _ x

end Block

section Array
variable (V : (c : Dev nD) → (b : Ref sig .tc) → Buf (Elt F) ((c : Thread nD τ).loc b)) (a : (pcfg5 (F := F)).Adm)
  (hT : ∀ (c : Dev nD) (k : S100000.Idx), (tbl5 V c k : BitVec 32).toNat < 60000) (t : Fin (cfg5 a).N)

theorem N0 : (cfg5 a).N = 12500 := N_5

theorem tlt0 : t.val < 12500 := lt_of_lt_of_eq t.isLt (N0 a)

theorem coords0_val : (((cfg5 a).grid.coords t) 0).val = t.val := by
  show t.val / 1 % 12500 = t.val
  rw [Nat.div_one, Nat.mod_eq_of_lt (tlt0 a t)]

theorem index0 : ((cfg5 a).win 0).index t (0 : Fin 2) = t.val := by
  show (BitVec.ofNat 32 (((cfg5 a).grid.coords t) 0).val).toNat = t.val
  rw [coords0_val a t, BitVec.toNat_ofNat, Nat.mod_eq_of_lt (by have := tlt0 a t; omega)]

theorem flush0 : ((cfg5 a).win 0).flush t = true :=
  (Pipeline.Window.flush_out _ rfl t).2 <| (Nat.lt_or_ge (t.val + 1) (cfg5 a).N).symm.imp (Nat.le_antisymm t.isLt) fun h =>
    ⟨h, fun he => absurd ((index0 a ⟨_, h⟩).symm.trans ((congrFun he (0 : Fin 2)).trans (index0 a t))) (Nat.succ_ne_self _)⟩

-- entry (r, q) of point t's block is entry (8 t + r, q) of the array
theorem emb0_val (y : S8x64.Idx) : ((((cfg5 a).win 0).blk t).view.emb y (0 : Fin 2)).val = 8 * t.val + (y 0).val
    ∧ ((((cfg5 a).win 0).blk t).view.emb y (1 : Fin 2)).val = (y 1).val :=
  ⟨show ((cfg5 a).win 0).index t (0 : Fin 2) * 8 + 1 * (y 0).val = _ by rw [index0 a t]; omega, show 0 * 64 + 1 * (y 1).val = _ by omega⟩

theorem flushed0_eq (c : Dev nD) :
    (dat5 V a hT c).flushed 0 t = (((cfg5 a).win 0).blk t).view.read (Elt F) (rows0 c (tbl5 V c) (hT c) (V c main_v40)) := by
  rw [Pipeline.Dat.flushed, after5_out, outsAt5, out5_eq]
  refine funext fun (y : S8x64.Idx) => ?_
  obtain ⟨h0, h1⟩ := emb0_val a t y
  exact congrArg (rows0 c (tbl5 V c) (hT c) (V c main_v40)) (Shape.idx_ext₂ ((congrArg (8 * · + (y 0).val) (coords0_val a t)).trans h0.symm) h1.symm)

-- row j lies in block j / 8 at row j mod 8
theorem covered0 (j : S100000x64.Idx) : ∃ t : Fin (cfg5 a).N, ((cfg5 a).win 0).flush t = true ∧ j ∈ (((cfg5 a).win 0).blk t).view.set := by
  have hj0 : (j 0).val < 100000 := (j 0).isLt
  let t : Fin (cfg5 a).N := ⟨(j 0).val / 8, by rw [N0 a]; omega⟩
  obtain ⟨h0, h1⟩ := emb0_val a t (ix2 ⟨(j 0).val % 8, Nat.mod_lt _ (by omega)⟩ (j 1))
  refine ⟨t, flush0 a t, ?_⟩
  rw [← (Shape.idx_ext₂ (h0.trans (Nat.div_add_mod _ 8)) h1 : (((cfg5 a).win 0).blk t).view.emb _ = j)]
  exact View.emb_mem_set _ _

end Array

theorem region5_arrAt (V : (c : Dev nD) → (b : Ref sig .tc) → Buf (Elt Ideal) ((c : Thread nD τ).loc b)) (a : (pcfg5 (F := Ideal)).Adm)
    (hT : ∀ c k, (tbl5 V c k : BitVec 32).toNat < 60000) (c : Dev nD) :
    (dat5 (F := Ideal) V a hT c).arrAt 0 (cfg5 a).N = Cert.Spec.rows (n := 60000) (d := 64) (k := 100000) (V c main_v40) (V c main_arg6) :=
  ((dat5 V a hT c).arrAt_eq_of_cover 0 _ (fun t _ => flushed0_eq V a hT t c) (covered0 a)).trans
    (funext fun j => by unfold Cert.Spec.rows rows0; rw [dif_pos (hT c _)])

end Cert.Value.R5

end
-- ==== Proof.Value.Region6.lean ====
import proofs.«407256_j33208687133423_1_alg».proof.Proof.KernelIdeal.Region6
import proofs.«407256_j33208687133423_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.Value.R6

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Hand
open scoped BigOperators

theorem hz6 : (![0, 0] : Fin 2 → Nat) = fun _ => 0 := funext fun a => by fin_cases a <;> rfl

theorem rowMax6 (x : FVec Ideal S2000x64 .f32) (h : S2000x64.Reduces [1] S2000) (hacc : (0xFF800000#32 : BitVec 32) = 0xFF800000#32) (p : Fin 2000) :
    multiReduction (F := Ideal) .maximumf [1] S2000 x 0xFF800000#32 h (.inl rfl) hacc (ix1 p) = Cert.Spec.rowMax x p := by
  refine (Ideal.multiReduction_maximumf_single x 0xFF800000#32 h (.inl rfl) hacc (ix1 p)).trans ?_
  unfold Cert.Spec.rowMax
  have e : FloatOps.ofBits (F := Ideal) .f32 0xFF800000#32 = (⊥ : EReal) := by
    show Ideal.ofBits .f32 0xFF800000#32 = ⊥
    simp [Ideal.ofBits, Ideal.ieee]
  rw [e]
  refine congrArg (fun f => Finset.fold max (⊥ : EReal) f (Finset.univ : Finset (Fin 64))) (funext fun k => congrArg x ?_)
  funext a
  apply Fin.ext
  match a with
  | ⟨0, _⟩ => rfl
  | ⟨1, _⟩ => rfl

theorem rowSum6 (x : FVec Ideal S2000x64 .f32) (h : S2000x64.Reduces [1] S2000) (hacc : (0x00000000#32 : BitVec 32) = 0x00000000#32) (p : Fin 2000) :
    multiReduction (F := Ideal) .add [1] S2000 x 0x00000000#32 h (.inl rfl) hacc (ix1 p) = ∑ k : Fin 64, x (ix2 p k) := by
  refine (Ideal.multiReduction_add_single x 0x00000000#32 h (.inl rfl) hacc (ix1 p)).trans ?_
  refine Finset.sum_congr rfl fun k _ => congrArg x ?_
  funext a
  apply Fin.ext
  match a with
  | ⟨0, _⟩ => rfl
  | ⟨1, _⟩ => rfl

theorem col6 {α : Type} (v : S2000.Idx → α) (h : S2000.ShapeCasts S2000x1) (p : Fin 2000) (z : Fin 1) :
    shapeCast S2000x1 v h (ix2 p z) = v (ix1 p) := by
  refine shapeCast_apply v h (ix2 p z) (ix1 p) ?_
  rw [Shape.rowMajor_val_one, Shape.rowMajor_val_two]
  have := z.isLt
  show p.val = p.val * 1 + z.val
  omega

theorem spread6 {α : Type} (v : S2000x1.Idx → α) (h : S2000x1.Broadcasts S2000x64) (p : Fin 2000) (q : Fin 64) :
    broadcastTo S2000x64 v h (ix2 p q) = v (ix2 p (0 : Fin 1)) := by
  refine broadcastTo_apply v h (ix2 p q) (ix2 p (0 : Fin 1)) fun a => ?_
  match a with
  | ⟨0, _⟩ => rfl
  | ⟨1, _⟩ => rfl

theorem exp6_apply {s : Shape} {φ : FTy} (v : FVec Ideal s φ) (i : s.Idx) : exp v i = Ideal.exp (v i) := rfl
theorem log6_apply {s : Shape} {φ : FTy} (v : FVec Ideal s φ) (i : s.Idx) : log v i = Ideal.log (v i) := rfl

theorem pay6_eq (x : FVec Ideal S2000x64 .f32) : k6_pay1 (F := Ideal) x = Cert.Spec.logSoftmax x := by
  funext j
  obtain ⟨p, q, rfl⟩ : ∃ (p : Fin 2000) (q : Fin 64), j = ix2 p q := ⟨j 0, j 1, eq_ix2 j⟩
  unfold k6_pay1 Cert.Spec.logSoftmax
  simp only [subf_apply, shapeCast_self]
  rw [spread6, spread6]
  show _ = x (ix2 p q) - Cert.Spec.rowMax x p - Ideal.log (∑ c : Fin 64, Ideal.exp (x (ix2 p c) - Cert.Spec.rowMax x p))
  rw [log6_apply, col6, col6, rowMax6, rowSum6]
  simp only [exp6_apply, subf_apply, spread6, col6]
  refine congrArg (fun s => x (ix2 p q) - Cert.Spec.rowMax x p - Ideal.log s) (Finset.sum_congr rfl fun k _ => ?_)
  rw [rowMax6]

theorem logSoftmax_rows (X : FVec Ideal (⟨2, ![100000, 64]⟩ : Shape) .f32) (b : FVec Ideal S2000x64 .f32) (o : Nat) (ho : o + 2000 ≤ 100000)
    (hb : ∀ (p : Fin 2000) (k : Fin 64), b (ix2 p k) = X (ix2 (⟨o + p.val, by have := p.isLt; omega⟩ : Fin 100000) k))
    (p : Fin 2000) (q : Fin 64) :
    Cert.Spec.logSoftmax b (ix2 p q) = Cert.Spec.logSoftmax X (ix2 (⟨o + p.val, by have := p.isLt; omega⟩ : Fin 100000) q) := by
  unfold Cert.Spec.logSoftmax Cert.Spec.rowMax
  show b (ix2 p q) - Finset.fold max (⊥ : EReal) (fun c => b (ix2 p c)) Finset.univ
        - Ideal.log (∑ c : Fin 64, Ideal.exp (b (ix2 p c) - Finset.fold max (⊥ : EReal) (fun c => b (ix2 p c)) Finset.univ)) = _
  simp only [hb]

theorem idx_facts6 : ∀ t : Fin cfg6.N, win6_0.index t (0 : Fin 2) = t.val ∧ win6_0.index t (1 : Fin 2) = 0
    ∧ win6_1.index t (0 : Fin 2) = t.val ∧ win6_1.index t (1 : Fin 2) = 0 :=
  (by decide +kernel : ∀ t : Fin grid6.N, _)

section
variable (V : (c : Dev nD) → (b : Ref sig .tc) → Buf (Elt Ideal) ((c : Thread nD τ).loc b))

theorem iblk6_apply (c : Dev nD) (t : Fin cfg6.N) (p : Fin 2000) (k : Fin 64) (hr : t.val * 2000 + p.val < 100000) :
    (iblk6 V c 0 t : FVec Ideal S2000x64 .f32) (ix2 p k)
      = (V c main_v41 : (⟨2, ![100000, 64]⟩ : Shape).Idx → Ideal .f32) (ix2 (⟨t.val * 2000 + p.val, hr⟩ : Fin 100000) k) := by
  obtain ⟨e0, e1, -, -⟩ := idx_facts6 t
  unfold iblk6
  rw [View.read_apply]
  show V c main_v41 _ = V c main_v41 _
  congr 1
  funext a
  apply Fin.ext
  match a with
  | ⟨0, _⟩ => show win6_0.index t (0 : Fin 2) * 2000 + 1 * p.val = t.val * 2000 + p.val; rw [e0]; omega
  | ⟨1, _⟩ => show win6_0.index t (1 : Fin 2) * 64 + 1 * k.val = k.val; rw [e1]; omega

theorem flushed6_eq (c : Dev nD) (t : Fin cfg6.N) :
    (dat6 (F := Ideal) V c).flushed 1 t
      = ((cfg6.win 1).blk t).view.read (Elt Ideal) (Cert.Spec.logSoftmax (m := 100000) (n := 64) (V c main_v41)) := by
  have hN : t.val < 50 := lt_of_lt_of_eq t.isLt N_6
  obtain ⟨-, -, e2, e3⟩ := idx_facts6 t
  show (cfg6.win 1).cut (grid6.coords t) ((dat6 V c).after 1 t) = _
  rw [after6_out]
  unfold out6
  rw [View.canon_unit_zero hz6]
  simp only [View.ld_unit_zero (S := S2000x64) hz6]
  rw [pay6_eq]
  funext y
  have hy0 : (y 0).val < 2000 := (y 0).isLt
  have hy1 : (y 1).val < 64 := (y 1).isLt
  rw [View.read_apply]
  have e1 : (cfg6.win 1).xinj (grid6.coords t) y = ix2 (⟨(y 0).val, hy0⟩ : Fin 2000) (⟨(y 1).val, hy1⟩ : Fin 64) :=
    funext fun a => by match a with | ⟨0, _⟩ => rfl | ⟨1, _⟩ => rfl
  have e4 : ((cfg6.win 1).blk t).view.emb y = ix2 (⟨t.val * 2000 + (y 0).val, by omega⟩ : Fin 100000) (⟨(y 1).val, hy1⟩ : Fin 64) := by
    funext a
    apply Fin.ext
    match a with
    | ⟨0, _⟩ => show win6_1.index t (0 : Fin 2) * 2000 + 1 * (y 0).val = t.val * 2000 + (y 0).val; rw [e2]; omega
    | ⟨1, _⟩ => show win6_1.index t (1 : Fin 2) * 64 + 1 * (y 1).val = (y 1).val; rw [e3]; omega
  show Cert.Spec.logSoftmax (m := 2000) (n := 64) (iblk6 V c 0 t) ((cfg6.win 1).xinj (grid6.coords t) y)
      = Cert.Spec.logSoftmax (m := 100000) (n := 64) (V c main_v41) (((cfg6.win 1).blk t).view.emb y)
  rw [e1, e4]
  exact logSoftmax_rows (V c main_v41) (iblk6 V c 0 t) (t.val * 2000) (by omega)
    (fun p k => iblk6_apply V c t p k (by have := p.isLt; omega)) _ _

theorem mem_blk6 (t : Fin cfg6.N) (i : (⟨2, ![100000, 64]⟩ : Shape).Idx) :
    i ∈ ((cfg6.win 1).blk t).view.set ↔ ∀ a : Fin 2, win6_1.index t a * S2000x64.size a ≤ (i a).val ∧ (i a).val < win6_1.index t a * S2000x64.size a + S2000x64.size a := by
  show i ∈ ((View.whole main_v42).slice (win6_1.rect t)).set ↔ _
  rw [View.set_slice_whole, Rect.mem_set_unit]
  exact Iff.rfl

theorem cover6_arr (i : (⟨2, ![100000, 64]⟩ : Shape).Idx) :
    ∃ t : Fin cfg6.N, (cfg6.win 1).flush t = true ∧ i ∈ ((cfg6.win 1).blk t).view.set := by
  have hi0 : (i 0).val < 100000 := (i 0).isLt
  have hi1 : (i 1).val < 64 := (i 1).isLt
  have hN : cfg6.N = 50 := N_6
  let t : Fin cfg6.N := ⟨(i 0).val / 2000, by rw [hN]; omega⟩
  obtain ⟨-, -, e2, e3⟩ := idx_facts6 t
  have ht : t.val = (i 0).val / 2000 := rfl
  refine ⟨t, flush6_1 t, ?_⟩
  rw [mem_blk6]
  intro a
  match a with
  | ⟨0, _⟩ => show win6_1.index t (0 : Fin 2) * 2000 ≤ (i 0).val ∧ (i 0).val < win6_1.index t (0 : Fin 2) * 2000 + 2000; rw [e2, ht]; omega
  | ⟨1, _⟩ => show win6_1.index t (1 : Fin 2) * 64 ≤ (i 1).val ∧ (i 1).val < win6_1.index t (1 : Fin 2) * 64 + 64; rw [e3]; omega

theorem region6_arrAt (c : Dev nD) :
    (dat6 (F := Ideal) V c).arrAt 1 cfg6.N = Cert.Spec.logSoftmax (m := 100000) (n := 64) (V c main_v41) :=
  (dat6 (F := Ideal) V c).arrAt_eq_of_cover 1 (Cert.Spec.logSoftmax (m := 100000) (n := 64) (V c main_v41))
    (fun t _ => flushed6_eq V c t) cover6_arr

end

end Cert.Value.R6

end
-- ==== Proof.RefStages.lean ====
import proofs.«407256_j33208687133423_1_alg».proof.Proof.RefRead
import Idealize.ShloMosaic.Lib.StableHlo.Run
import Idealize.ShloMosaic.Lib.Pipeline.Frame

noncomputable section

namespace Cert.RefStages

open Cert.ReferenceIdeal Cert.ReferenceIdeal.Gen Idealize.ShloMosaic Idealize.ShloMosaic.TcCoe Idealize.SL.Sem Idealize.ShloMosaic.StableHlo
open Cert.ReferenceIdeal.ReadP Cert.ReferenceIdeal.ValueP

variable {F : FTy → Type} [FloatOps F] (W : Valuation τ sig (Elt F))

theorem cast_cancel {α β : Type} (h : α = β) (h' : β = α) (v : β) : cast h (cast h' v) = v := by
  subst h; rfl

abbrev args : List (Ref sig .tc) := [main_arg0, main_arg1, main_arg2, main_arg3, main_arg4, main_arg5, main_arg6, main_arg7, main_arg8, main_arg9, main_arg10]

abbrev A (r : Ref sig .tc) := W (Proc.devRef .tc r)

-- Each operation writes one reference, and none of these is an argument.
theorem arg_not_written : (ops : List (HloOp τ sig (Elt F))).Forall fun op => ∀ r ∈ args, Proc.devRef .tc r ∉ op.writes := by
  simp only [ops, List.Forall, nullary_writes, unary_writes, binary_writes, ternary_writes, reshape_writes, Finset.mem_singleton, (Proc.devRef_injective (τ := τ) (sig := sig) .tc).eq_iff]
  (repeat' constructor) <;> decide

-- So an argument keeps its contents through any part of the operations.
theorem kept {l : List (HloOp τ sig (Elt F))} (hl : l ⊆ ops) (r : Ref sig .tc) (hr : r ∈ args) : after l W (Proc.devRef .tc r) = W (Proc.devRef .tc r) :=
  after_of_forall_not_mem l W fun op ho => List.forall_iff_forall_mem.mp arg_not_written op (hl ho) r hr

theorem ops_fresh : ∀ op ∈ (ops : List (HloOp τ sig (Elt F))), op.fresh = ∅ :=
  List.forall_iff_forall_mem.mp (by simp only [ops, List.Forall]; repeat' constructor)

-- The first m + n operations are the first m, then the n after them.
theorem step (m n : Nat) : after (ops.take (m + n)) W = after ((ops.drop m).take n) (after (ops.take m) W) := by
  rw [List.take_add, after_append]

-- A stage is the value one stretch of the operations hands on, as a function of the arguments. Each stretch reads arguments, which are as at the start, and the stage before it, which is taken over folded.
theorem stage1 : after (ops.take 20) W (Proc.devRef .tc main_v16) = val_main_v16 (F := F) (A W main_arg0) (A W main_arg1) (A W main_arg2) := by
  simp only [ops, List.take_succ_cons, List.take_zero]
  after_results_simp
  rfl

theorem stage2 : after (ops.take (20 + 16)) W (Proc.devRef .tc main_v28) = val_main_v28 (F := F) (A W main_arg0) (A W main_arg1) (A W main_arg2) (A W main_arg3) (A W main_arg7) (A W main_arg8) := by
  have hv := stage1 W
  have k := kept W (List.take_subset 20 ops)
  rw [step]
  generalize after (ops.take 20) W = V at hv k ⊢
  simp only [ops, Nat.reduceAdd, List.take_succ_cons, List.take_zero, List.drop_succ_cons, List.drop_zero]
  after_results_simp
  rw [hv, k main_arg3 (by decide), k main_arg7 (by decide), k main_arg8 (by decide)]
  rfl

theorem stage3 : after (ops.take (20 + 16 + 9)) W (Proc.devRef .tc main_v35) = val_main_v35 (F := F) (A W main_arg0) (A W main_arg1) (A W main_arg2) (A W main_arg3) (A W main_arg4) (A W main_arg7) (A W main_arg8) := by
  have hv := stage2 W
  have k := kept W (List.take_subset (20 + 16) ops)
  rw [step]
  generalize after (ops.take (20 + 16)) W = V at hv k ⊢
  simp only [ops, Nat.reduceAdd, List.take_succ_cons, List.take_zero, List.drop_succ_cons, List.drop_zero]
  after_results_simp
  rw [hv, k main_arg4 (by decide)]
  rfl

theorem stage4 : after (ops.take (20 + 16 + 9 + 20)) W (Proc.devRef .tc main_v52) = val_main_v52 (F := F) (A W main_arg0) (A W main_arg1) (A W main_arg2) (A W main_arg3) (A W main_arg4) (A W main_arg7) (A W main_arg8) := by
  have hv := stage3 W
  have k := kept W (List.take_subset (20 + 16 + 9) ops)
  rw [step]
  generalize after (ops.take (20 + 16 + 9)) W = V at hv k ⊢
  simp only [ops, Nat.reduceAdd, List.take_succ_cons, List.take_zero, List.drop_succ_cons, List.drop_zero]
  after_results_simp
  rw [hv, k main_arg1 (by decide), k main_arg2 (by decide)]
  rfl

theorem stage5 : after (ops.take (20 + 16 + 9 + 20 + 13)) W (Proc.devRef .tc main_v63) = val_main_v63 (F := F) (A W main_arg0) (A W main_arg1) (A W main_arg2) (A W main_arg3) (A W main_arg4) (A W main_arg5) (A W main_arg7) (A W main_arg8) (A W main_arg9) (A W main_arg10) := by
  have hv := stage4 W
  have k := kept W (List.take_subset (20 + 16 + 9 + 20) ops)
  rw [step]
  generalize after (ops.take (20 + 16 + 9 + 20)) W = V at hv k ⊢
  simp only [ops, Nat.reduceAdd, List.take_succ_cons, List.take_zero, List.drop_succ_cons, List.drop_zero]
  after_results_simp
  rw [hv, k main_arg5 (by decide), k main_arg9 (by decide), k main_arg10 (by decide)]
  rfl

theorem stage6 : after (ops.take (20 + 16 + 9 + 20 + 13 + 9)) W (Proc.devRef .tc main_v70) = val_main_v70 (F := F) (A W main_arg0) (A W main_arg1) (A W main_arg2) (A W main_arg3) (A W main_arg4) (A W main_arg5) (A W main_arg6) (A W main_arg7) (A W main_arg8) (A W main_arg9) (A W main_arg10) := by
  have hv := stage5 W
  have k := kept W (List.take_subset (20 + 16 + 9 + 20 + 13) ops)
  rw [step]
  generalize after (ops.take (20 + 16 + 9 + 20 + 13)) W = V at hv k ⊢
  simp only [ops, Nat.reduceAdd, List.take_succ_cons, List.take_zero, List.drop_succ_cons, List.drop_zero]
  after_results_simp
  rw [hv, k main_arg6 (by decide)]
  rfl

-- The result's contents may be read at its tensor type: the move between the two types is the identity.
theorem of_ofBuf {V : Valuation τ sig (Elt F)} {t} (h : (TRef.of (T := ⟨S100000x64, .f32⟩) main_v71).ofBuf (V (Proc.devRef .tc main_v71)) = t) : V (Proc.devRef .tc main_v71) = t := h

-- The last stretch is a called function's body, whose values move between a reference's type and the tensor type at every operation; each such pair of moves cancels.
theorem after_ops : after (ops (F := F)) W (Proc.devRef .tc main_v71) = val_main_v71 (F := F) (A W main_arg0) (A W main_arg1) (A W main_arg2) (A W main_arg3) (A W main_arg4) (A W main_arg5) (A W main_arg6) (A W main_arg7) (A W main_arg8) (A W main_arg9) (A W main_arg10) := by
  have hv := stage6 W
  rw [← List.take_append_drop (20 + 16 + 9 + 20 + 13 + 9) ops, after_append]
  generalize after (ops.take (20 + 16 + 9 + 20 + 13 + 9)) W = V at hv ⊢
  refine of_ofBuf ?_
  simp only [ops, Nat.reduceAdd, List.take_succ_cons, List.take_zero, List.drop_succ_cons, List.drop_zero]
  after_results_simp
  simp only [cast_cancel]
  unfold val_main_v71 val_main_call1_v10 val_main_call1_v9 val_main_call1_v8 val_main_call1_v7 val_main_call1_cst_1 val_main_call1_v6 val_main_call1_v5 val_main_call1_v4 val_main_call1_v3 val_main_call1_v2 val_main_call1_v1 val_main_call1_cst_0 val_main_call1_v0 val_main_call1_cst
  rw [← hv]
  rfl

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v71) = val_main_v71 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun s h c =>
      have g : ∀ r ∈ args, s.2.mem ((c.tc : Thread nD τ).loc r) = m ((c.tc : Thread nD τ).loc r) := fun r hr => (h c r).trans (kept _ (fun _ h => h) r hr)
      ⟨(h c main_v71).trans (after_ops _), g _ (by decide), g _ (by decide), g _ (by decide), g _ (by decide), g _ (by decide), g _ (by decide), g _ (by decide), g _ (by decide), g _ (by decide), g _ (by decide), g _ (by decide)⟩)
    (run_seq scopedRefs_eq scopedSems_eq defs main (fun _ => ops) main_eq (fun _ => ops_sub) m ρ (fun _ => ops_fresh))

end Cert.RefStages

end
-- ==== Proof.RefClaims.lean ====
import proofs.«407256_j33208687133423_1_alg».proof.Defs
import proofs.«407256_j33208687133423_1_alg».proof.Proof.Gen.ReferenceIdeal
import proofs.«407256_j33208687133423_1_alg».proof.Proof.Gen.Pre_finite_inputs
import proofs.«407256_j33208687133423_1_alg».proof.Proof.RefStages
import proofs.«407256_j33208687133423_1_alg».proof.Proof.RefValue

noncomputable section

namespace Cert.RefClaims

open Idealize.ShloMosaic Idealize.ShloMosaic.TcCoe Idealize.SL.Sem Cert.ReferenceIdeal

def whole (x0 : FVec Ideal S100000x128 .f32) (x1 : IVec S2x1600000 32) (x2 : FVec Ideal S1600000 .f32) (x3 : IVec S60000 32)
    (x4 : IVec S100000 32) (x5 : IVec S60000 32) (x6 : IVec S100000 32) (x7 : FVec Ideal S128x128 .f32) (x8 : FVec Ideal S128 .f32)
    (x9 : FVec Ideal S128x64 .f32) (x10 : FVec Ideal S64 .f32) : FVec Ideal S100000x64 .f32 :=
  Cert.Spec.logSoftmax (Cert.Spec.rows (Cert.Spec.affine (Cert.Spec.rows (Cert.RefValue.propagate (Cert.Spec.rows
    (Cert.Spec.relu (Cert.Spec.affine (Cert.Spec.rows (Cert.RefValue.propagate x0 x1 x2) x3) x7 (Cert.Spec.biasRow x8))) x4)
    x1 x2) x5) x9 (Cert.Spec.biasRow x10)) x6)

theorem frame : Cert.frame_ReferenceIdeal := fun m ρ _ =>
  (θ_run Cert.ReferenceIdeal.defs _ _).mono (fun _ h c => (h c).2) (Cert.RefStages.run (F := Ideal) m ρ)

theorem run_whole (m : (ℓ : Loc nD τ sig) → Buf (Elt Ideal) ℓ) (ρ : Dev nD → PrngReg)
    (h3 : ∀ (c : Dev nD) k, ((m ((c.tc : Thread nD τ).loc main_arg3) : IVec S60000 32) k).toNat < 100000)
    (h4 : ∀ (c : Dev nD) k, ((m ((c.tc : Thread nD τ).loc main_arg4) : IVec S100000 32) k).toNat < 60000)
    (h5 : ∀ (c : Dev nD) k, ((m ((c.tc : Thread nD τ).loc main_arg5) : IVec S60000 32) k).toNat < 100000)
    (h6 : ∀ (c : Dev nD) k, ((m ((c.tc : Thread nD τ).loc main_arg6) : IVec S100000 32) k).toNat < 60000) :
    θ_run (Cert.ReferenceIdeal.defs (F := Ideal)) (onTc (τ := τ) (main (F := Ideal))) ⟨m, fun _ => 0, ρ⟩ fun r => ∀ c : Dev nD,
      r.2.mem ((c.tc : Thread nD τ).loc main_v71) = whole (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run Cert.ReferenceIdeal.defs _ _).mono
    (fun _ h c => ⟨(h c).1.trans (Cert.RefValue.result_eq _ _ _ _ _ _ _ _ _ _ _ (h3 c) (h4 c) (h5 c) (h6 c)), (h c).2⟩)
    (Cert.RefStages.run (F := Ideal) m ρ)

end Cert.RefClaims

end
-- ==== Proof.Bridge.lean ====
import proofs.«407256_j33208687133423_1_alg».proof.Proof.KernelIdeal.Run.Fold
import proofs.«407256_j33208687133423_1_alg».proof.Proof.Value.HostStretches
import proofs.«407256_j33208687133423_1_alg».proof.Proof.Value.Region0
import proofs.«407256_j33208687133423_1_alg».proof.Proof.Value.Region1
import proofs.«407256_j33208687133423_1_alg».proof.Proof.Value.Region2
import proofs.«407256_j33208687133423_1_alg».proof.Proof.Value.Region3
import proofs.«407256_j33208687133423_1_alg».proof.Proof.Value.Region4
import proofs.«407256_j33208687133423_1_alg».proof.Proof.Value.Region5
import proofs.«407256_j33208687133423_1_alg».proof.Proof.Value.Region6
import proofs.«407256_j33208687133423_1_alg».proof.Proof.RefClaims

noncomputable section

namespace Cert.Bridge

open Cert.KernelIdeal Cert.KernelIdeal.Gen Cert.KernelIdeal.Hand
open Idealize.ShloMosaic Idealize.ShloMosaic.TcCoe Idealize.SL.Sem

variable (m : (ℓ : Loc nD τ sig) → Buf (Elt Ideal) ℓ) (ρ : Dev nD → PrngReg)
variable (hR : Ranges m)

/-- Core `c`'s argument buffer `b` as launched. -/
abbrev arg (c : Dev nD) (b : Ref sig .tc) : Buf (Elt Ideal) ((c : Thread nD τ).loc b) := m ((c : Thread nD τ).loc b)
/-- The stages of `whole` in order: scatter-add over the edges, rows picked, affine map and positive part, rows picked back, scatter-add again. -/
abbrev p1 (c : Dev nD) := Cert.RefValue.propagate (arg m c main_arg0) (arg m c main_arg1) (arg m c main_arg2)
abbrev g1 (c : Dev nD) := Cert.Spec.rows (p1 m c) (arg m c main_arg3)
abbrev l1 (c : Dev nD) := Cert.Spec.relu (Cert.Spec.affine (g1 m c) (arg m c main_arg7) (Cert.Spec.biasRow (arg m c main_arg8)))
abbrev g2 (c : Dev nD) := Cert.Spec.rows (l1 m c) (arg m c main_arg4)
abbrev p2 (c : Dev nD) := Cert.RefValue.propagate (g2 m c) (arg m c main_arg1) (arg m c main_arg2)

theorem src0 (c : Dev nD) : V1 m ρ c main_v16 = p1 m c :=
  (V1_src m ρ c).trans ((after_hostOps0 (W0 m ρ c)).trans (Cert.Value.propagate_eq _ _ _))

theorem out0 (c : Dev nD) : V3 m ρ hR c main_v17 = g1 m c := by
  rw [V3_x, Cert.Value.R0.region0_arrAt, src0, show V1 m ρ c main_arg3 = arg m c main_arg3 from kept1 m ρ c _ (by decide)]

theorem bias1 (c : Dev nD) : V3 m ρ hR c main_v18 = Cert.Spec.biasRow (arg m c main_arg8) := by
  rw [V3_b, after_hostOps1, show W2 m ρ hR c (Proc.devRef .tc main_arg8) = arg m c main_arg8 from kept2 m ρ hR c _ (by decide)]
  exact Cert.Value.biasRow128 _

theorem out1 (c : Dev nD) : V4 m ρ hR c main_v19 = l1 m c := by
  rw [V4_src, Cert.Value.R1.region1_arrAt, out0, V3_w, bias1]

theorem out2 (c : Dev nD) : W5 m ρ hR c (Proc.devRef .tc main_v20) = g2 m c := by
  rw [W5_out, Cert.Value.R2.region2_arrAt, out1, show V4 m ρ hR c main_arg4 = arg m c main_arg4 from kept4 m ρ hR c _ (by decide)]

theorem src3 (c : Dev nD) : V6 m ρ hR c main_v37 = p2 m c := by
  rw [V6_src, after_hostOps3, out2, show W5 m ρ hR c (Proc.devRef .tc main_arg1) = arg m c main_arg1 from kept5 m ρ hR c _ (by decide),
    show W5 m ρ hR c (Proc.devRef .tc main_arg2) = arg m c main_arg2 from kept5 m ρ hR c _ (by decide)]
  exact Cert.Value.propagate_eq _ _ _

theorem out3 (c : Dev nD) : V8 m ρ hR c main_v38 = Cert.Spec.rows (p2 m c) (arg m c main_arg5) := by
  rw [V8_x, Cert.Value.R3.region3_arrAt, src3, show V6 m ρ hR c main_arg5 = arg m c main_arg5 from kept6 m ρ hR c _ (by decide)]

theorem bias4 (c : Dev nD) : V8 m ρ hR c main_v39 = Cert.Spec.biasRow (arg m c main_arg10) := by
  rw [V8_b, after_hostOps4, show W7 m ρ hR c (Proc.devRef .tc main_arg10) = arg m c main_arg10 from kept7 m ρ hR c _ (by decide)]
  exact Cert.Value.biasRow64 _

theorem out4 (c : Dev nD) : V9 m ρ hR c main_v40
    = Cert.Spec.affine (Cert.Spec.rows (p2 m c) (arg m c main_arg5)) (arg m c main_arg9) (Cert.Spec.biasRow (arg m c main_arg10)) := by
  rw [V9_src, Cert.Value.R4.region4_arrAt, out3, V8_w, bias4]

/-- The kernel's result array ends at `whole` of the arguments. -/
theorem result (c : Dev nD) : W11 m ρ hR c (Proc.devRef .tc main_v42)
    = Cert.RefClaims.whole (arg m c main_arg0) (arg m c main_arg1) (arg m c main_arg2) (arg m c main_arg3) (arg m c main_arg4) (arg m c main_arg5)
        (arg m c main_arg6) (arg m c main_arg7) (arg m c main_arg8) (arg m c main_arg9) (arg m c main_arg10) := by
  rw [W11_out, Cert.Value.R6.region6_arrAt, V10_x, Cert.Value.R5.region5_arrAt, out4,
    show V9 m ρ hR c main_arg6 = arg m c main_arg6 from kept9 m ρ hR c _ (by decide)]
  rfl

end Cert.Bridge

end
-- ==== Proof.lean ====
import proofs.«407256_j33208687133423_1_alg».proof.Defs
import proofs.«407256_j33208687133423_1_alg».proof.Proof.Gen.Kernel
import proofs.«407256_j33208687133423_1_alg».proof.Proof.Gen.KernelIdeal
import proofs.«407256_j33208687133423_1_alg».proof.Proof.Gen.ReferenceIdeal
import proofs.«407256_j33208687133423_1_alg».proof.Proof.Gen.Pre_finite_inputs
import proofs.«407256_j33208687133423_1_alg».proof.Proof.TableRanges
import proofs.«407256_j33208687133423_1_alg».proof.Proof.Kernel.Run
import proofs.«407256_j33208687133423_1_alg».proof.Proof.KernelIdeal.Run
import proofs.«407256_j33208687133423_1_alg».proof.Proof.Bridge
import proofs.«407256_j33208687133423_1_alg».proof.Proof.RefClaims

noncomputable section

namespace Cert.Proof

open Idealize.ShloMosaic Idealize.ShloMosaic.TcCoe Idealize.SL.Sem

/-- The precondition bounds every word of the four tables, at either reading of the kernel. -/
theorem rangesWord (m : (ℓ : Loc Cert.Kernel.nD Cert.Kernel.τ Cert.Kernel.sig) → Buf (Elt Bits) ℓ) (h : Cert.Pre_Kernel m) : Cert.Kernel.Hand.Ranges m :=
  Cert.TableRanges.of_pre (F := Bits) _ _ _ _ _ _ _ _ _ _ _ (h 0)

theorem rangesIdeal (m : (ℓ : Loc Cert.KernelIdeal.nD Cert.KernelIdeal.τ Cert.KernelIdeal.sig) → Buf (Elt Ideal) ℓ) (h : Cert.Pre_KernelIdeal m) : Cert.KernelIdeal.Hand.Ranges m :=
  Cert.TableRanges.of_pre (F := Ideal) _ _ _ _ _ _ _ _ _ _ _ (h 0)

theorem frame_word : Cert.frame_Kernel := fun m ρ h => Cert.Kernel.Hand.frame m ρ (rangesWord m h)

theorem frame_ideal : Cert.frame_KernelIdeal := fun m ρ h => Cert.KernelIdeal.Hand.frame m ρ (rangesIdeal m h)

open Cert.KernelIdeal Cert.Bridge in

theorem algebraic : Cert.algebraic_KernelIdeal_ReferenceIdeal := by
  intro m ρ m' ρ' hpre hagree
  have hR := rangesIdeal m hpre
  refine ⟨fun c => Cert.RefClaims.whole (arg m c main_arg0) (arg m c main_arg1) (arg m c main_arg2) (arg m c main_arg3) (arg m c main_arg4) (arg m c main_arg5)
    (arg m c main_arg6) (arg m c main_arg7) (arg m c main_arg8) (arg m c main_arg9) (arg m c main_arg10), ?_, ?_⟩
  · exact (θ_run Cert.KernelIdeal.defs _ _).mono (fun _ h c => ⟨(h c).1.trans (Cert.Bridge.result m ρ hR c), (h c).2⟩)
      (Cert.KernelIdeal.Hand.run_value (F := Ideal) m ρ hR)
  · refine (θ_run Cert.ReferenceIdeal.defs _ _).mono (fun _ h c => ⟨(h c).1.trans ?_, (h c).2⟩) (Cert.RefClaims.run_whole m' ρ'
      (fun c k => by obtain rfl : c = 0 := Subsingleton.elim _ _; rw [(hagree 0).2.2.2.1]; exact hR.1 k)
      (fun c k => by obtain rfl : c = 0 := Subsingleton.elim _ _; rw [(hagree 0).2.2.2.2.1]; exact hR.2.1 k)
      (fun c k => by obtain rfl : c = 0 := Subsingleton.elim _ _; rw [(hagree 0).2.2.2.2.2.1]; exact hR.2.2.1 k)
      (fun c k => by obtain rfl : c = 0 := Subsingleton.elim _ _; rw [(hagree 0).2.2.2.2.2.2.1]; exact hR.2.2.2 k))
    rw [(hagree c).1, (hagree c).2.1, (hagree c).2.2.1, (hagree c).2.2.2.1, (hagree c).2.2.2.2.1, (hagree c).2.2.2.2.2.1,
      (hagree c).2.2.2.2.2.2.1, (hagree c).2.2.2.2.2.2.2.1, (hagree c).2.2.2.2.2.2.2.2.1, (hagree c).2.2.2.2.2.2.2.2.2.1,
      (hagree c).2.2.2.2.2.2.2.2.2.2]

theorem claim : Cert.Claim :=
  ⟨Cert.Kernel.Gen.facts, Cert.KernelIdeal.Gen.facts, Cert.ReferenceIdeal.Gen.facts, Cert.Pre_finite_inputs.Gen.facts,
    frame_word, frame_ideal, Cert.RefClaims.frame, trivial, algebraic⟩

end Cert.Proof

end
